-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩
abbrev S1x800000 : Shape := ⟨2, ![1, 800000]⟩
abbrev S800000 : Shape := ⟨1, ![800000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_c_13 : IVec S_ 1 := constantI S_ 1 1#1
  let main_v38 : IVec S_ 1 := (fun x v => Host.reduce IntOp.andi x v reducesTo_S800000_S_d0 h_S_) main_v37 main_c_13
  let main_v39 : IVec S_ 1 := andi main_v33 main_v38
  let main_v40 : IVec S1x800000 32 := (extractStridedSlice S1x800000 ![0, 0] · slices_S2x800000_S1x800000_0_0) main_arg1
  let main_v41 : IVec S800000 32 := shapeCast S800000 main_v40 shapeCasts_S1x800000_S800000
  let main_c_14 : IVec S_ 32 := constantI S_ 32 50000#32
  let main_v42 : IVec S800000 32 := broadcastInDim S800000 ![] bcast_S_S800000 main_c_14
  let main_v43 : IVec S800000 1 := cmpi .slt main_v41 main_v42
  let main_c_15 : IVec S_ 1 := constantI S_ 1 1#1
  let main_v44 : IVec S_ 1 := (fun x v => Host.reduce IntOp.andi x v reducesTo_S800000_S_d0 h_S_) main_v43 main_c_15
  let main_v45 : IVec S_ 1 := andi main_v39 main_v44
  main_v45

def fn_part1 {F : FTy → Type} [FloatOps F] (main_arg1 : IVec S2x800000 32) (main_arg5 : FVec F S256x256 .f32) (main_arg6 : FVec F S256 .f32) (main_arg7 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S51200 : Shape := ⟨1, ![51200]⟩
abbrev S51200x1 : Shape := ⟨2, ![51200, 1]⟩
abbrev S800768 : Shape := ⟨1, ![800768]⟩
abbrev S800768x1 : Shape := ⟨2, ![800768, 1]⟩
abbrev S1x800768 : Shape := ⟨2, ![1, 800768]⟩
abbrev S51200x256 : Shape := ⟨2, ![51200, 256]⟩
abbrev S800768x256 : Shape := ⟨2, ![800768, 256]⟩
abbrev S2048x1 : Shape := ⟨2, ![2048, 1]⟩
abbrev S2048x256 : Shape := ⟨2, ![2048, 256]⟩
abbrev S1x2048 : Shape := ⟨2, ![1, 2048]⟩
abbrev S2048x2048 : Shape := ⟨2, ![2048, 2048]⟩
abbrev S1x256 : Shape := ⟨2, ![1, 256]⟩

abbrev nBuf : Space → Nat
  | .hbm => 52
  | .vmem => 46
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S51200, .f32⟩
  | .hbm, ⟨21, _⟩ => ⟨S51200x1, .f32⟩
  | .hbm, ⟨22, _⟩ => ⟨S_, .i32⟩
  | .hbm, ⟨23, _⟩ => ⟨S_, .i32⟩
  | .hbm, ⟨24, _⟩ => ⟨S800768, .i32⟩
  | .hbm, ⟨25, _⟩ => ⟨S800768x1, .i32⟩
  | .hbm, ⟨26, _⟩ => ⟨S_, .i32⟩
  | .hbm, ⟨27, _⟩ => ⟨S_, .i32⟩
  | .hbm, ⟨28, _⟩ => ⟨S800768, .i32⟩
  | .hbm, ⟨29, _⟩ => ⟨S1x800768, .i32⟩
  | .hbm, ⟨30, _⟩ => ⟨S_, .i32⟩
  | .hbm, ⟨31, _⟩ => ⟨S_, .f32⟩
  | .hbm, ⟨32, _⟩ => ⟨S51200x256, .f32⟩
  | .hbm, ⟨33, _⟩ => ⟨S800768x256, .bf16⟩
  | .hbm, ⟨34, _⟩ => ⟨S51200x256, .f32⟩
  | .hbm, ⟨35, _⟩ => ⟨S_, .f32⟩
  | .hbm, ⟨36, _⟩ => ⟨S51200x1, .f32⟩
  | .hbm, ⟨37, _⟩ => ⟨S51200x1, .f32⟩
  | .hbm, ⟨38, _⟩ => ⟨S51200x256, .f32⟩
  | .hbm, ⟨39, _⟩ => ⟨S51200x256, .f32⟩
  | .hbm, ⟨40, _⟩ => ⟨S1x256, .f32⟩
  | .hbm, ⟨41, _⟩ => ⟨S51200x256, .f32⟩
  | .hbm, ⟨42, _⟩ => ⟨S800768x256, .bf16⟩
  | .hbm, ⟨43, _⟩ => ⟨S51200x256, .f32⟩
  | .hbm, ⟨44, _⟩ => ⟨S_, .f32⟩
  | .hbm, ⟨45, _⟩ => ⟨S51200x1, .f32⟩
  | .hbm, ⟨46, _⟩ => ⟨S51200x1, .f32⟩
  | .hbm, ⟨47, _⟩ => ⟨S51200x256, .f32⟩
  | .hbm, ⟨48, _⟩ => ⟨S51200x256, .f32⟩
  | .hbm, ⟨49, _⟩ => ⟨S1x256, .f32⟩
  | .hbm, ⟨50, _⟩ => ⟨S51200x256, .f32⟩
  | .hbm, ⟨51, _⟩ => ⟨S50000x256, .f32⟩
  | .local _ .vmem, ⟨0, _⟩ => ⟨S2048x1, .i32⟩
  | .local _ .vmem, ⟨1, _⟩ => ⟨S2048x1, .i32⟩
  | .local _ .vmem, ⟨2, _⟩ => ⟨S2048x256, .f32⟩
  | .local _ .vmem, ⟨3, _⟩ => ⟨S2048x256, .f32⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | .local _ .vmem, ⟨7, _⟩ => ⟨S1x2048, .i32⟩
  | .local _ .vmem, ⟨8, _⟩ => ⟨S1x2048, .i32⟩
  | .local _ .vmem, ⟨9, _⟩ => ⟨S2048x256, .bf16⟩
  | .local _ .vmem, ⟨10, _⟩ => ⟨S2048x256, .bf16⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S2048x256, .f32⟩
  | .local _ .vmem, ⟨22, _⟩ => ⟨S2048x256, .f32⟩
  | .local _ .vmem, ⟨23, _⟩ => ⟨S2048x1, .i32⟩
  | .local _ .vmem, ⟨24, _⟩ => ⟨S2048x1, .i32⟩
  | .local _ .vmem, ⟨25, _⟩ => ⟨S2048x256, .f32⟩
  | .local _ .vmem, ⟨26, _⟩ => ⟨S2048x256, .f32⟩
  | .local _ .vmem, ⟨27, _⟩ => ⟨S2048x256, .bf16⟩
  | .local _ .vmem, ⟨28, _⟩ => ⟨S2048x256, .bf16⟩
  | .local _ .vmem, ⟨29, _⟩ => ⟨S2048x256, .f32⟩
  | .local _ .vmem, ⟨30, _⟩ => ⟨S1x2048, .i32⟩
  | .local _ .vmem, ⟨31, _⟩ => ⟨S1x2048, .i32⟩
  | .local _ .vmem, ⟨32, _⟩ => ⟨S2048x256, .bf16⟩
  | .local _ .vmem, ⟨33, _⟩ => ⟨S2048x256, .bf16⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S2048x256, .f32⟩
  | .local _ .vmem, ⟨38, _⟩ => ⟨S2048x256, .f32⟩
  | .local _ .vmem, ⟨39, _⟩ => ⟨S2048x256, .f32⟩
  | .local _ .vmem, ⟨40, _⟩ => ⟨S2048x256, .f32⟩
  | .local _ .vmem, ⟨41, _⟩ => ⟨S256x256, .f32⟩
  | .local _ .vmem, ⟨42, _⟩ => ⟨S1x256, .f32⟩
  | .local _ .vmem, ⟨43, _⟩ => ⟨S256x256, .f32⟩
  | .local _ .vmem, ⟨44, _⟩ => ⟨S2048x256, .f32⟩
  | .local _ .vmem, ⟨45, _⟩ => ⟨S2048x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_call2_v0 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_call3_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41

abbrev nD : Nat := 1
abbrev τ : Topo := Topo.v7x

variable {F : FTy → Type} [FloatOps F]

abbrev grid0 : Pipeline.Grid := ⟨2, ![391, 25], ![false, false]⟩

def k0_cond2 (i : grid0.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![25, 391], ![false, false]⟩

def k1_cond2 (i : grid1.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![391, 25], ![false, false]⟩

def k3_cond2 (i : grid3.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_8 : BitVec 32 := 0#32
  let v26 : BitVec 1 := Scalar.cmpi .ne v25 c0_i32_8
  v26

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![25, 391], ![false, false]⟩

def k4_cond2 (i : grid4.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x2048 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2048x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S50000_S51200_012000 : S50000.Pads (![0] : Fin 1 → Nat) ![1200] ![0] S51200
  h_S_ : 0 < S_.numel
  shapeCasts_S51200_S51200x1 : S51200.ShapeCasts S51200x1
  pads_S800000_S800768_07680 : S800000.Pads (![0] : Fin 1 → Nat) ![768] ![0] S800768
  shapeCasts_S800768_S800768x1 : S800768.ShapeCasts S800768x1
  shapeCasts_S800768_S1x800768 : S800768.ShapeCasts S1x800768
  pads_S50000x256_S51200x256_012000_000 : S50000x256.Pads (![0, 0] : Fin 2 → Nat) ![1200, 0] ![0, 0] S51200x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x2048_d1_w32 : S1x2048.Iotas .tc 32 [1]
  broadcasts_S2048x1_S2048x2048 : S2048x1.Broadcasts S2048x2048
  broadcasts_S1x2048_S2048x2048 : S1x2048.Broadcasts S2048x2048
  natLt_1_32 : 1 < 32
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S2048x1_d0_w32 : S2048x1.Iotas .tc 32 [0]
  bcast_S_S51200x1 : S_.BroadcastsInDim S51200x1 (![] : Fin 0 → Fin S51200x1.rank)
  bcast_S51200x1_S51200x256_0_1 : S51200x1.BroadcastsInDim S51200x256 (![0, 1] : Fin 2 → Fin S51200x256.rank)
  shapeCasts_S256_S1x256 : S256.ShapeCasts S1x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S51200x256_S50000x256_0_0 : S51200x256.Slices ![0, 0] S50000x256
  scatter_S50000_S800000x1_S800000_n_0_0_1_wf : ScatterDims.WF S50000 S800000x1 S800000 [] [0] [0] 1
  dot_S2048x2048_S2048x256_S2048x256_1_0_0_1_n_n_wf : DotDims.WF S2048x2048 S2048x256 S2048x256 [1] [0] [0] [1] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S800768x1.size a
  hwx0_0 : ∀ i : grid0.Coords, EltTy.bits .i32 = 32 ∨ (Rect.block (s := S800768x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S51200x256.size a
  hwx0_1 : ∀ i : grid0.Coords, EltTy.bits .f32 = 32 ∨ (Rect.block (s := S51200x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S800768x256.size a
  hwx0_2 : ∀ i : grid0.Coords, EltTy.bits .bf16 = 32 ∨ (Rect.block (s := S800768x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x800768.size a
  hwx1_0 : ∀ i : grid1.Coords, EltTy.bits .i32 = 32 ∨ (Rect.block (s := S1x800768) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S800768x256.size a
  hwx1_1 : ∀ i : grid1.Coords, EltTy.bits .bf16 = 32 ∨ (Rect.block (s := S800768x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S51200x256.size a
  hwx1_2 : ∀ i : grid1.Coords, EltTy.bits .f32 = 32 ∨ (Rect.block (s := S51200x256) S2048x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S51200x256.size a
  hwx2_0 : ∀ i : grid2.Coords, EltTy.bits .f32 = 32 ∨ (Rect.block (s := S51200x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S51200x256.size a
  hwx2_1 : ∀ i : grid2.Coords, EltTy.bits .f32 = 32 ∨ (Rect.block (s := S51200x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x256.size a ≤ S51200x256.size a
  hwx2_5 : ∀ i : grid2.Coords, EltTy.bits .f32 = 32 ∨ (Rect.block (s := S51200x256) S2048x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1.size a ≤ S800768x1.size a
  hwx3_0 : ∀ i : grid3.Coords, EltTy.bits .i32 = 32 ∨ (Rect.block (s := S800768x1) S2048x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S51200x256.size a
  hwx3_1 : ∀ i : grid3.Coords, EltTy.bits .f32 = 32 ∨ (Rect.block (s := S51200x256) S2048x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S800768x256.size a
  hwx3_2 : ∀ i : grid3.Coords, EltTy.bits .bf16 = 32 ∨ (Rect.block (s := S800768x256) S2048x256.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048.size a ≤ S1x800768.size a
  hwx4_0 : ∀ i : grid4.Coords, EltTy.bits .i32 = 32 ∨ (Rect.block (s := S1x800768) S1x2048.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S800768x256.size a
  hwx4_1 : ∀ i : grid4.Coords, EltTy.bits .bf16 = 32 ∨ (Rect.block (s := S800768x256) S2048x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x256.size a ≤ S51200x256.size a
  hwx4_2 : ∀ i : grid4.Coords, EltTy.bits .f32 = 32 ∨ (Rect.block (s := S51200x256) S2048x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S51200x256.size a
  hwx5_0 : ∀ i : grid5.Coords, EltTy.bits .f32 = 32 ∨ (Rect.block (s := S51200x256) S2048x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S51200x256.size a
  hwx5_1 : ∀ i : grid5.Coords, EltTy.bits .f32 = 32 ∨ (Rect.block (s := S51200x256) S2048x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x256.size a ≤ S51200x256.size a
  hwx5_5 : ∀ i : grid5.Coords, EltTy.bits .f32 = 32 ∨ (Rect.block (s := S51200x256) S2048x256.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_v11) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v13) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v20) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S2048x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v11) S2048x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v13) S1x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S2048x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v28) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v22) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg5) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg7) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v30) S2048x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 81
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S256x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S256x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S256x256, .f32⟩
  | .hbm, ⟨79, _⟩ => ⟨S50000x256, .f32⟩
  | .hbm, ⟨80, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KGather0A.lean ====
import proofs.«417335_j4861902979554_2_alg».proof.Proof.Gen.Kernel.Launch
import proofs.«417335_j4861902979554_2_alg».proof.Proof.Gen.Kernel.Skeleton
import proofs.«417335_j4861902979554_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

theorem coords0_1 (t : Fin cfg0.N) : ((grid0.coords t) 1).val = t.val % 25 := by
  show t.val / 1 % 25 = t.val % 25
  rw [Nat.div_one]

abbrev cond0_0 (i : grid0.Coords) : Prop := (Scalar.cmpi .ne (Scalar.extui (Scalar.cmpi .eq (BitVec.ofNat 32 (i 1).val) 0#32)) 0#32) = 1#1
theorem cond0_0_word : ∀ k : Fin 25, ((Scalar.cmpi .ne (Scalar.extui (Scalar.cmpi .eq (BitVec.ofNat 32 k.val) 0#32)) 0#32) = 1#1) ↔ k.val = 0 := by decide
theorem hcond0_0 (t : Fin cfg0.N) : cond0_0 (grid0.coords t) ↔ t.val % 25 = 0 := by
  unfold cond0_0
  rw [coords0_1 t]
  exact cond0_0_word ⟨t.val % 25, Nat.mod_lt _ (by decide)⟩

abbrev cond0_1 (i : grid0.Coords) : Prop := k0_cond2 i = 1#1
theorem cond0_1_word : ∀ k : Fin 25, ((Scalar.cmpi .ne (Scalar.extui (Scalar.cmpi .eq (BitVec.ofNat 32 k.val) 24#32)) 0#32) = 1#1) ↔ k.val = 24 := by decide
theorem hcond0_1 (t : Fin cfg0.N) : cond0_1 (grid0.coords t) ↔ t.val % 25 = 24 := by
  unfold cond0_1 k0_cond2
  simp only []
  rw [coords0_1 t]
  exact cond0_1_word ⟨t.val % 25, Nat.mod_lt _ (by decide)⟩

theorem liveAt0_0 (t : Fin cfg0.N) : cfg0.idle 0 (grid0.coords t) = false := rfl
theorem liveAt0_1 (t : Fin cfg0.N) : cfg0.idle 1 (grid0.coords t) = false := rfl

theorem idleAt0_2 (t : Fin cfg0.N) (h : ¬cond0_1 (grid0.coords t)) : cfg0.idle 2 (grid0.coords t) = true := by
  show (!(k0_cond2 (grid0.coords t) == 1#1)) = true
  simp [h]
theorem liveAt0_2 (t : Fin cfg0.N) (h : cond0_1 (grid0.coords t)) : cfg0.idle 2 (grid0.coords t) = false := by
  show (!(k0_cond2 (grid0.coords t) == 1#1)) = false
  simp [h]
theorem noFlush0_2 (t : Fin cfg0.N) (h : ¬cond0_1 (grid0.coords t)) : (cfg0.win 2).flush t = false := by
  have hf := flush0_2 t
  rw [← hcond0_1 t] at hf
  cases hv : (cfg0.win 2).flush t
  · rfl
  · exact absurd (hf.mp hv) h

abbrev VO0_2 : View sig .tc .vmem S2048x256 .bf16 := (Memref.whole cc0_stg2_0 : Memref sig .tc .vmem S2048x256 .bf16).view
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)

abbrev scM0_0 : Memref sig .tc .vmem S2048x256 .f32 := Memref.whole cc0_scratch0
abbrev VS0_0 : View sig .tc .vmem S2048x256 .f32 := scM0_0.view

variable (c : Dev nD) (i : grid0.Coords) (arg2 : Memref sig .tc .vmem S2048x1 .i32) (harg2 : arg2.IsWhole) (arg3 : Memref sig .tc .vmem S2048x256 .f32) (harg3 : arg3.IsWhole) (arg4 : Memref sig .tc .vmem S2048x256 .bf16) (harg4 : arg4.IsWhole) (arg5 : Memref sig .tc .vmem S2048x256 .f32) (harg5 : arg5.IsWhole)

set_option maxHeartbeats 4000000 in

noncomputable def kernelRun0_A (hc0 : cond0_0 i) (hc1 : ¬cond0_1 i)
    (x0 : Vec F S2048x1 .i32) (x1 : Vec F S2048x256 .f32) :
    Σ' (L2 : List (View.Piece (Elt F) S2048x256 .bf16)), { LS0 : List (View.Piece (Elt F) S2048x256 .f32) //
      ∀ (xi2 : Vec F S2048x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in

noncomputable def kernelRun0_B (hc0 : ¬cond0_0 i) (hc1 : ¬cond0_1 i)
    (x0 : Vec F S2048x1 .i32) (x1 : Vec F S2048x256 .f32) (xs0 : Vec F S2048x256 .f32) :
    Σ' (L2 : List (View.Piece (Elt F) S2048x256 .bf16)), { LS0 : List (View.Piece (Elt F) S2048x256 .f32) //
      ∀ (xi2 : Vec F S2048x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in

noncomputable def kernelRun0_C (hc0 : ¬cond0_0 i) (hc1 : cond0_1 i)
    (x0 : Vec F S2048x1 .i32) (x1 : Vec F S2048x256 .f32) (xs0 : Vec F S2048x256 .f32) :
    Σ' (L2 : List (View.Piece (Elt F) S2048x256 .bf16)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg

end
-- ==== Proof.KGather0B.lean ====
import proofs.«417335_j4861902979554_2_alg».proof.Proof.KGather0A

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem PhiA0_eq (c : Dev nD) :
    (Pipeline.ΦA spec0 c : sProp 𝕄)
      = iprop(iprop(iprop((∃ d, owns (c : Thread nD τ) scM0_0 fullShare d)) ∗ Pipeline.scopedRestBut spec0 c [cc0_scratch0]) ∗ (∃ r, prngReg c r)) := by
  unfold Pipeline.ΦA; rw [scopedRest0_split]; simp only [scM0_0, owns_whole]; try rfl

section Cases
variable (c : Dev nD) (i : grid0.Coords) (arg2 : Memref sig .tc .vmem S2048x1 .i32) (harg2 : arg2.IsWhole) (arg3 : Memref sig .tc .vmem S2048x256 .f32) (harg3 : arg3.IsWhole) (arg4 : Memref sig .tc .vmem S2048x256 .bf16) (harg4 : arg4.IsWhole) (arg5 : Memref sig .tc .vmem S2048x256 .f32) (harg5 : arg5.IsWhole)

theorem scover0_A (hc0 : cond0_0 i) (hc1 : ¬cond0_1 i) (x0 : Vec F S2048x1 .i32) (x1 : Vec F S2048x256 .f32) (y : S2048x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x256.size (by sl_kernel_rfl) y

def res0_A (hc0 : cond0_0 i) (hc1 : ¬cond0_1 i) (x0 : Vec F S2048x1 .i32) (x1 : Vec F S2048x256 .f32) : Vec F S2048x256 .bf16 × Vec F S2048x256 .f32 :=
  (VO0_2.read (Elt F) (VO0_2.writes (Elt F) VO0_2.junk (kernelRun0_A c i arg2 harg2 arg3 harg3 arg4 harg4 arg5 harg5 hc0 hc1 x0 x1).1),
    VS0_0.read (Elt F) (VS0_0.writes (Elt F) VS0_0.junk (kernelRun0_A c i arg2 harg2 arg3 harg3 arg4 harg4 arg5 harg5 hc0 hc1 x0 x1).2.1))

theorem scover0_B (hc0 : ¬cond0_0 i) (hc1 : ¬cond0_1 i) (x0 : Vec F S2048x1 .i32) (x1 : Vec F S2048x256 .f32) (xs0 : Vec F S2048x256 .f32) (y : S2048x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x256.size (by sl_kernel_rfl) y

def res0_B (hc0 : ¬cond0_0 i) (hc1 : ¬cond0_1 i) (x0 : Vec F S2048x1 .i32) (x1 : Vec F S2048x256 .f32) (xs0 : Vec F S2048x256 .f32) : Vec F S2048x256 .bf16 × Vec F S2048x256 .f32 :=
  (VO0_2.read (Elt F) (VO0_2.writes (Elt F) VO0_2.junk (kernelRun0_B c i arg2 harg2 arg3 harg3 arg4 harg4 arg5 harg5 hc0 hc1 x0 x1 xs0).1),
    VS0_0.read (Elt F) (VS0_0.writes (Elt F) VS0_0.junk (kernelRun0_B c i arg2 harg2 arg3 harg3 arg4 harg4 arg5 harg5 hc0 hc1 x0 x1 xs0).2.1))

theorem scover0_C (hc0 : ¬cond0_0 i) (hc1 : cond0_1 i) (x0 : Vec F S2048x1 .i32) (x1 : Vec F S2048x256 .f32) (xs0 : Vec F S2048x256 .f32) (y : S2048x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x256.size (by sl_kernel_rfl) y
theorem cover0_C (hc0 : ¬cond0_0 i) (hc1 : cond0_1 i) (x0 : Vec F S2048x1 .i32) (x1 : Vec F S2048x256 .f32) (xs0 : Vec F S2048x256 .f32) (y : S2048x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x256.size (by sl_kernel_rfl) y

def res0_C (hc0 : ¬cond0_0 i) (hc1 : cond0_1 i) (x0 : Vec F S2048x1 .i32) (x1 : Vec F S2048x256 .f32) (xs0 : Vec F S2048x256 .f32) : Vec F S2048x256 .bf16 × Vec F S2048x256 .f32 :=
  (VO0_2.read (Elt F) (VO0_2.writes (Elt F) VO0_2.junk (kernelRun0_C c i arg2 harg2 arg3 harg3 arg4 harg4 arg5 harg5 hc0 hc1 x0 x1 xs0).1),
    VS0_0.read (Elt F) (VS0_0.writes (Elt F) VS0_0.junk (kernelRun0_C c i arg2 harg2 arg3 harg3 arg4 harg4 arg5 harg5 hc0 hc1 x0 x1 xs0).2.1))

end Cases

def outsAt0 (c : Dev nD) : (n : ℕ) → n < cfg0.N → Vec F S2048x256 .bf16 × Vec F S2048x256 .f32
  | 0, hn => res0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 25 = 0 then
      if h1 : (n + 1) % 25 = 24 then
        False.elim (by omega)
      else
        res0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 25 = 24 then
        res0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2
      else
        res0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2

theorem outsAt0_A (c : Dev nD) (t : Fin cfg0.N) (h0 : t.val % 25 = 0) (h1 : ¬t.val % 25 = 24) :
    outsAt0 V c t.val t.isLt = res0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = res0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = res0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2)) ∗ Pipeline.scopedRestBut spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2)) ∗ Pipeline.scopedRestBut spec0 c [cc0_scratch0]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2)) ∗ Pipeline.scopedRestBut spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end Cert.Kernel.Reg

end
-- ==== Proof.KGather0C.lean ====
import proofs.«417335_j4861902979554_2_alg».proof.Proof.KGather0B

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any0 (c : Dev nD) (t : Fin (cfg0.N + 1)) : (dat0 V c).Φ t
    ⊢ iprop(iprop(iprop((∃ d, owns (c : Thread nD τ) scM0_0 fullShare d)) ∗ Pipeline.scopedRestBut spec0 c [cc0_scratch0]) ∗ (∃ r, prngReg c r)) := by
  rw [← PhiA0_eq, show (dat0 V c).Φ t = PhiS0 V c t.val (Nat.le_of_lt_succ t.isLt) from rfl]
  by_cases ht : t.val = 0
  · rw [PhiS0_zero V c _ _ ht]
  rw [PhiS0_pos V c _ _ ht, PhiA0_eq]
  iintro ⟨⟨HS0, Hrb⟩, Hg⟩
  isplitl [HS0 Hrb]
  · isplitl [HS0]
    · iexists _; iexact HS0
    iexact Hrb
  iexact Hg

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 9775 := lt_of_lt_of_eq t.isLt (show cfg0.N = 9775 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 25 = 24
  · have h0 : ¬t.val % 25 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold res0_C; (try dsimp only)
    rw [PhiS0_castSucc V c t, PhiS0_pos V c _ _ hz]
    iintro ⟨⟨⟨HS0, Hrb⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover0_C c _ _ _ _ _ _ _ _ _ _ _ _ _ _)
        iexact Hrb
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 25 = 0
    · rw [outsAt0_A V c t h0 h1]
      unfold res0_A; (try dsimp only)
      iintro ⟨HΦ, Ho, ⟨%d0, H0⟩, ⟨%d1, H1⟩, ⟨%d2, H2⟩⟩
      ihave H := Phi_any0 V c t.castSucc $$ HΦ
      icases H with ⟨⟨HS0, Hrb⟩, Hg⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A c _ _ _ _ _ _ _ _ _ _ _ _ _)
          iexact Hrb
        iexact Hg
      isplitl [Ho]; · iexact Ho
      isplitl [H0]; · iexact H0
      isplitl [H1]; · iexact H1
      iexists _; iexact H2
    · have hz : t.val ≠ 0 := fun e => h0 (by rw [e])
      rw [outsAt0_B V c t h0 h1]
      unfold res0_B; (try dsimp only)
      rw [PhiS0_castSucc V c t, PhiS0_pos V c _ _ hz]
      iintro ⟨⟨⟨HS0, Hrb⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B c _ _ _ _ _ _ _ _ _ _ _ _ _ _)
          iexact Hrb
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [PhiA0_eq]; exact Phi_any0 V c _

end Cert.Kernel.Reg

end
-- ==== Proof.KScatter1A.lean ====
import proofs.«417335_j4861902979554_2_alg».proof.Proof.Gen.Kernel.Launch
import proofs.«417335_j4861902979554_2_alg».proof.Proof.Gen.Kernel.Skeleton
import proofs.«417335_j4861902979554_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

theorem coords1_1 (t : Fin cfg1.N) : ((grid1.coords t) 1).val = t.val % 391 := by
  show t.val / 1 % 391 = t.val % 391
  rw [Nat.div_one]

abbrev cond1_0 (i : grid1.Coords) : Prop := (Scalar.cmpi .ne (Scalar.extui (Scalar.cmpi .eq (BitVec.ofNat 32 (i 1).val) 0#32)) 0#32) = 1#1
theorem cond1_0_word : ∀ k : Fin 391, ((Scalar.cmpi .ne (Scalar.extui (Scalar.cmpi .eq (BitVec.ofNat 32 k.val) 0#32)) 0#32) = 1#1) ↔ k.val = 0 := by decide
theorem hcond1_0 (t : Fin cfg1.N) : cond1_0 (grid1.coords t) ↔ t.val % 391 = 0 := by
  unfold cond1_0
  rw [coords1_1 t]
  exact cond1_0_word ⟨t.val % 391, Nat.mod_lt _ (by decide)⟩

abbrev cond1_1 (i : grid1.Coords) : Prop := k1_cond2 i = 1#1
theorem cond1_1_word : ∀ k : Fin 391, ((Scalar.cmpi .ne (Scalar.extui (Scalar.cmpi .eq (BitVec.ofNat 32 k.val) 390#32)) 0#32) = 1#1) ↔ k.val = 390 := by decide
theorem hcond1_1 (t : Fin cfg1.N) : cond1_1 (grid1.coords t) ↔ t.val % 391 = 390 := by
  unfold cond1_1 k1_cond2
  simp only []
  rw [coords1_1 t]
  exact cond1_1_word ⟨t.val % 391, Nat.mod_lt _ (by decide)⟩

theorem liveAt1_0 (t : Fin cfg1.N) : cfg1.idle 0 (grid1.coords t) = false := rfl
theorem liveAt1_1 (t : Fin cfg1.N) : cfg1.idle 1 (grid1.coords t) = false := rfl

theorem idleAt1_2 (t : Fin cfg1.N) (h : ¬cond1_1 (grid1.coords t)) : cfg1.idle 2 (grid1.coords t) = true := by
  show (!(k1_cond2 (grid1.coords t) == 1#1)) = true
  simp [h]
theorem liveAt1_2 (t : Fin cfg1.N) (h : cond1_1 (grid1.coords t)) : cfg1.idle 2 (grid1.coords t) = false := by
  show (!(k1_cond2 (grid1.coords t) == 1#1)) = false
  simp [h]
theorem noFlush1_2 (t : Fin cfg1.N) (h : ¬cond1_1 (grid1.coords t)) : (cfg1.win 2).flush t = false := by
  have hf := flush1_2 t
  rw [← hcond1_1 t] at hf
  cases hv : (cfg1.win 2).flush t
  · rfl
  · exact absurd (hf.mp hv) h

abbrev VO1_2 : View sig .tc .vmem S2048x256 .f32 := (Memref.whole cc1_stg2_0 : Memref sig .tc .vmem S2048x256 .f32).view
abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)

abbrev scM1_0 : Memref sig .tc .vmem S2048x256 .f32 := Memref.whole cc1_scratch0
abbrev VS1_0 : View sig .tc .vmem S2048x256 .f32 := scM1_0.view

variable (c : Dev nD) (i : grid1.Coords) (arg2 : Memref sig .tc .vmem S1x2048 .i32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)

set_option maxHeartbeats 4000000 in

noncomputable def kernelRun1_A (hc0 : cond1_0 i) (hc1 : ¬cond1_1 i)
    (x0 : Vec F S1x2048 .i32) (x1 : Vec F S2048x256 .bf16) :
    Σ' (L2 : List (View.Piece (Elt F) S2048x256 .f32)), { LS0 : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in

noncomputable def kernelRun1_B (hc0 : ¬cond1_0 i) (hc1 : ¬cond1_1 i)
    (x0 : Vec F S1x2048 .i32) (x1 : Vec F S2048x256 .bf16) (xs0 : Vec F S2048x256 .f32) :
    Σ' (L2 : List (View.Piece (Elt F) S2048x256 .f32)), { LS0 : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in

noncomputable def kernelRun1_C (hc0 : ¬cond1_0 i) (hc1 : cond1_1 i)
    (x0 : Vec F S1x2048 .i32) (x1 : Vec F S2048x256 .bf16) (xs0 : Vec F S2048x256 .f32) :
    Σ' (L2 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg

end
-- ==== Proof.KScatter1B.lean ====
import proofs.«417335_j4861902979554_2_alg».proof.Proof.KScatter1A

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

section Cases
variable (c : Dev nD) (i : grid1.Coords) (arg2 : Memref sig .tc .vmem S1x2048 .i32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)

theorem scover1_A (hc0 : cond1_0 i) (hc1 : ¬cond1_1 i) (x0 : Vec F S1x2048 .i32) (x1 : Vec F S2048x256 .bf16) (y : S2048x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x256.size (by sl_kernel_rfl) y

def res1_A (hc0 : cond1_0 i) (hc1 : ¬cond1_1 i) (x0 : Vec F S1x2048 .i32) (x1 : Vec F S2048x256 .bf16) : Vec F S2048x256 .f32 × Vec F S2048x256 .f32 :=
  (VO1_2.read (Elt F) (VO1_2.writes (Elt F) VO1_2.junk (kernelRun1_A c i arg2 harg2 arg3 harg3 arg4 harg4 arg5 harg5 hc0 hc1 x0 x1).1),
    VS1_0.read (Elt F) (VS1_0.writes (Elt F) VS1_0.junk (kernelRun1_A c i arg2 harg2 arg3 harg3 arg4 harg4 arg5 harg5 hc0 hc1 x0 x1).2.1))

theorem scover1_B (hc0 : ¬cond1_0 i) (hc1 : ¬cond1_1 i) (x0 : Vec F S1x2048 .i32) (x1 : Vec F S2048x256 .bf16) (xs0 : Vec F S2048x256 .f32) (y : S2048x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x256.size (by sl_kernel_rfl) y

def res1_B (hc0 : ¬cond1_0 i) (hc1 : ¬cond1_1 i) (x0 : Vec F S1x2048 .i32) (x1 : Vec F S2048x256 .bf16) (xs0 : Vec F S2048x256 .f32) : Vec F S2048x256 .f32 × Vec F S2048x256 .f32 :=
  (VO1_2.read (Elt F) (VO1_2.writes (Elt F) VO1_2.junk (kernelRun1_B c i arg2 harg2 arg3 harg3 arg4 harg4 arg5 harg5 hc0 hc1 x0 x1 xs0).1),
    VS1_0.read (Elt F) (VS1_0.writes (Elt F) VS1_0.junk (kernelRun1_B c i arg2 harg2 arg3 harg3 arg4 harg4 arg5 harg5 hc0 hc1 x0 x1 xs0).2.1))

theorem scover1_C (hc0 : ¬cond1_0 i) (hc1 : cond1_1 i) (x0 : Vec F S1x2048 .i32) (x1 : Vec F S2048x256 .bf16) (xs0 : Vec F S2048x256 .f32) (y : S2048x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x256.size (by sl_kernel_rfl) y
theorem cover1_C (hc0 : ¬cond1_0 i) (hc1 : cond1_1 i) (x0 : Vec F S1x2048 .i32) (x1 : Vec F S2048x256 .bf16) (xs0 : Vec F S2048x256 .f32) (y : S2048x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x256.size (by sl_kernel_rfl) y

def res1_C (hc0 : ¬cond1_0 i) (hc1 : cond1_1 i) (x0 : Vec F S1x2048 .i32) (x1 : Vec F S2048x256 .bf16) (xs0 : Vec F S2048x256 .f32) : Vec F S2048x256 .f32 × Vec F S2048x256 .f32 :=
  (VO1_2.read (Elt F) (VO1_2.writes (Elt F) VO1_2.junk (kernelRun1_C c i arg2 harg2 arg3 harg3 arg4 harg4 arg5 harg5 hc0 hc1 x0 x1 xs0).1),
    VS1_0.read (Elt F) (VS1_0.writes (Elt F) VS1_0.junk (kernelRun1_C c i arg2 harg2 arg3 harg3 arg4 harg4 arg5 harg5 hc0 hc1 x0 x1 xs0).2.1))

end Cases

def outsAt1 (c : Dev nD) : (n : ℕ) → n < cfg1.N → Vec F S2048x256 .f32 × Vec F S2048x256 .f32
  | 0, hn => res1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 391 = 0 then
      if h1 : (n + 1) % 391 = 390 then
        False.elim (by omega)
      else
        res1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 391 = 390 then
        res1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2
      else
        res1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2

theorem outsAt1_A (c : Dev nD) (t : Fin cfg1.N) (h0 : t.val % 391 = 0) (h1 : ¬t.val % 391 = 390) :
    outsAt1 V c t.val t.isLt = res1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

theorem outsAt1_B (c : Dev nD) (t : Fin cfg1.N) (h0 : ¬t.val % 391 = 0) (h1 : ¬t.val % 391 = 390) :
    outsAt1 V c t.val t.isLt = res1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 391 = 0) (h1 : t.val % 391 = 390) :
    outsAt1 V c t.val t.isLt = res1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.Kernel.Reg

end
-- ==== Proof.KScatter1C.lean ====
import proofs.«417335_j4861902979554_2_alg».proof.Proof.KScatter1B

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any1 (c : Dev nD) (t : Fin (cfg1.N + 1)) : (dat1 V c).Φ t
    ⊢ iprop(iprop(iprop((∃ d, owns (c : Thread nD τ) scM1_0 fullShare d)) ∗ Pipeline.scopedRestBut spec1 c [cc1_scratch0]) ∗ (∃ r, prngReg c r)) := by
  rw [← PhiA1_eq, show (dat1 V c).Φ t = PhiS1 V c t.val (Nat.le_of_lt_succ t.isLt) from rfl]
  by_cases ht : t.val = 0
  · rw [PhiS1_zero V c _ _ ht]
  rw [PhiS1_pos V c _ _ ht, PhiA1_eq]
  iintro ⟨⟨HS0, Hrb⟩, Hg⟩
  isplitl [HS0 Hrb]
  · isplitl [HS0]
    · iexists _; iexact HS0
    iexact Hrb
  iexact Hg

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 9775 := lt_of_lt_of_eq t.isLt (show cfg1.N = 9775 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 391 = 390
  · have h0 : ¬t.val % 391 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold res1_C; (try dsimp only)
    rw [PhiS1_castSucc V c t, PhiS1_pos V c _ _ hz]
    iintro ⟨⟨⟨HS0, Hrb⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover1_C c _ _ _ _ _ _ _ _ _ _ _ _ _ _)
        iexact Hrb
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val % 391 = 0
    · rw [outsAt1_A V c t h0 h1]
      unfold res1_A; (try dsimp only)
      iintro ⟨HΦ, Ho, ⟨%d0, H0⟩, ⟨%d1, H1⟩, ⟨%d2, H2⟩⟩
      ihave H := Phi_any1 V c t.castSucc $$ HΦ
      icases H with ⟨⟨HS0, Hrb⟩, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _)
          iexact Hrb
        iexact Hg
      isplitl [Ho]; · iexact Ho
      isplitl [H0]; · iexact H0
      isplitl [H1]; · iexact H1
      iexists _; iexact H2
    · have hz : t.val ≠ 0 := fun e => h0 (by rw [e])
      rw [outsAt1_B V c t h0 h1]
      unfold res1_B; (try dsimp only)
      rw [PhiS1_castSucc V c t, PhiS1_pos V c _ _ hz]
      iintro ⟨⟨⟨HS0, Hrb⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B c _ _ _ _ _ _ _ _ _ _ _ _ _ _)
          iexact Hrb
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [PhiA1_eq]; exact Phi_any1 V c _

end Cert.Kernel.Reg

end
-- ==== Proof.KCombine2.lean ====
import proofs.«417335_j4861902979554_2_alg».proof.Proof.Gen.Kernel.Launch
import proofs.«417335_j4861902979554_2_alg».proof.Proof.Gen.Kernel.Skeleton
import proofs.«417335_j4861902979554_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rBlock2 : Rect S2048x256 := Rect.unit (s := S2048x256) ![0, 0] S2048x256.size inb_S2048x256_S2048x256_0_0
abbrev rWeight2 : Rect S256x256 := Rect.unit (s := S256x256) ![0, 0] S256x256.size inb_S256x256_S256x256_0_0
abbrev rBias2 : Rect S1x256 := Rect.unit (s := S1x256) ![0, 0] S1x256.size inb_S1x256_S1x256_0_0

def out2_5 (x0 x1 : Vec F S2048x256 .f32) (x2 : Vec F S256x256 .f32) (x3 : Vec F S1x256 .f32) (x4 : Vec F S256x256 .f32) : Vec F S2048x256 .f32 :=
  View.canon [⟨rBlock2, k2_pay1 (View.ld x0 rBlock2) (View.ld x1 rBlock2) (View.ld x2 rWeight2) (View.ld x4 rWeight2) (View.ld x3 rBias2)⟩]

theorem cover2_5 (p0 : Vec F S2048x256 .f32) (y : S2048x256.Idx) :
    ∃ pc ∈ ([⟨rBlock2, p0⟩] : List (View.Piece (Elt F) S2048x256 .f32)), y ∈ pc.1.set :=
  View.cover_of_tiled [⟨rBlock2, p0⟩] S2048x256.size (by rfl) y

set_option maxHeartbeats 1000000 in

theorem sound_kernel2 (c : Dev nD) (E : Set ℕ) (i : grid2.Coords)
    (arg1 : Memref sig .tc .vmem S2048x256 .f32) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S2048x256 .f32) (harg6 : arg6.IsWhole)
    (x0 x1 : Vec F S2048x256 .f32) (x2 : Vec F S256x256 .f32) (x3 : Vec F S1x256 .f32) (x4 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.KGather3A.lean ====
import proofs.«417335_j4861902979554_2_alg».proof.Proof.KGather0A
import proofs.«417335_j4861902979554_2_alg».proof.Proof.Gen.Kernel.Launch
import proofs.«417335_j4861902979554_2_alg».proof.Proof.Gen.Kernel.Skeleton
import proofs.«417335_j4861902979554_2_alg».proof.Proof.Gen.Kernel.Points

noncomputable section

namespace Cert.Kernel.Reg

open Idealize.ShloMosaic Idealize.ShloMosaic.TcCoe Idealize.ShloMosaic.Tactic
open Cert.Kernel Cert.Kernel.Gen

variable {F : FTy → Type} [FloatOps F]

theorem coords3_1 (t : Fin cfg3.N) : ((grid3.coords t) 1).val = t.val % 25 := coords0_1 t

abbrev cond3_0 (i : grid3.Coords) : Prop := cond0_0 i
-- Regions 0 and 3 call one kernel function on grids of one shape: region 0's closed forms of the branch conditions serve here.
theorem hcond3_0 (t : Fin cfg3.N) : cond3_0 (grid3.coords t) ↔ t.val % 25 = 0 := hcond0_0 t

abbrev cond3_1 (i : grid3.Coords) : Prop := k3_cond2 i = 1#1
theorem hcond3_1 (t : Fin cfg3.N) : cond3_1 (grid3.coords t) ↔ t.val % 25 = 24 := hcond0_1 t

theorem liveAt3_0 (t : Fin cfg3.N) : cfg3.idle 0 (grid3.coords t) = false := rfl
theorem liveAt3_1 (t : Fin cfg3.N) : cfg3.idle 1 (grid3.coords t) = false := rfl

theorem idleAt3_2 (t : Fin cfg3.N) (h : ¬cond3_1 (grid3.coords t)) : cfg3.idle 2 (grid3.coords t) = true := by
  show (!(k3_cond2 (grid3.coords t) == 1#1)) = true
  simp [h]
theorem liveAt3_2 (t : Fin cfg3.N) (h : cond3_1 (grid3.coords t)) : cfg3.idle 2 (grid3.coords t) = false := by
  show (!(k3_cond2 (grid3.coords t) == 1#1)) = false
  simp [h]
theorem noFlush3_2 (t : Fin cfg3.N) (h : ¬cond3_1 (grid3.coords t)) : (cfg3.win 2).flush t = false := by
  have hf := flush3_2 t
  rw [← hcond3_1 t] at hf
  cases hv : (cfg3.win 2).flush t
  · rfl
  · exact absurd (hf.mp hv) h

abbrev ms3_0 (t : Fin cfg3.N) : Memref sig .tc .vmem S2048x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x256 .bf16 := win3_2.stage (cfg3.slots t 2)
abbrev hs3_2 (t : Fin cfg3.N) : (ms3_2 t).IsWhole := hstage3_2 ((cfg3.slots t 2).cast nbuf3_2)

abbrev scM3_0 : Memref sig .tc .vmem S2048x256 .f32 := Memref.whole cc3_scratch0

end Cert.Kernel.Reg

end
-- ==== Proof.KGather3B.lean ====
import proofs.«417335_j4861902979554_2_alg».proof.Proof.KGather3A
import proofs.«417335_j4861902979554_2_alg».proof.Proof.KGather0B

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem PhiA3_eq (c : Dev nD) :
    (Pipeline.ΦA spec3 c : sProp 𝕄)
      = iprop(iprop(iprop((∃ d, owns (c : Thread nD τ) scM3_0 fullShare d)) ∗ Pipeline.scopedRestBut spec3 c [cc3_scratch0]) ∗ (∃ r, prngReg c r)) := by
  unfold Pipeline.ΦA; rw [scopedRest3_split]; simp only [scM3_0, owns_whole]; try rfl

-- The same three body runs as region 0, taken at this region's blocks: what the scratch and the output block hold after point n.
def outsAt3 (c : Dev nD) : (n : ℕ) → n < cfg3.N → Vec F S2048x256 .bf16 × Vec F S2048x256 .f32
  | 0, hn => res0_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩)
  | n + 1, hn =>
    if h0 : (n + 1) % 25 = 0 then
      if h1 : (n + 1) % 25 = 24 then
        False.elim (by omega)
      else
        res0_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩)
    else
      if h1 : (n + 1) % 25 = 24 then
        res0_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2
      else
        res0_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2

theorem outsAt3_A (c : Dev nD) (t : Fin cfg3.N) (h0 : t.val % 25 = 0) (h1 : ¬t.val % 25 = 24) :
    outsAt3 V c t.val t.isLt = res0_A c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t) := by
  obtain ⟨n, hn⟩ := t
  cases n with
  | zero => exact rfl
  | succ n => exact (dif_pos h0).trans ((dif_neg h1).trans rfl)

theorem outsAt3_B (c : Dev nD) (t : Fin cfg3.N) (h0 : ¬t.val % 25 = 0) (h1 : ¬t.val % 25 = 24) :
    outsAt3 V c t.val t.isLt = res0_B c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 25 = 0) (h1 : t.val % 25 = 24) :
    outsAt3 V c t.val t.isLt = res0_C c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut spec3 c [cc3_scratch0]) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

end Cert.Kernel.Reg

end
-- ==== Proof.KGather3C.lean ====
import proofs.«417335_j4861902979554_2_alg».proof.Proof.KGather3B

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any3 (c : Dev nD) (t : Fin (cfg3.N + 1)) : (dat3 V c).Φ t
    ⊢ iprop(iprop(iprop((∃ d, owns (c : Thread nD τ) scM3_0 fullShare d)) ∗ Pipeline.scopedRestBut spec3 c [cc3_scratch0]) ∗ (∃ r, prngReg c r)) := by
  rw [← PhiA3_eq, show (dat3 V c).Φ t = PhiS3 V c t.val (Nat.le_of_lt_succ t.isLt) from rfl]
  by_cases ht : t.val = 0
  · rw [PhiS3_zero V c _ _ ht]
  rw [PhiS3_pos V c _ _ ht, PhiA3_eq]
  iintro ⟨⟨HS0, Hrb⟩, Hg⟩
  isplitl [HS0 Hrb]
  · isplitl [HS0]
    · iexists _; iexact HS0
    iexact Hrb
  iexact Hg

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 9775 := lt_of_lt_of_eq t.isLt (show cfg3.N = 9775 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h1 : t.val % 25 = 24
  · have h0 : ¬t.val % 25 = 0 := by omega
    have hz : t.val ≠ 0 := by omega
    rw [show (dat3 V c).leavesExact 2 t = owns (c : Thread nD τ) (ms3_2 t) fullShare ((dat3 V c).after 2 t) from by
      unfold Dat.leavesExact; rw [liveAt3_2 t ((hcond3_1 t).mpr h1)], after3_2]
    rw [outsAt3_C V c t h0 h1]
    unfold res0_C; (try dsimp only)
    rw [PhiS3_castSucc V c t, PhiS3_pos V c _ _ hz]
    iintro ⟨⟨⟨HS0, Hrb⟩, Hg⟩, Ho, ⟨%d0, H0⟩, ⟨%d1, H1⟩, ⟨%d2, H2⟩⟩
    iapply ((kernelRun0_C c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover0_C c _ _ _ _ _ _ _ _ _ _ _ _ _ _)
        iexact Hrb
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat3 V c) 2 t (idleAt3_2 t (fun h => h1 ((hcond3_1 t).mp h))) (noFlush3_2 t (fun h => h1 ((hcond3_1 t).mp h)))]
    by_cases h0 : t.val % 25 = 0
    · rw [outsAt3_A V c t h0 h1]
      unfold res0_A; (try dsimp only)
      iintro ⟨HΦ, Ho, ⟨%d0, H0⟩, ⟨%d1, H1⟩, ⟨%d2, H2⟩⟩
      ihave H := Phi_any3 V c t.castSucc $$ HΦ
      icases H with ⟨⟨HS0, Hrb⟩, Hg⟩
      iapply ((kernelRun0_A c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A c _ _ _ _ _ _ _ _ _ _ _ _ _)
          iexact Hrb
        iexact Hg
      isplitl [Ho]; · iexact Ho
      isplitl [H0]; · iexact H0
      isplitl [H1]; · iexact H1
      iexists _; iexact H2
    · have hz : t.val ≠ 0 := fun e => h0 (by rw [e])
      rw [outsAt3_B V c t h0 h1]
      unfold res0_B; (try dsimp only)
      rw [PhiS3_castSucc V c t, PhiS3_pos V c _ _ hz]
      iintro ⟨⟨⟨HS0, Hrb⟩, Hg⟩, Ho, ⟨%d0, H0⟩, ⟨%d1, H1⟩, ⟨%d2, H2⟩⟩
      iapply ((kernelRun0_B c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B c _ _ _ _ _ _ _ _ _ _ _ _ _ _)
          iexact Hrb
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [PhiA3_eq]; exact Phi_any3 V c _

end Cert.Kernel.Reg

end
-- ==== Proof.KScatter4A.lean ====
import proofs.«417335_j4861902979554_2_alg».proof.Proof.KScatter1A
import proofs.«417335_j4861902979554_2_alg».proof.Proof.Gen.Kernel.Launch
import proofs.«417335_j4861902979554_2_alg».proof.Proof.Gen.Kernel.Skeleton
import proofs.«417335_j4861902979554_2_alg».proof.Proof.Gen.Kernel.Points

noncomputable section

namespace Cert.Kernel.Reg

open Idealize.ShloMosaic Idealize.ShloMosaic.TcCoe Idealize.ShloMosaic.Tactic
open Cert.Kernel Cert.Kernel.Gen

variable {F : FTy → Type} [FloatOps F]

theorem coords4_1 (t : Fin cfg4.N) : ((grid4.coords t) 1).val = t.val % 391 := coords1_1 t

abbrev cond4_0 (i : grid4.Coords) : Prop := cond1_0 i
-- Regions 1 and 4 call one kernel function on grids of one shape: region 1's closed forms of the branch conditions serve here.
theorem hcond4_0 (t : Fin cfg4.N) : cond4_0 (grid4.coords t) ↔ t.val % 391 = 0 := hcond1_0 t

abbrev cond4_1 (i : grid4.Coords) : Prop := k4_cond2 i = 1#1
theorem hcond4_1 (t : Fin cfg4.N) : cond4_1 (grid4.coords t) ↔ t.val % 391 = 390 := hcond1_1 t

theorem liveAt4_0 (t : Fin cfg4.N) : cfg4.idle 0 (grid4.coords t) = false := rfl
theorem liveAt4_1 (t : Fin cfg4.N) : cfg4.idle 1 (grid4.coords t) = false := rfl

theorem idleAt4_2 (t : Fin cfg4.N) (h : ¬cond4_1 (grid4.coords t)) : cfg4.idle 2 (grid4.coords t) = true := by
  show (!(k4_cond2 (grid4.coords t) == 1#1)) = true
  simp [h]
theorem liveAt4_2 (t : Fin cfg4.N) (h : cond4_1 (grid4.coords t)) : cfg4.idle 2 (grid4.coords t) = false := by
  show (!(k4_cond2 (grid4.coords t) == 1#1)) = false
  simp [h]
theorem noFlush4_2 (t : Fin cfg4.N) (h : ¬cond4_1 (grid4.coords t)) : (cfg4.win 2).flush t = false := by
  have hf := flush4_2 t
  rw [← hcond4_1 t] at hf
  cases hv : (cfg4.win 2).flush t
  · rfl
  · exact absurd (hf.mp hv) h

abbrev ms4_0 (t : Fin cfg4.N) : Memref sig .tc .vmem S1x2048 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x256 .f32 := win4_2.stage (cfg4.slots t 2)
abbrev hs4_2 (t : Fin cfg4.N) : (ms4_2 t).IsWhole := hstage4_2 ((cfg4.slots t 2).cast nbuf4_2)

abbrev scM4_0 : Memref sig .tc .vmem S2048x256 .f32 := Memref.whole cc4_scratch0

end Cert.Kernel.Reg

end
-- ==== Proof.KScatter4B.lean ====
import proofs.«417335_j4861902979554_2_alg».proof.Proof.KScatter4A
import proofs.«417335_j4861902979554_2_alg».proof.Proof.KScatter1B

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

-- The same three body runs as region 1, taken at this region's blocks.
def outsAt4 (c : Dev nD) : (n : ℕ) → n < cfg4.N → Vec F S2048x256 .f32 × Vec F S2048x256 .f32
  | 0, hn => res1_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩)
  | n + 1, hn =>
    if h0 : (n + 1) % 391 = 0 then
      if h1 : (n + 1) % 391 = 390 then
        False.elim (by omega)
      else
        res1_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩)
    else
      if h1 : (n + 1) % 391 = 390 then
        res1_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2
      else
        res1_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2

theorem outsAt4_A (c : Dev nD) (t : Fin cfg4.N) (h0 : t.val % 391 = 0) (h1 : ¬t.val % 391 = 390) :
    outsAt4 V c t.val t.isLt = res1_A c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t) := by
  obtain ⟨n, hn⟩ := t
  cases n with
  | zero => exact rfl
  | succ n => exact (dif_pos h0).trans ((dif_neg h1).trans rfl)

theorem outsAt4_B (c : Dev nD) (t : Fin cfg4.N) (h0 : ¬t.val % 391 = 0) (h1 : ¬t.val % 391 = 390) :
    outsAt4 V c t.val t.isLt = res1_B c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 391 = 0) (h1 : t.val % 391 = 390) :
    outsAt4 V c t.val t.isLt = res1_C c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut spec4 c [cc4_scratch0]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

end Cert.Kernel.Reg

end
-- ==== Proof.KScatter4C.lean ====
import proofs.«417335_j4861902979554_2_alg».proof.Proof.KScatter4B

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any4 (c : Dev nD) (t : Fin (cfg4.N + 1)) : (dat4 V c).Φ t
    ⊢ iprop(iprop(iprop((∃ d, owns (c : Thread nD τ) scM4_0 fullShare d)) ∗ Pipeline.scopedRestBut spec4 c [cc4_scratch0]) ∗ (∃ r, prngReg c r)) := by
  rw [← PhiA4_eq, show (dat4 V c).Φ t = PhiS4 V c t.val (Nat.le_of_lt_succ t.isLt) from rfl]
  by_cases ht : t.val = 0
  · rw [PhiS4_zero V c _ _ ht]
  rw [PhiS4_pos V c _ _ ht, PhiA4_eq]
  iintro ⟨⟨HS0, Hrb⟩, Hg⟩
  isplitl [HS0 Hrb]
  · isplitl [HS0]
    · iexists _; iexact HS0
    iexact Hrb
  iexact Hg

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 9775 := lt_of_lt_of_eq t.isLt (show cfg4.N = 9775 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h1 : t.val % 391 = 390
  · have h0 : ¬t.val % 391 = 0 := by omega
    have hz : t.val ≠ 0 := by omega
    rw [show (dat4 V c).leavesExact 2 t = owns (c : Thread nD τ) (ms4_2 t) fullShare ((dat4 V c).after 2 t) from by
      unfold Dat.leavesExact; rw [liveAt4_2 t ((hcond4_1 t).mpr h1)], after4_2]
    rw [outsAt4_C V c t h0 h1]
    unfold res1_C; (try dsimp only)
    rw [PhiS4_castSucc V c t, PhiS4_pos V c _ _ hz]
    iintro ⟨⟨⟨HS0, Hrb⟩, Hg⟩, Ho, ⟨%d0, H0⟩, ⟨%d1, H1⟩, ⟨%d2, H2⟩⟩
    iapply ((kernelRun1_C c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover1_C c _ _ _ _ _ _ _ _ _ _ _ _ _ _)
        iexact Hrb
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C c _ _ _ _ _ _ _ _ _ _ _ _ _ _)
  · rw [Dat.leavesExact_idle (dat4 V c) 2 t (idleAt4_2 t (fun h => h1 ((hcond4_1 t).mp h))) (noFlush4_2 t (fun h => h1 ((hcond4_1 t).mp h)))]
    by_cases h0 : t.val % 391 = 0
    · rw [outsAt4_A V c t h0 h1]
      unfold res1_A; (try dsimp only)
      iintro ⟨HΦ, Ho, ⟨%d0, H0⟩, ⟨%d1, H1⟩, ⟨%d2, H2⟩⟩
      ihave H := Phi_any4 V c t.castSucc $$ HΦ
      icases H with ⟨⟨HS0, Hrb⟩, Hg⟩
      iapply ((kernelRun1_A c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _)
          iexact Hrb
        iexact Hg
      isplitl [Ho]; · iexact Ho
      isplitl [H0]; · iexact H0
      isplitl [H1]; · iexact H1
      iexists _; iexact H2
    · have hz : t.val ≠ 0 := fun e => h0 (by rw [e])
      rw [outsAt4_B V c t h0 h1]
      unfold res1_B; (try dsimp only)
      rw [PhiS4_castSucc V c t, PhiS4_pos V c _ _ hz]
      iintro ⟨⟨⟨HS0, Hrb⟩, Hg⟩, Ho, ⟨%d0, H0⟩, ⟨%d1, H1⟩, ⟨%d2, H2⟩⟩
      iapply ((kernelRun1_B c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B c _ _ _ _ _ _ _ _ _ _ _ _ _ _)
          iexact Hrb
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [PhiA4_eq]; exact Phi_any4 V c _

end Cert.Kernel.Reg

end
-- ==== Proof.KCombine5.lean ====
import proofs.«417335_j4861902979554_2_alg».proof.Proof.Gen.Kernel.Launch
import proofs.«417335_j4861902979554_2_alg».proof.Proof.Gen.Kernel.Skeleton
import proofs.«417335_j4861902979554_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rBlock5 : Rect S2048x256 := Rect.unit (s := S2048x256) ![0, 0] S2048x256.size inb_S2048x256_S2048x256_0_0
abbrev rWeight5 : Rect S256x256 := Rect.unit (s := S256x256) ![0, 0] S256x256.size inb_S256x256_S256x256_0_0
abbrev rBias5 : Rect S1x256 := Rect.unit (s := S1x256) ![0, 0] S1x256.size inb_S1x256_S1x256_0_0

def out5_5 (x0 x1 : Vec F S2048x256 .f32) (x2 : Vec F S256x256 .f32) (x3 : Vec F S1x256 .f32) (x4 : Vec F S256x256 .f32) : Vec F S2048x256 .f32 :=
  View.canon [⟨rBlock5, k5_pay1 (View.ld x0 rBlock5) (View.ld x1 rBlock5) (View.ld x2 rWeight5) (View.ld x4 rWeight5) (View.ld x3 rBias5)⟩]

theorem cover5_5 (p0 : Vec F S2048x256 .f32) (y : S2048x256.Idx) :
    ∃ pc ∈ ([⟨rBlock5, p0⟩] : List (View.Piece (Elt F) S2048x256 .f32)), y ∈ pc.1.set :=
  View.cover_of_tiled [⟨rBlock5, p0⟩] S2048x256.size (by rfl) y

set_option maxHeartbeats 1000000 in

theorem sound_kernel5 (c : Dev nD) (E : Set ℕ) (i : grid5.Coords)
    (arg1 : Memref sig .tc .vmem S2048x256 .f32) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S2048x256 .f32) (harg6 : arg6.IsWhole)
    (x0 x1 : Vec F S2048x256 .f32) (x2 : Vec F S256x256 .f32) (x3 : Vec F S1x256 .f32) (x4 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__combine_kernel i arg1 harg1 arg2 harg2 arg3 harg3 arg4 harg4 arg5 harg5 arg6 harg6) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.KVals.lean ====
import proofs.«417335_j4861902979554_2_alg».proof.Proof.KGather0C
import proofs.«417335_j4861902979554_2_alg».proof.Proof.KScatter1C
import proofs.«417335_j4861902979554_2_alg».proof.Proof.KCombine2
import proofs.«417335_j4861902979554_2_alg».proof.Proof.KGather3C
import proofs.«417335_j4861902979554_2_alg».proof.Proof.KScatter4C
import proofs.«417335_j4861902979554_2_alg».proof.Proof.KCombine5
import proofs.«417335_j4861902979554_2_alg».proof.Proof.Gen.Kernel.Regions

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev W8 : Dev nD → Valuation τ sig (Elt F) := fun c => StableHlo.after hostOps0_7 (W7 m c)

abbrev Vin0 : (c : Dev nD) → (b : Ref sig .tc) → Buf (Elt F) ((c : Thread nD τ).loc b) := fun c b => W8 m c b

def W9 (c : Dev nD) : Valuation τ sig (Elt F) :=
  Pipeline.withArrays spec0 c (W8 m c) fun w => (dat0 (Vin0 m) c).arrAt w cfg0.N
theorem W9_arr (c : Dev nD) (w : Fin cfg0.W) :
    W9 m c (Proc.devRef .tc (Pipeline.arrRef spec0 w)) = (dat0 (Vin0 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = W8 m c (Proc.devRef .tc b) := by
  unfold W9; exact Pipeline.withArrays_of_ne spec0 c _ _ b hb
abbrev Vout0 : (c : Dev nD) → (b : Ref sig .tc) → Buf (Elt F) ((c : Thread nD τ).loc b) := fun c b => W9 m c b

abbrev Vin1 : (c : Dev nD) → (b : Ref sig .tc) → Buf (Elt F) ((c : Thread nD τ).loc b) := fun c b => W9 m c b

def W10 (c : Dev nD) : Valuation τ sig (Elt F) :=
  Pipeline.withArrays spec1 c (W9 m c) fun w => (dat1 (Vin1 m) c).arrAt w cfg1.N
theorem W10_arr (c : Dev nD) (w : Fin cfg1.W) :
    W10 m c (Proc.devRef .tc (Pipeline.arrRef spec1 w)) = (dat1 (Vin1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev Vout1 : (c : Dev nD) → (b : Ref sig .tc) → Buf (Elt F) ((c : Thread nD τ).loc b) := fun c b => W10 m c b

abbrev W11 : Dev nD → Valuation τ sig (Elt F) := fun c => StableHlo.after hostOps2 (W10 m c)
abbrev Vin2 : (c : Dev nD) → (b : Ref sig .tc) → Buf (Elt F) ((c : Thread nD τ).loc b) := fun c b => W11 m c b

def W12 (c : Dev nD) : Valuation τ sig (Elt F) :=
  Pipeline.withArrays spec2 c (W11 m c) fun w => (dat2 (Vin2 m) c).arrAt w cfg2.N
theorem W12_arr (c : Dev nD) (w : Fin cfg2.W) :
    W12 m c (Proc.devRef .tc (Pipeline.arrRef spec2 w)) = (dat2 (Vin2 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev Vout2 : (c : Dev nD) → (b : Ref sig .tc) → Buf (Elt F) ((c : Thread nD τ).loc b) := fun c b => W12 m c b

abbrev Vin3 : (c : Dev nD) → (b : Ref sig .tc) → Buf (Elt F) ((c : Thread nD τ).loc b) := fun c b => W12 m c b

def W13 (c : Dev nD) : Valuation τ sig (Elt F) :=
  Pipeline.withArrays spec3 c (W12 m c) fun w => (dat3 (Vin3 m) c).arrAt w cfg3.N
theorem W13_arr (c : Dev nD) (w : Fin cfg3.W) :
    W13 m c (Proc.devRef .tc (Pipeline.arrRef spec3 w)) = (dat3 (Vin3 m) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb
abbrev Vout3 : (c : Dev nD) → (b : Ref sig .tc) → Buf (Elt F) ((c : Thread nD τ).loc b) := fun c b => W13 m c b

abbrev Vin4 : (c : Dev nD) → (b : Ref sig .tc) → Buf (Elt F) ((c : Thread nD τ).loc b) := fun c b => W13 m c b

def W14 (c : Dev nD) : Valuation τ sig (Elt F) :=
  Pipeline.withArrays spec4 c (W13 m c) fun w => (dat4 (Vin4 m) c).arrAt w cfg4.N
theorem W14_arr (c : Dev nD) (w : Fin cfg4.W) :
    W14 m c (Proc.devRef .tc (Pipeline.arrRef spec4 w)) = (dat4 (Vin4 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
abbrev Vout4 : (c : Dev nD) → (b : Ref sig .tc) → Buf (Elt F) ((c : Thread nD τ).loc b) := fun c b => W14 m c b

abbrev W15 : Dev nD → Valuation τ sig (Elt F) := fun c => StableHlo.after hostOps5 (W14 m c)
abbrev Vin5 : (c : Dev nD) → (b : Ref sig .tc) → Buf (Elt F) ((c : Thread nD τ).loc b) := fun c b => W15 m c b

def W16 (c : Dev nD) : Valuation τ sig (Elt F) :=
  Pipeline.withArrays spec5 c (W15 m c) fun w => (dat5 (Vin5 m) c).arrAt w cfg5.N
theorem W16_arr (c : Dev nD) (w : Fin cfg5.W) :
    W16 m c (Proc.devRef .tc (Pipeline.arrRef spec5 w)) = (dat5 (Vin5 m) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m c (Proc.devRef .tc b) = W15 m c (Proc.devRef .tc b) := by
  unfold W16; exact Pipeline.withArrays_of_ne spec5 c _ _ b hb
abbrev Vout5 : (c : Dev nD) → (b : Ref sig .tc) → Buf (Elt F) ((c : Thread nD τ).loc b) := fun c b => W16 m c b

abbrev W17 : Dev nD → Valuation τ sig (Elt F) := fun c => StableHlo.after hostOps6 (W16 m c)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W17 m c) ∗ ∃ r, prngReg c r)

end Cert.Kernel.Reg

end
-- ==== Proof.KReg0.lean ====
import proofs.«417335_j4861902979554_2_alg».proof.Proof.KVals

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vin0 m) c).Φ 0 from rfl]
    refine .trans ?_ (hin0 (Vin0 m) c)
    unfold Pipeline.ΦA
    iintro ⟨Hp, -, Hr⟩
    isplitl [Hr]; · iexact Hr
    iexact Hp
  hout c := by
    rw [Pipeline.ownSems0_none, show (pdats m 0 c).Φ (Fin.last _) = (dat0 (Vin0 m) c).Φ (Fin.last cfg0.N) from rfl]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (fun w => (W9_arr m c w).symm) (fun b hb => W9_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KReg1.lean ====
import proofs.«417335_j4861902979554_2_alg».proof.Proof.KVals

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vin1 m) c).Φ 0 from rfl]
    refine .trans ?_ (hin1 (Vin1 m) c)
    unfold Pipeline.ΦA
    iintro ⟨Hp, -, Hr⟩
    isplitl [Hr]; · iexact Hr
    iexact Hp
  hout c := by
    rw [Pipeline.ownSems0_none, show (pdats m 1 c).Φ (Fin.last _) = (dat1 (Vin1 m) c).Φ (Fin.last cfg1.N) from rfl]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (fun w => (W10_arr m c w).symm) (fun b hb => W10_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KReg2.lean ====
import proofs.«417335_j4861902979554_2_alg».proof.Proof.KVals

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (Vout2 m c) ((pdats m 2 c).arrAt · cfg2.N) (fun w => (W12_arr m c w).symm) (fun b hb => W12_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KReg3.lean ====
import proofs.«417335_j4861902979554_2_alg».proof.Proof.KVals

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ L lv 3 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Vin3 m) c).Φ 0 from rfl]
    refine .trans ?_ (hin3 (Vin3 m) c)
    unfold Pipeline.ΦA
    iintro ⟨Hp, -, Hr⟩
    isplitl [Hr]; · iexact Hr
    iexact Hp
  hout c := by
    rw [Pipeline.ownSems0_none, show (pdats m 3 c).Φ (Fin.last _) = (dat3 (Vin3 m) c).Φ (Fin.last cfg3.N) from rfl]
    refine (hout3 (Vin3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (Vout3 m c) ((pdats m 3 c).arrAt · cfg3.N) (fun w => (W13_arr m c w).symm) (fun b hb => W13_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KReg4.lean ====
import proofs.«417335_j4861902979554_2_alg».proof.Proof.KVals

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

variable (m : (ℓ : Loc nD τ sig) → Buf (Elt F) ℓ)

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Vin4 m) c).Φ 0 from rfl]
    refine .trans ?_ (hin4 (Vin4 m) c)
    unfold Pipeline.ΦA
    iintro ⟨Hp, -, Hr⟩
    isplitl [Hr]; · iexact Hr
    iexact Hp
  hout c := by
    rw [Pipeline.ownSems0_none, show (pdats m 4 c).Φ (Fin.last _) = (dat4 (Vin4 m) c).Φ (Fin.last cfg4.N) from rfl]
    refine (hout4 (Vin4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (Vout4 m c) ((pdats m 4 c).arrAt · cfg4.N) (fun w => (W14_arr m c w).symm) (fun b hb => W14_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KReg5.lean ====
import proofs.«417335_j4861902979554_2_alg».proof.Proof.KVals

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

variable (m : (ℓ : Loc nD τ sig) → Buf (Elt F) ℓ)

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (Vin5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin5 m c) (Vout5 m c) ((pdats m 5 c).arrAt · cfg5.N) (fun w => (W16_arr m c w).symm) (fun b hb => W16_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KKeep.lean ====
import proofs.«417335_j4861902979554_2_alg».proof.Proof.KVals

noncomputable section

namespace Cert.Kernel.Reg

open Idealize.ShloMosaic Idealize.ShloMosaic.TcCoe Idealize.ShloMosaic.Tactic
open Cert.Kernel Cert.Kernel.Gen

variable {F : FTy → Type} [FloatOps F]

variable (m : (ℓ : Loc nD τ sig) → Buf (Elt F) ℓ)

theorem W9_keep (c : Dev nD) (r : Ref sig .tc) (hr : r ≠ main_v15) : W9 m c (Proc.devRef .tc r) = W8 m c (Proc.devRef .tc r) := by
  by_cases h : ∃ w, Pipeline.arrRef spec0 w = r
  · obtain ⟨w, rfl⟩ := h
    rw [W9_arr m c w]
    have hin : (cfg0.win w).isOut = false := by
      revert hr; revert w; decide
    exact ((dat0 (Vin0 m) c).arrAt_in w hin _).trans (A_eq0 (Vin0 m) c w)
  · exact W9_of_ne m c r fun w e => h ⟨w, e⟩

theorem W10_keep (c : Dev nD) (r : Ref sig .tc) (hr : r ≠ main_v16) : W10 m c (Proc.devRef .tc r) = W9 m c (Proc.devRef .tc r) := by
  by_cases h : ∃ w, Pipeline.arrRef spec1 w = r
  · obtain ⟨w, rfl⟩ := h
    rw [W10_arr m c w]
    have hin : (cfg1.win w).isOut = false := by
      revert hr; revert w; decide
    exact ((dat1 (Vin1 m) c).arrAt_in w hin _).trans (A_eq1 (Vin1 m) c w)
  · exact W10_of_ne m c r fun w e => h ⟨w, e⟩

theorem W12_keep (c : Dev nD) (r : Ref sig .tc) (hr : r ≠ main_v22) : W12 m c (Proc.devRef .tc r) = W11 m c (Proc.devRef .tc r) := by
  by_cases h : ∃ w, Pipeline.arrRef spec2 w = r
  · obtain ⟨w, rfl⟩ := h
    rw [W12_arr m c w]
    have hin : (cfg2.win w).isOut = false := by
      revert hr; revert w; decide
    exact ((dat2 (Vin2 m) c).arrAt_in w hin _).trans (A_eq2 (Vin2 m) c w)
  · exact W12_of_ne m c r fun w e => h ⟨w, e⟩

theorem W13_keep (c : Dev nD) (r : Ref sig .tc) (hr : r ≠ main_v23) : W13 m c (Proc.devRef .tc r) = W12 m c (Proc.devRef .tc r) := by
  by_cases h : ∃ w, Pipeline.arrRef spec3 w = r
  · obtain ⟨w, rfl⟩ := h
    rw [W13_arr m c w]
    have hin : (cfg3.win w).isOut = false := by
      revert hr; revert w; decide
    exact ((dat3 (Vin3 m) c).arrAt_in w hin _).trans (A_eq3 (Vin3 m) c w)
  · exact W13_of_ne m c r fun w e => h ⟨w, e⟩

theorem W14_keep (c : Dev nD) (r : Ref sig .tc) (hr : r ≠ main_v24) : W14 m c (Proc.devRef .tc r) = W13 m c (Proc.devRef .tc r) := by
  by_cases h : ∃ w, Pipeline.arrRef spec4 w = r
  · obtain ⟨w, rfl⟩ := h
    rw [W14_arr m c w]
    have hin : (cfg4.win w).isOut = false := by
      revert hr; revert w; decide
    exact ((dat4 (Vin4 m) c).arrAt_in w hin _).trans (A_eq4 (Vin4 m) c w)
  · exact W14_of_ne m c r fun w e => h ⟨w, e⟩

theorem W16_keep (c : Dev nD) (r : Ref sig .tc) (hr : r ≠ main_v30) : W16 m c (Proc.devRef .tc r) = W15 m c (Proc.devRef .tc r) := by
  by_cases h : ∃ w, Pipeline.arrRef spec5 w = r
  · obtain ⟨w, rfl⟩ := h
    rw [W16_arr m c w]
    have hin : (cfg5.win w).isOut = false := by
      revert hr; revert w; decide
    exact ((dat5 (Vin5 m) c).arrAt_in w hin _).trans (A_eq5 (Vin5 m) c w)
  · exact W16_of_ne m c r fun w e => h ⟨w, e⟩

abbrev Kept (r : Ref sig .tc) : Prop :=
  r ∉ hostOps0_W ∧ r ∉ hostOps0_1_W ∧ r ∉ hostOps0_2_W ∧ r ∉ hostOps0_3_W ∧ r ∉ hostOps0_4_W ∧ r ∉ hostOps0_5_W
    ∧ r ∉ hostOps0_6_W ∧ r ∉ hostOps0_7_W ∧ r ∉ hostOps2_W ∧ r ∉ hostOps5_W ∧ r ∉ hostOps6_W
    ∧ r ≠ main_v15 ∧ r ≠ main_v16 ∧ r ≠ main_v22 ∧ r ≠ main_v23 ∧ r ≠ main_v24 ∧ r ≠ main_v30

-- A buffer no host stretch writes and no region puts out ends at its launch contents.
theorem W17_keep (c : Dev nD) (r : Ref sig .tc) (h : Kept r) :
    W17 m c (Proc.devRef .tc r) = m ((c : Thread nD τ).loc r) := by
  obtain ⟨h0, h1, h2, h3, h4, h5, h6, h7, h10, h14, h16, o0, o1, o2, o3, o4, o5⟩ := h
  exact
  (StableHlo.after_of_writes_sub hostOps6 _ hostOps6_writes h16).trans <|
  (W16_keep m c r o5).trans <|
  (StableHlo.after_of_writes_sub hostOps5 _ hostOps5_writes h14).trans <|
  (W14_keep m c r o4).trans <| (W13_keep m c r o3).trans <| (W12_keep m c r o2).trans <|
  (StableHlo.after_of_writes_sub hostOps2 _ hostOps2_writes h10).trans <|
  (W10_keep m c r o1).trans <| (W9_keep m c r o0).trans <|
  (StableHlo.after_of_writes_sub hostOps0_7 _ hostOps0_7_writes h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

end Cert.Kernel.Reg

end
-- ==== Proof.KRun.lean ====
import proofs.«417335_j4861902979554_2_alg».proof.Proof.KReg0
import proofs.«417335_j4861902979554_2_alg».proof.Proof.KReg1
import proofs.«417335_j4861902979554_2_alg».proof.Proof.KReg2
import proofs.«417335_j4861902979554_2_alg».proof.Proof.KReg3
import proofs.«417335_j4861902979554_2_alg».proof.Proof.KReg4
import proofs.«417335_j4861902979554_2_alg».proof.Proof.KReg5
import proofs.«417335_j4861902979554_2_alg».proof.Proof.KKeep

noncomputable section

namespace Cert.Kernel.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .region (reg0 m),
    .region (reg1 m),
    .host (hseg hostOps2 hostOps2_sub hostOps2_fresh (W10 m)),
    .region (reg2 m),
    .region (reg3 m),
    .region (reg4 m),
    .host (hseg hostOps5 hostOps5_sub hostOps5_fresh (W14 m)),
    .region (reg5 m),
    .host (hseg hostOps6 hostOps6_sub hostOps6_fresh (W16 m)) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W17 m c) ∗ R c)
          ⊢ iprop(Tₙ m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W17_keep m c main_arg0 (by decide)),
     (h c _ (mem_uc main_arg1 (by decide))).trans (W17_keep m c main_arg1 (by decide)),
     (h c _ (mem_uc main_arg2 (by decide))).trans (W17_keep m c main_arg2 (by decide)),
     (h c _ (mem_uc main_arg3 (by decide))).trans (W17_keep m c main_arg3 (by decide)),
     (h c _ (mem_uc main_arg4 (by decide))).trans (W17_keep m c main_arg4 (by decide)),
     (h c _ (mem_uc main_arg5 (by decide))).trans (W17_keep m c main_arg5 (by decide)),
     (h c _ (mem_uc main_arg6 (by decide))).trans (W17_keep m c main_arg6 (by decide)),
     (h c _ (mem_uc main_arg7 (by decide))).trans (W17_keep m c main_arg7 (by decide))⟩)
    (run_all m ρ)

end Cert.Kernel.Reg

end
-- ==== Proof.Gather0A.lean ====
import proofs.«417335_j4861902979554_2_alg».proof.Proof.Gen.KernelIdeal.Launch
import proofs.«417335_j4861902979554_2_alg».proof.Proof.Gen.KernelIdeal.Skeleton
import proofs.«417335_j4861902979554_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem coords0_1 (t : Fin cfg0.N) : ((grid0.coords t) 1).val = t.val % 25 := by
  show t.val / 1 % 25 = t.val % 25
  rw [Nat.div_one]

abbrev cond0_0 (i : grid0.Coords) : Prop := (Scalar.cmpi .ne (Scalar.extui (Scalar.cmpi .eq (BitVec.ofNat 32 (i 1).val) 0#32)) 0#32) = 1#1
theorem cond0_0_word : ∀ k : Fin 25, ((Scalar.cmpi .ne (Scalar.extui (Scalar.cmpi .eq (BitVec.ofNat 32 k.val) 0#32)) 0#32) = 1#1) ↔ k.val = 0 := by decide
theorem hcond0_0 (t : Fin cfg0.N) : cond0_0 (grid0.coords t) ↔ t.val % 25 = 0 := by
  unfold cond0_0
  rw [coords0_1 t]
  exact cond0_0_word ⟨t.val % 25, Nat.mod_lt _ (by decide)⟩

abbrev cond0_1 (i : grid0.Coords) : Prop := k0_cond2 i = 1#1
theorem cond0_1_word : ∀ k : Fin 25, ((Scalar.cmpi .ne (Scalar.extui (Scalar.cmpi .eq (BitVec.ofNat 32 k.val) 24#32)) 0#32) = 1#1) ↔ k.val = 24 := by decide
theorem hcond0_1 (t : Fin cfg0.N) : cond0_1 (grid0.coords t) ↔ t.val % 25 = 24 := by
  unfold cond0_1 k0_cond2
  simp only []
  rw [coords0_1 t]
  exact cond0_1_word ⟨t.val % 25, Nat.mod_lt _ (by decide)⟩

theorem liveAt0_0 (t : Fin cfg0.N) : cfg0.idle 0 (grid0.coords t) = false := rfl
theorem liveAt0_1 (t : Fin cfg0.N) : cfg0.idle 1 (grid0.coords t) = false := rfl

theorem idleAt0_2 (t : Fin cfg0.N) (h : ¬cond0_1 (grid0.coords t)) : cfg0.idle 2 (grid0.coords t) = true := by
  show (!(k0_cond2 (grid0.coords t) == 1#1)) = true
  simp [h]
theorem liveAt0_2 (t : Fin cfg0.N) (h : cond0_1 (grid0.coords t)) : cfg0.idle 2 (grid0.coords t) = false := by
  show (!(k0_cond2 (grid0.coords t) == 1#1)) = false
  simp [h]
theorem noFlush0_2 (t : Fin cfg0.N) (h : ¬cond0_1 (grid0.coords t)) : (cfg0.win 2).flush t = false := by
  have hf := flush0_2 t
  rw [← hcond0_1 t] at hf
  cases hv : (cfg0.win 2).flush t
  · rfl
  · exact absurd (hf.mp hv) h

abbrev VO0_2 : View sig .tc .vmem S2048x256 .bf16 := (Memref.whole cc0_stg2_0 : Memref sig .tc .vmem S2048x256 .bf16).view
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)

abbrev scM0_0 : Memref sig .tc .vmem S2048x256 .f32 := Memref.whole cc0_scratch0
abbrev VS0_0 : View sig .tc .vmem S2048x256 .f32 := scM0_0.view

variable (c : Dev nD) (i : grid0.Coords) (arg2 : Memref sig .tc .vmem S2048x1 .i32) (harg2 : arg2.IsWhole) (arg3 : Memref sig .tc .vmem S2048x256 .f32) (harg3 : arg3.IsWhole) (arg4 : Memref sig .tc .vmem S2048x256 .bf16) (harg4 : arg4.IsWhole) (arg5 : Memref sig .tc .vmem S2048x256 .f32) (harg5 : arg5.IsWhole)

set_option maxHeartbeats 4000000 in

noncomputable def kernelRun0_A (hc0 : cond0_0 i) (hc1 : ¬cond0_1 i)
    (x0 : Vec F S2048x1 .i32) (x1 : Vec F S2048x256 .f32) :
    Σ' (L2 : List (View.Piece (Elt F) S2048x256 .bf16)), { LS0 : List (View.Piece (Elt F) S2048x256 .f32) //
      ∀ (xi2 : Vec F S2048x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in

noncomputable def kernelRun0_B (hc0 : ¬cond0_0 i) (hc1 : ¬cond0_1 i)
    (x0 : Vec F S2048x1 .i32) (x1 : Vec F S2048x256 .f32) (xs0 : Vec F S2048x256 .f32) :
    Σ' (L2 : List (View.Piece (Elt F) S2048x256 .bf16)), { LS0 : List (View.Piece (Elt F) S2048x256 .f32) //
      ∀ (xi2 : Vec F S2048x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in

noncomputable def kernelRun0_C (hc0 : ¬cond0_0 i) (hc1 : cond0_1 i)
    (x0 : Vec F S2048x1 .i32) (x1 : Vec F S2048x256 .f32) (xs0 : Vec F S2048x256 .f32) :
    Σ' (L2 : List (View.Piece (Elt F) S2048x256 .bf16)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg

end
-- ==== Proof.Gather0B.lean ====
import proofs.«417335_j4861902979554_2_alg».proof.Proof.Gather0A

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem PhiA0_eq (c : Dev nD) :
    (Pipeline.ΦA spec0 c : sProp 𝕄)
      = iprop(iprop(iprop((∃ d, owns (c : Thread nD τ) scM0_0 fullShare d)) ∗ Pipeline.scopedRestBut spec0 c [cc0_scratch0]) ∗ (∃ r, prngReg c r)) := by
  unfold Pipeline.ΦA; rw [scopedRest0_split]; simp only [scM0_0, owns_whole]; try rfl

section Cases
variable (c : Dev nD) (i : grid0.Coords) (arg2 : Memref sig .tc .vmem S2048x1 .i32) (harg2 : arg2.IsWhole) (arg3 : Memref sig .tc .vmem S2048x256 .f32) (harg3 : arg3.IsWhole) (arg4 : Memref sig .tc .vmem S2048x256 .bf16) (harg4 : arg4.IsWhole) (arg5 : Memref sig .tc .vmem S2048x256 .f32) (harg5 : arg5.IsWhole)

theorem scover0_A (hc0 : cond0_0 i) (hc1 : ¬cond0_1 i) (x0 : Vec F S2048x1 .i32) (x1 : Vec F S2048x256 .f32) (y : S2048x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x256.size (by sl_kernel_rfl) y

def res0_A (hc0 : cond0_0 i) (hc1 : ¬cond0_1 i) (x0 : Vec F S2048x1 .i32) (x1 : Vec F S2048x256 .f32) : Vec F S2048x256 .bf16 × Vec F S2048x256 .f32 :=
  (VO0_2.read (Elt F) (VO0_2.writes (Elt F) VO0_2.junk (kernelRun0_A c i arg2 harg2 arg3 harg3 arg4 harg4 arg5 harg5 hc0 hc1 x0 x1).1),
    VS0_0.read (Elt F) (VS0_0.writes (Elt F) VS0_0.junk (kernelRun0_A c i arg2 harg2 arg3 harg3 arg4 harg4 arg5 harg5 hc0 hc1 x0 x1).2.1))

theorem scover0_B (hc0 : ¬cond0_0 i) (hc1 : ¬cond0_1 i) (x0 : Vec F S2048x1 .i32) (x1 : Vec F S2048x256 .f32) (xs0 : Vec F S2048x256 .f32) (y : S2048x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x256.size (by sl_kernel_rfl) y

def res0_B (hc0 : ¬cond0_0 i) (hc1 : ¬cond0_1 i) (x0 : Vec F S2048x1 .i32) (x1 : Vec F S2048x256 .f32) (xs0 : Vec F S2048x256 .f32) : Vec F S2048x256 .bf16 × Vec F S2048x256 .f32 :=
  (VO0_2.read (Elt F) (VO0_2.writes (Elt F) VO0_2.junk (kernelRun0_B c i arg2 harg2 arg3 harg3 arg4 harg4 arg5 harg5 hc0 hc1 x0 x1 xs0).1),
    VS0_0.read (Elt F) (VS0_0.writes (Elt F) VS0_0.junk (kernelRun0_B c i arg2 harg2 arg3 harg3 arg4 harg4 arg5 harg5 hc0 hc1 x0 x1 xs0).2.1))

theorem scover0_C (hc0 : ¬cond0_0 i) (hc1 : cond0_1 i) (x0 : Vec F S2048x1 .i32) (x1 : Vec F S2048x256 .f32) (xs0 : Vec F S2048x256 .f32) (y : S2048x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x256.size (by sl_kernel_rfl) y
theorem cover0_C (hc0 : ¬cond0_0 i) (hc1 : cond0_1 i) (x0 : Vec F S2048x1 .i32) (x1 : Vec F S2048x256 .f32) (xs0 : Vec F S2048x256 .f32) (y : S2048x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x256.size (by sl_kernel_rfl) y

def res0_C (hc0 : ¬cond0_0 i) (hc1 : cond0_1 i) (x0 : Vec F S2048x1 .i32) (x1 : Vec F S2048x256 .f32) (xs0 : Vec F S2048x256 .f32) : Vec F S2048x256 .bf16 × Vec F S2048x256 .f32 :=
  (VO0_2.read (Elt F) (VO0_2.writes (Elt F) VO0_2.junk (kernelRun0_C c i arg2 harg2 arg3 harg3 arg4 harg4 arg5 harg5 hc0 hc1 x0 x1 xs0).1),
    VS0_0.read (Elt F) (VS0_0.writes (Elt F) VS0_0.junk (kernelRun0_C c i arg2 harg2 arg3 harg3 arg4 harg4 arg5 harg5 hc0 hc1 x0 x1 xs0).2.1))

end Cases

def outsAt0 (c : Dev nD) : (n : ℕ) → n < cfg0.N → Vec F S2048x256 .bf16 × Vec F S2048x256 .f32
  | 0, hn => res0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 25 = 0 then
      if h1 : (n + 1) % 25 = 24 then
        False.elim (by omega)
      else
        res0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 25 = 24 then
        res0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2
      else
        res0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2

theorem outsAt0_A (c : Dev nD) (t : Fin cfg0.N) (h0 : t.val % 25 = 0) (h1 : ¬t.val % 25 = 24) :
    outsAt0 V c t.val t.isLt = res0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = res0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = res0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2)) ∗ Pipeline.scopedRestBut spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2)) ∗ Pipeline.scopedRestBut spec0 c [cc0_scratch0]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2)) ∗ Pipeline.scopedRestBut spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end Cert.KernelIdeal.Reg

end
-- ==== Proof.Gather0C.lean ====
import proofs.«417335_j4861902979554_2_alg».proof.Proof.Gather0B

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any0 (c : Dev nD) (t : Fin (cfg0.N + 1)) : (dat0 V c).Φ t
    ⊢ iprop(iprop(iprop((∃ d, owns (c : Thread nD τ) scM0_0 fullShare d)) ∗ Pipeline.scopedRestBut spec0 c [cc0_scratch0]) ∗ (∃ r, prngReg c r)) := by
  rw [← PhiA0_eq, show (dat0 V c).Φ t = PhiS0 V c t.val (Nat.le_of_lt_succ t.isLt) from rfl]
  by_cases ht : t.val = 0
  · rw [PhiS0_zero V c _ _ ht]
  rw [PhiS0_pos V c _ _ ht, PhiA0_eq]
  iintro ⟨⟨HS0, Hrb⟩, Hg⟩
  isplitl [HS0 Hrb]
  · isplitl [HS0]
    · iexists _; iexact HS0
    iexact Hrb
  iexact Hg

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 9775 := lt_of_lt_of_eq t.isLt (show cfg0.N = 9775 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 25 = 24
  · have h0 : ¬t.val % 25 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold res0_C; (try dsimp only)
    rw [PhiS0_castSucc V c t, PhiS0_pos V c _ _ hz]
    iintro ⟨⟨⟨HS0, Hrb⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover0_C c _ _ _ _ _ _ _ _ _ _ _ _ _ _)
        iexact Hrb
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 25 = 0
    · rw [outsAt0_A V c t h0 h1]
      unfold res0_A; (try dsimp only)
      iintro ⟨HΦ, Ho, ⟨%d0, H0⟩, ⟨%d1, H1⟩, ⟨%d2, H2⟩⟩
      ihave H := Phi_any0 V c t.castSucc $$ HΦ
      icases H with ⟨⟨HS0, Hrb⟩, Hg⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A c _ _ _ _ _ _ _ _ _ _ _ _ _)
          iexact Hrb
        iexact Hg
      isplitl [Ho]; · iexact Ho
      isplitl [H0]; · iexact H0
      isplitl [H1]; · iexact H1
      iexists _; iexact H2
    · have hz : t.val ≠ 0 := fun e => h0 (by rw [e])
      rw [outsAt0_B V c t h0 h1]
      unfold res0_B; (try dsimp only)
      rw [PhiS0_castSucc V c t, PhiS0_pos V c _ _ hz]
      iintro ⟨⟨⟨HS0, Hrb⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B c _ _ _ _ _ _ _ _ _ _ _ _ _ _)
          iexact Hrb
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [PhiA0_eq]; exact Phi_any0 V c _

end Cert.KernelIdeal.Reg

end
-- ==== Proof.Scatter1A.lean ====
import proofs.«417335_j4861902979554_2_alg».proof.Proof.Gen.KernelIdeal.Launch
import proofs.«417335_j4861902979554_2_alg».proof.Proof.Gen.KernelIdeal.Skeleton
import proofs.«417335_j4861902979554_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem coords1_1 (t : Fin cfg1.N) : ((grid1.coords t) 1).val = t.val % 391 := by
  show t.val / 1 % 391 = t.val % 391
  rw [Nat.div_one]

abbrev cond1_0 (i : grid1.Coords) : Prop := (Scalar.cmpi .ne (Scalar.extui (Scalar.cmpi .eq (BitVec.ofNat 32 (i 1).val) 0#32)) 0#32) = 1#1
theorem cond1_0_word : ∀ k : Fin 391, ((Scalar.cmpi .ne (Scalar.extui (Scalar.cmpi .eq (BitVec.ofNat 32 k.val) 0#32)) 0#32) = 1#1) ↔ k.val = 0 := by decide
theorem hcond1_0 (t : Fin cfg1.N) : cond1_0 (grid1.coords t) ↔ t.val % 391 = 0 := by
  unfold cond1_0
  rw [coords1_1 t]
  exact cond1_0_word ⟨t.val % 391, Nat.mod_lt _ (by decide)⟩

abbrev cond1_1 (i : grid1.Coords) : Prop := k1_cond2 i = 1#1
theorem cond1_1_word : ∀ k : Fin 391, ((Scalar.cmpi .ne (Scalar.extui (Scalar.cmpi .eq (BitVec.ofNat 32 k.val) 390#32)) 0#32) = 1#1) ↔ k.val = 390 := by decide
theorem hcond1_1 (t : Fin cfg1.N) : cond1_1 (grid1.coords t) ↔ t.val % 391 = 390 := by
  unfold cond1_1 k1_cond2
  simp only []
  rw [coords1_1 t]
  exact cond1_1_word ⟨t.val % 391, Nat.mod_lt _ (by decide)⟩

theorem liveAt1_0 (t : Fin cfg1.N) : cfg1.idle 0 (grid1.coords t) = false := rfl
theorem liveAt1_1 (t : Fin cfg1.N) : cfg1.idle 1 (grid1.coords t) = false := rfl

theorem idleAt1_2 (t : Fin cfg1.N) (h : ¬cond1_1 (grid1.coords t)) : cfg1.idle 2 (grid1.coords t) = true := by
  show (!(k1_cond2 (grid1.coords t) == 1#1)) = true
  simp [h]
theorem liveAt1_2 (t : Fin cfg1.N) (h : cond1_1 (grid1.coords t)) : cfg1.idle 2 (grid1.coords t) = false := by
  show (!(k1_cond2 (grid1.coords t) == 1#1)) = false
  simp [h]
theorem noFlush1_2 (t : Fin cfg1.N) (h : ¬cond1_1 (grid1.coords t)) : (cfg1.win 2).flush t = false := by
  have hf := flush1_2 t
  rw [← hcond1_1 t] at hf
  cases hv : (cfg1.win 2).flush t
  · rfl
  · exact absurd (hf.mp hv) h

abbrev VO1_2 : View sig .tc .vmem S2048x256 .f32 := (Memref.whole cc1_stg2_0 : Memref sig .tc .vmem S2048x256 .f32).view
abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)

abbrev scM1_0 : Memref sig .tc .vmem S2048x256 .f32 := Memref.whole cc1_scratch0
abbrev VS1_0 : View sig .tc .vmem S2048x256 .f32 := scM1_0.view

variable (c : Dev nD) (i : grid1.Coords) (arg2 : Memref sig .tc .vmem S1x2048 .i32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)

set_option maxHeartbeats 4000000 in

noncomputable def kernelRun1_A (hc0 : cond1_0 i) (hc1 : ¬cond1_1 i)
    (x0 : Vec F S1x2048 .i32) (x1 : Vec F S2048x256 .bf16) :
    Σ' (L2 : List (View.Piece (Elt F) S2048x256 .f32)), { LS0 : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in

noncomputable def kernelRun1_B (hc0 : ¬cond1_0 i) (hc1 : ¬cond1_1 i)
    (x0 : Vec F S1x2048 .i32) (x1 : Vec F S2048x256 .bf16) (xs0 : Vec F S2048x256 .f32) :
    Σ' (L2 : List (View.Piece (Elt F) S2048x256 .f32)), { LS0 : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in

noncomputable def kernelRun1_C (hc0 : ¬cond1_0 i) (hc1 : cond1_1 i)
    (x0 : Vec F S1x2048 .i32) (x1 : Vec F S2048x256 .bf16) (xs0 : Vec F S2048x256 .f32) :
    Σ' (L2 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg

end
-- ==== Proof.Scatter1B.lean ====
import proofs.«417335_j4861902979554_2_alg».proof.Proof.Scatter1A

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

section Cases
variable (c : Dev nD) (i : grid1.Coords) (arg2 : Memref sig .tc .vmem S1x2048 .i32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)

theorem scover1_A (hc0 : cond1_0 i) (hc1 : ¬cond1_1 i) (x0 : Vec F S1x2048 .i32) (x1 : Vec F S2048x256 .bf16) (y : S2048x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x256.size (by sl_kernel_rfl) y

def res1_A (hc0 : cond1_0 i) (hc1 : ¬cond1_1 i) (x0 : Vec F S1x2048 .i32) (x1 : Vec F S2048x256 .bf16) : Vec F S2048x256 .f32 × Vec F S2048x256 .f32 :=
  (VO1_2.read (Elt F) (VO1_2.writes (Elt F) VO1_2.junk (kernelRun1_A c i arg2 harg2 arg3 harg3 arg4 harg4 arg5 harg5 hc0 hc1 x0 x1).1),
    VS1_0.read (Elt F) (VS1_0.writes (Elt F) VS1_0.junk (kernelRun1_A c i arg2 harg2 arg3 harg3 arg4 harg4 arg5 harg5 hc0 hc1 x0 x1).2.1))

theorem scover1_B (hc0 : ¬cond1_0 i) (hc1 : ¬cond1_1 i) (x0 : Vec F S1x2048 .i32) (x1 : Vec F S2048x256 .bf16) (xs0 : Vec F S2048x256 .f32) (y : S2048x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x256.size (by sl_kernel_rfl) y

def res1_B (hc0 : ¬cond1_0 i) (hc1 : ¬cond1_1 i) (x0 : Vec F S1x2048 .i32) (x1 : Vec F S2048x256 .bf16) (xs0 : Vec F S2048x256 .f32) : Vec F S2048x256 .f32 × Vec F S2048x256 .f32 :=
  (VO1_2.read (Elt F) (VO1_2.writes (Elt F) VO1_2.junk (kernelRun1_B c i arg2 harg2 arg3 harg3 arg4 harg4 arg5 harg5 hc0 hc1 x0 x1 xs0).1),
    VS1_0.read (Elt F) (VS1_0.writes (Elt F) VS1_0.junk (kernelRun1_B c i arg2 harg2 arg3 harg3 arg4 harg4 arg5 harg5 hc0 hc1 x0 x1 xs0).2.1))

theorem scover1_C (hc0 : ¬cond1_0 i) (hc1 : cond1_1 i) (x0 : Vec F S1x2048 .i32) (x1 : Vec F S2048x256 .bf16) (xs0 : Vec F S2048x256 .f32) (y : S2048x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x256.size (by sl_kernel_rfl) y
theorem cover1_C (hc0 : ¬cond1_0 i) (hc1 : cond1_1 i) (x0 : Vec F S1x2048 .i32) (x1 : Vec F S2048x256 .bf16) (xs0 : Vec F S2048x256 .f32) (y : S2048x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x256.size (by sl_kernel_rfl) y

def res1_C (hc0 : ¬cond1_0 i) (hc1 : cond1_1 i) (x0 : Vec F S1x2048 .i32) (x1 : Vec F S2048x256 .bf16) (xs0 : Vec F S2048x256 .f32) : Vec F S2048x256 .f32 × Vec F S2048x256 .f32 :=
  (VO1_2.read (Elt F) (VO1_2.writes (Elt F) VO1_2.junk (kernelRun1_C c i arg2 harg2 arg3 harg3 arg4 harg4 arg5 harg5 hc0 hc1 x0 x1 xs0).1),
    VS1_0.read (Elt F) (VS1_0.writes (Elt F) VS1_0.junk (kernelRun1_C c i arg2 harg2 arg3 harg3 arg4 harg4 arg5 harg5 hc0 hc1 x0 x1 xs0).2.1))

end Cases

def outsAt1 (c : Dev nD) : (n : ℕ) → n < cfg1.N → Vec F S2048x256 .f32 × Vec F S2048x256 .f32
  | 0, hn => res1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 391 = 0 then
      if h1 : (n + 1) % 391 = 390 then
        False.elim (by omega)
      else
        res1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 391 = 390 then
        res1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2
      else
        res1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2

theorem outsAt1_A (c : Dev nD) (t : Fin cfg1.N) (h0 : t.val % 391 = 0) (h1 : ¬t.val % 391 = 390) :
    outsAt1 V c t.val t.isLt = res1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

theorem outsAt1_B (c : Dev nD) (t : Fin cfg1.N) (h0 : ¬t.val % 391 = 0) (h1 : ¬t.val % 391 = 390) :
    outsAt1 V c t.val t.isLt = res1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 391 = 0) (h1 : t.val % 391 = 390) :
    outsAt1 V c t.val t.isLt = res1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.KernelIdeal.Reg

end
-- ==== Proof.Scatter1C.lean ====
import proofs.«417335_j4861902979554_2_alg».proof.Proof.Scatter1B

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any1 (c : Dev nD) (t : Fin (cfg1.N + 1)) : (dat1 V c).Φ t
    ⊢ iprop(iprop(iprop((∃ d, owns (c : Thread nD τ) scM1_0 fullShare d)) ∗ Pipeline.scopedRestBut spec1 c [cc1_scratch0]) ∗ (∃ r, prngReg c r)) := by
  rw [← PhiA1_eq, show (dat1 V c).Φ t = PhiS1 V c t.val (Nat.le_of_lt_succ t.isLt) from rfl]
  by_cases ht : t.val = 0
  · rw [PhiS1_zero V c _ _ ht]
  rw [PhiS1_pos V c _ _ ht, PhiA1_eq]
  iintro ⟨⟨HS0, Hrb⟩, Hg⟩
  isplitl [HS0 Hrb]
  · isplitl [HS0]
    · iexists _; iexact HS0
    iexact Hrb
  iexact Hg

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 9775 := lt_of_lt_of_eq t.isLt (show cfg1.N = 9775 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 391 = 390
  · have h0 : ¬t.val % 391 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold res1_C; (try dsimp only)
    rw [PhiS1_castSucc V c t, PhiS1_pos V c _ _ hz]
    iintro ⟨⟨⟨HS0, Hrb⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover1_C c _ _ _ _ _ _ _ _ _ _ _ _ _ _)
        iexact Hrb
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val % 391 = 0
    · rw [outsAt1_A V c t h0 h1]
      unfold res1_A; (try dsimp only)
      iintro ⟨HΦ, Ho, ⟨%d0, H0⟩, ⟨%d1, H1⟩, ⟨%d2, H2⟩⟩
      ihave H := Phi_any1 V c t.castSucc $$ HΦ
      icases H with ⟨⟨HS0, Hrb⟩, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _)
          iexact Hrb
        iexact Hg
      isplitl [Ho]; · iexact Ho
      isplitl [H0]; · iexact H0
      isplitl [H1]; · iexact H1
      iexists _; iexact H2
    · have hz : t.val ≠ 0 := fun e => h0 (by rw [e])
      rw [outsAt1_B V c t h0 h1]
      unfold res1_B; (try dsimp only)
      rw [PhiS1_castSucc V c t, PhiS1_pos V c _ _ hz]
      iintro ⟨⟨⟨HS0, Hrb⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B c _ _ _ _ _ _ _ _ _ _ _ _ _ _)
          iexact Hrb
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [PhiA1_eq]; exact Phi_any1 V c _

end Cert.KernelIdeal.Reg

end
-- ==== Proof.Combine2.lean ====
import proofs.«417335_j4861902979554_2_alg».proof.Proof.Gen.KernelIdeal.Launch
import proofs.«417335_j4861902979554_2_alg».proof.Proof.Gen.KernelIdeal.Skeleton
import proofs.«417335_j4861902979554_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rBlock2 : Rect S2048x256 := Rect.unit (s := S2048x256) ![0, 0] S2048x256.size inb_S2048x256_S2048x256_0_0
abbrev rWeight2 : Rect S256x256 := Rect.unit (s := S256x256) ![0, 0] S256x256.size inb_S256x256_S256x256_0_0
abbrev rBias2 : Rect S1x256 := Rect.unit (s := S1x256) ![0, 0] S1x256.size inb_S1x256_S1x256_0_0

def out2_5 (x0 x1 : Vec F S2048x256 .f32) (x2 : Vec F S256x256 .f32) (x3 : Vec F S1x256 .f32) (x4 : Vec F S256x256 .f32) : Vec F S2048x256 .f32 :=
  View.canon [⟨rBlock2, k2_pay1 (View.ld x0 rBlock2) (View.ld x1 rBlock2) (View.ld x2 rWeight2) (View.ld x4 rWeight2) (View.ld x3 rBias2)⟩]

theorem cover2_5 (p0 : Vec F S2048x256 .f32) (y : S2048x256.Idx) :
    ∃ pc ∈ ([⟨rBlock2, p0⟩] : List (View.Piece (Elt F) S2048x256 .f32)), y ∈ pc.1.set :=
  View.cover_of_tiled [⟨rBlock2, p0⟩] S2048x256.size (by rfl) y

set_option maxHeartbeats 1000000 in

theorem sound_kernel2 (c : Dev nD) (E : Set ℕ) (i : grid2.Coords)
    (arg1 : Memref sig .tc .vmem S2048x256 .f32) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S2048x256 .f32) (harg6 : arg6.IsWhole)
    (x0 x1 : Vec F S2048x256 .f32) (x2 : Vec F S256x256 .f32) (x3 : Vec F S1x256 .f32) (x4 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.Gather3A.lean ====
import proofs.«417335_j4861902979554_2_alg».proof.Proof.Gather0A
import proofs.«417335_j4861902979554_2_alg».proof.Proof.Gen.KernelIdeal.Launch
import proofs.«417335_j4861902979554_2_alg».proof.Proof.Gen.KernelIdeal.Skeleton
import proofs.«417335_j4861902979554_2_alg».proof.Proof.Gen.KernelIdeal.Points

noncomputable section

namespace Cert.KernelIdeal.Reg

open Idealize.ShloMosaic Idealize.ShloMosaic.TcCoe Idealize.ShloMosaic.Tactic
open Cert.KernelIdeal Cert.KernelIdeal.Gen

variable {F : FTy → Type} [FloatOps F]

theorem coords3_1 (t : Fin cfg3.N) : ((grid3.coords t) 1).val = t.val % 25 := coords0_1 t

abbrev cond3_0 (i : grid3.Coords) : Prop := cond0_0 i
-- Regions 0 and 3 call one kernel function on grids of one shape: region 0's closed forms of the branch conditions serve here.
theorem hcond3_0 (t : Fin cfg3.N) : cond3_0 (grid3.coords t) ↔ t.val % 25 = 0 := hcond0_0 t

abbrev cond3_1 (i : grid3.Coords) : Prop := k3_cond2 i = 1#1
theorem hcond3_1 (t : Fin cfg3.N) : cond3_1 (grid3.coords t) ↔ t.val % 25 = 24 := hcond0_1 t

theorem liveAt3_0 (t : Fin cfg3.N) : cfg3.idle 0 (grid3.coords t) = false := rfl
theorem liveAt3_1 (t : Fin cfg3.N) : cfg3.idle 1 (grid3.coords t) = false := rfl

theorem idleAt3_2 (t : Fin cfg3.N) (h : ¬cond3_1 (grid3.coords t)) : cfg3.idle 2 (grid3.coords t) = true := by
  show (!(k3_cond2 (grid3.coords t) == 1#1)) = true
  simp [h]
theorem liveAt3_2 (t : Fin cfg3.N) (h : cond3_1 (grid3.coords t)) : cfg3.idle 2 (grid3.coords t) = false := by
  show (!(k3_cond2 (grid3.coords t) == 1#1)) = false
  simp [h]
theorem noFlush3_2 (t : Fin cfg3.N) (h : ¬cond3_1 (grid3.coords t)) : (cfg3.win 2).flush t = false := by
  have hf := flush3_2 t
  rw [← hcond3_1 t] at hf
  cases hv : (cfg3.win 2).flush t
  · rfl
  · exact absurd (hf.mp hv) h

abbrev ms3_0 (t : Fin cfg3.N) : Memref sig .tc .vmem S2048x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x256 .bf16 := win3_2.stage (cfg3.slots t 2)
abbrev hs3_2 (t : Fin cfg3.N) : (ms3_2 t).IsWhole := hstage3_2 ((cfg3.slots t 2).cast nbuf3_2)

abbrev scM3_0 : Memref sig .tc .vmem S2048x256 .f32 := Memref.whole cc3_scratch0

end Cert.KernelIdeal.Reg

end
-- ==== Proof.Gather3B.lean ====
import proofs.«417335_j4861902979554_2_alg».proof.Proof.Gather3A
import proofs.«417335_j4861902979554_2_alg».proof.Proof.Gather0B

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem PhiA3_eq (c : Dev nD) :
    (Pipeline.ΦA spec3 c : sProp 𝕄)
      = iprop(iprop(iprop((∃ d, owns (c : Thread nD τ) scM3_0 fullShare d)) ∗ Pipeline.scopedRestBut spec3 c [cc3_scratch0]) ∗ (∃ r, prngReg c r)) := by
  unfold Pipeline.ΦA; rw [scopedRest3_split]; simp only [scM3_0, owns_whole]; try rfl

-- The same three body runs as region 0, taken at this region's blocks: what the scratch and the output block hold after point n.
def outsAt3 (c : Dev nD) : (n : ℕ) → n < cfg3.N → Vec F S2048x256 .bf16 × Vec F S2048x256 .f32
  | 0, hn => res0_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩)
  | n + 1, hn =>
    if h0 : (n + 1) % 25 = 0 then
      if h1 : (n + 1) % 25 = 24 then
        False.elim (by omega)
      else
        res0_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩)
    else
      if h1 : (n + 1) % 25 = 24 then
        res0_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2
      else
        res0_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2

theorem outsAt3_A (c : Dev nD) (t : Fin cfg3.N) (h0 : t.val % 25 = 0) (h1 : ¬t.val % 25 = 24) :
    outsAt3 V c t.val t.isLt = res0_A c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t) := by
  obtain ⟨n, hn⟩ := t
  cases n with
  | zero => exact rfl
  | succ n => exact (dif_pos h0).trans ((dif_neg h1).trans rfl)

theorem outsAt3_B (c : Dev nD) (t : Fin cfg3.N) (h0 : ¬t.val % 25 = 0) (h1 : ¬t.val % 25 = 24) :
    outsAt3 V c t.val t.isLt = res0_B c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 25 = 0) (h1 : t.val % 25 = 24) :
    outsAt3 V c t.val t.isLt = res0_C c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut spec3 c [cc3_scratch0]) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

end Cert.KernelIdeal.Reg

end
-- ==== Proof.Gather3C.lean ====
import proofs.«417335_j4861902979554_2_alg».proof.Proof.Gather3B

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any3 (c : Dev nD) (t : Fin (cfg3.N + 1)) : (dat3 V c).Φ t
    ⊢ iprop(iprop(iprop((∃ d, owns (c : Thread nD τ) scM3_0 fullShare d)) ∗ Pipeline.scopedRestBut spec3 c [cc3_scratch0]) ∗ (∃ r, prngReg c r)) := by
  rw [← PhiA3_eq, show (dat3 V c).Φ t = PhiS3 V c t.val (Nat.le_of_lt_succ t.isLt) from rfl]
  by_cases ht : t.val = 0
  · rw [PhiS3_zero V c _ _ ht]
  rw [PhiS3_pos V c _ _ ht, PhiA3_eq]
  iintro ⟨⟨HS0, Hrb⟩, Hg⟩
  isplitl [HS0 Hrb]
  · isplitl [HS0]
    · iexists _; iexact HS0
    iexact Hrb
  iexact Hg

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 9775 := lt_of_lt_of_eq t.isLt (show cfg3.N = 9775 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h1 : t.val % 25 = 24
  · have h0 : ¬t.val % 25 = 0 := by omega
    have hz : t.val ≠ 0 := by omega
    rw [show (dat3 V c).leavesExact 2 t = owns (c : Thread nD τ) (ms3_2 t) fullShare ((dat3 V c).after 2 t) from by
      unfold Dat.leavesExact; rw [liveAt3_2 t ((hcond3_1 t).mpr h1)], after3_2]
    rw [outsAt3_C V c t h0 h1]
    unfold res0_C; (try dsimp only)
    rw [PhiS3_castSucc V c t, PhiS3_pos V c _ _ hz]
    iintro ⟨⟨⟨HS0, Hrb⟩, Hg⟩, Ho, ⟨%d0, H0⟩, ⟨%d1, H1⟩, ⟨%d2, H2⟩⟩
    iapply ((kernelRun0_C c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover0_C c _ _ _ _ _ _ _ _ _ _ _ _ _ _)
        iexact Hrb
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat3 V c) 2 t (idleAt3_2 t (fun h => h1 ((hcond3_1 t).mp h))) (noFlush3_2 t (fun h => h1 ((hcond3_1 t).mp h)))]
    by_cases h0 : t.val % 25 = 0
    · rw [outsAt3_A V c t h0 h1]
      unfold res0_A; (try dsimp only)
      iintro ⟨HΦ, Ho, ⟨%d0, H0⟩, ⟨%d1, H1⟩, ⟨%d2, H2⟩⟩
      ihave H := Phi_any3 V c t.castSucc $$ HΦ
      icases H with ⟨⟨HS0, Hrb⟩, Hg⟩
      iapply ((kernelRun0_A c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A c _ _ _ _ _ _ _ _ _ _ _ _ _)
          iexact Hrb
        iexact Hg
      isplitl [Ho]; · iexact Ho
      isplitl [H0]; · iexact H0
      isplitl [H1]; · iexact H1
      iexists _; iexact H2
    · have hz : t.val ≠ 0 := fun e => h0 (by rw [e])
      rw [outsAt3_B V c t h0 h1]
      unfold res0_B; (try dsimp only)
      rw [PhiS3_castSucc V c t, PhiS3_pos V c _ _ hz]
      iintro ⟨⟨⟨HS0, Hrb⟩, Hg⟩, Ho, ⟨%d0, H0⟩, ⟨%d1, H1⟩, ⟨%d2, H2⟩⟩
      iapply ((kernelRun0_B c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B c _ _ _ _ _ _ _ _ _ _ _ _ _ _)
          iexact Hrb
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [PhiA3_eq]; exact Phi_any3 V c _

end Cert.KernelIdeal.Reg

end
-- ==== Proof.Scatter4A.lean ====
import proofs.«417335_j4861902979554_2_alg».proof.Proof.Scatter1A
import proofs.«417335_j4861902979554_2_alg».proof.Proof.Gen.KernelIdeal.Launch
import proofs.«417335_j4861902979554_2_alg».proof.Proof.Gen.KernelIdeal.Skeleton
import proofs.«417335_j4861902979554_2_alg».proof.Proof.Gen.KernelIdeal.Points

noncomputable section

namespace Cert.KernelIdeal.Reg

open Idealize.ShloMosaic Idealize.ShloMosaic.TcCoe Idealize.ShloMosaic.Tactic
open Cert.KernelIdeal Cert.KernelIdeal.Gen

variable {F : FTy → Type} [FloatOps F]

theorem coords4_1 (t : Fin cfg4.N) : ((grid4.coords t) 1).val = t.val % 391 := coords1_1 t

abbrev cond4_0 (i : grid4.Coords) : Prop := cond1_0 i
-- Regions 1 and 4 call one kernel function on grids of one shape: region 1's closed forms of the branch conditions serve here.
theorem hcond4_0 (t : Fin cfg4.N) : cond4_0 (grid4.coords t) ↔ t.val % 391 = 0 := hcond1_0 t

abbrev cond4_1 (i : grid4.Coords) : Prop := k4_cond2 i = 1#1
theorem hcond4_1 (t : Fin cfg4.N) : cond4_1 (grid4.coords t) ↔ t.val % 391 = 390 := hcond1_1 t

theorem liveAt4_0 (t : Fin cfg4.N) : cfg4.idle 0 (grid4.coords t) = false := rfl
theorem liveAt4_1 (t : Fin cfg4.N) : cfg4.idle 1 (grid4.coords t) = false := rfl

theorem idleAt4_2 (t : Fin cfg4.N) (h : ¬cond4_1 (grid4.coords t)) : cfg4.idle 2 (grid4.coords t) = true := by
  show (!(k4_cond2 (grid4.coords t) == 1#1)) = true
  simp [h]
theorem liveAt4_2 (t : Fin cfg4.N) (h : cond4_1 (grid4.coords t)) : cfg4.idle 2 (grid4.coords t) = false := by
  show (!(k4_cond2 (grid4.coords t) == 1#1)) = false
  simp [h]
theorem noFlush4_2 (t : Fin cfg4.N) (h : ¬cond4_1 (grid4.coords t)) : (cfg4.win 2).flush t = false := by
  have hf := flush4_2 t
  rw [← hcond4_1 t] at hf
  cases hv : (cfg4.win 2).flush t
  · rfl
  · exact absurd (hf.mp hv) h

abbrev ms4_0 (t : Fin cfg4.N) : Memref sig .tc .vmem S1x2048 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x256 .f32 := win4_2.stage (cfg4.slots t 2)
abbrev hs4_2 (t : Fin cfg4.N) : (ms4_2 t).IsWhole := hstage4_2 ((cfg4.slots t 2).cast nbuf4_2)

abbrev scM4_0 : Memref sig .tc .vmem S2048x256 .f32 := Memref.whole cc4_scratch0

end Cert.KernelIdeal.Reg

end
-- ==== Proof.Scatter4B.lean ====
import proofs.«417335_j4861902979554_2_alg».proof.Proof.Scatter4A
import proofs.«417335_j4861902979554_2_alg».proof.Proof.Scatter1B

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

-- The same three body runs as region 1, taken at this region's blocks.
def outsAt4 (c : Dev nD) : (n : ℕ) → n < cfg4.N → Vec F S2048x256 .f32 × Vec F S2048x256 .f32
  | 0, hn => res1_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩)
  | n + 1, hn =>
    if h0 : (n + 1) % 391 = 0 then
      if h1 : (n + 1) % 391 = 390 then
        False.elim (by omega)
      else
        res1_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩)
    else
      if h1 : (n + 1) % 391 = 390 then
        res1_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2
      else
        res1_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2

theorem outsAt4_A (c : Dev nD) (t : Fin cfg4.N) (h0 : t.val % 391 = 0) (h1 : ¬t.val % 391 = 390) :
    outsAt4 V c t.val t.isLt = res1_A c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t) := by
  obtain ⟨n, hn⟩ := t
  cases n with
  | zero => exact rfl
  | succ n => exact (dif_pos h0).trans ((dif_neg h1).trans rfl)

theorem outsAt4_B (c : Dev nD) (t : Fin cfg4.N) (h0 : ¬t.val % 391 = 0) (h1 : ¬t.val % 391 = 390) :
    outsAt4 V c t.val t.isLt = res1_B c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 391 = 0) (h1 : t.val % 391 = 390) :
    outsAt4 V c t.val t.isLt = res1_C c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut spec4 c [cc4_scratch0]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

end Cert.KernelIdeal.Reg

end
-- ==== Proof.Scatter4C.lean ====
import proofs.«417335_j4861902979554_2_alg».proof.Proof.Scatter4B

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any4 (c : Dev nD) (t : Fin (cfg4.N + 1)) : (dat4 V c).Φ t
    ⊢ iprop(iprop(iprop((∃ d, owns (c : Thread nD τ) scM4_0 fullShare d)) ∗ Pipeline.scopedRestBut spec4 c [cc4_scratch0]) ∗ (∃ r, prngReg c r)) := by
  rw [← PhiA4_eq, show (dat4 V c).Φ t = PhiS4 V c t.val (Nat.le_of_lt_succ t.isLt) from rfl]
  by_cases ht : t.val = 0
  · rw [PhiS4_zero V c _ _ ht]
  rw [PhiS4_pos V c _ _ ht, PhiA4_eq]
  iintro ⟨⟨HS0, Hrb⟩, Hg⟩
  isplitl [HS0 Hrb]
  · isplitl [HS0]
    · iexists _; iexact HS0
    iexact Hrb
  iexact Hg

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 9775 := lt_of_lt_of_eq t.isLt (show cfg4.N = 9775 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h1 : t.val % 391 = 390
  · have h0 : ¬t.val % 391 = 0 := by omega
    have hz : t.val ≠ 0 := by omega
    rw [show (dat4 V c).leavesExact 2 t = owns (c : Thread nD τ) (ms4_2 t) fullShare ((dat4 V c).after 2 t) from by
      unfold Dat.leavesExact; rw [liveAt4_2 t ((hcond4_1 t).mpr h1)], after4_2]
    rw [outsAt4_C V c t h0 h1]
    unfold res1_C; (try dsimp only)
    rw [PhiS4_castSucc V c t, PhiS4_pos V c _ _ hz]
    iintro ⟨⟨⟨HS0, Hrb⟩, Hg⟩, Ho, ⟨%d0, H0⟩, ⟨%d1, H1⟩, ⟨%d2, H2⟩⟩
    iapply ((kernelRun1_C c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover1_C c _ _ _ _ _ _ _ _ _ _ _ _ _ _)
        iexact Hrb
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C c _ _ _ _ _ _ _ _ _ _ _ _ _ _)
  · rw [Dat.leavesExact_idle (dat4 V c) 2 t (idleAt4_2 t (fun h => h1 ((hcond4_1 t).mp h))) (noFlush4_2 t (fun h => h1 ((hcond4_1 t).mp h)))]
    by_cases h0 : t.val % 391 = 0
    · rw [outsAt4_A V c t h0 h1]
      unfold res1_A; (try dsimp only)
      iintro ⟨HΦ, Ho, ⟨%d0, H0⟩, ⟨%d1, H1⟩, ⟨%d2, H2⟩⟩
      ihave H := Phi_any4 V c t.castSucc $$ HΦ
      icases H with ⟨⟨HS0, Hrb⟩, Hg⟩
      iapply ((kernelRun1_A c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _)
          iexact Hrb
        iexact Hg
      isplitl [Ho]; · iexact Ho
      isplitl [H0]; · iexact H0
      isplitl [H1]; · iexact H1
      iexists _; iexact H2
    · have hz : t.val ≠ 0 := fun e => h0 (by rw [e])
      rw [outsAt4_B V c t h0 h1]
      unfold res1_B; (try dsimp only)
      rw [PhiS4_castSucc V c t, PhiS4_pos V c _ _ hz]
      iintro ⟨⟨⟨HS0, Hrb⟩, Hg⟩, Ho, ⟨%d0, H0⟩, ⟨%d1, H1⟩, ⟨%d2, H2⟩⟩
      iapply ((kernelRun1_B c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B c _ _ _ _ _ _ _ _ _ _ _ _ _ _)
          iexact Hrb
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [PhiA4_eq]; exact Phi_any4 V c _

end Cert.KernelIdeal.Reg

end
-- ==== Proof.Combine5.lean ====
import proofs.«417335_j4861902979554_2_alg».proof.Proof.Gen.KernelIdeal.Launch
import proofs.«417335_j4861902979554_2_alg».proof.Proof.Gen.KernelIdeal.Skeleton
import proofs.«417335_j4861902979554_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rBlock5 : Rect S2048x256 := Rect.unit (s := S2048x256) ![0, 0] S2048x256.size inb_S2048x256_S2048x256_0_0
abbrev rWeight5 : Rect S256x256 := Rect.unit (s := S256x256) ![0, 0] S256x256.size inb_S256x256_S256x256_0_0
abbrev rBias5 : Rect S1x256 := Rect.unit (s := S1x256) ![0, 0] S1x256.size inb_S1x256_S1x256_0_0

def out5_5 (x0 x1 : Vec F S2048x256 .f32) (x2 : Vec F S256x256 .f32) (x3 : Vec F S1x256 .f32) (x4 : Vec F S256x256 .f32) : Vec F S2048x256 .f32 :=
  View.canon [⟨rBlock5, k5_pay1 (View.ld x0 rBlock5) (View.ld x1 rBlock5) (View.ld x2 rWeight5) (View.ld x4 rWeight5) (View.ld x3 rBias5)⟩]

theorem cover5_5 (p0 : Vec F S2048x256 .f32) (y : S2048x256.Idx) :
    ∃ pc ∈ ([⟨rBlock5, p0⟩] : List (View.Piece (Elt F) S2048x256 .f32)), y ∈ pc.1.set :=
  View.cover_of_tiled [⟨rBlock5, p0⟩] S2048x256.size (by rfl) y

set_option maxHeartbeats 1000000 in

theorem sound_kernel5 (c : Dev nD) (E : Set ℕ) (i : grid5.Coords)
    (arg1 : Memref sig .tc .vmem S2048x256 .f32) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S2048x256 .f32) (harg6 : arg6.IsWhole)
    (x0 x1 : Vec F S2048x256 .f32) (x2 : Vec F S256x256 .f32) (x3 : Vec F S1x256 .f32) (x4 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__combine_kernel i arg1 harg1 arg2 harg2 arg3 harg3 arg4 harg4 arg5 harg5 arg6 harg6) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.Vals.lean ====
import proofs.«417335_j4861902979554_2_alg».proof.Proof.Gather0C
import proofs.«417335_j4861902979554_2_alg».proof.Proof.Scatter1C
import proofs.«417335_j4861902979554_2_alg».proof.Proof.Combine2
import proofs.«417335_j4861902979554_2_alg».proof.Proof.Gather3C
import proofs.«417335_j4861902979554_2_alg».proof.Proof.Scatter4C
import proofs.«417335_j4861902979554_2_alg».proof.Proof.Combine5
import proofs.«417335_j4861902979554_2_alg».proof.Proof.Gen.KernelIdeal.Regions

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev W8 : Dev nD → Valuation τ sig (Elt F) := fun c => StableHlo.after hostOps0_7 (W7 m c)

abbrev Vin0 : (c : Dev nD) → (b : Ref sig .tc) → Buf (Elt F) ((c : Thread nD τ).loc b) := fun c b => W8 m c b

def W9 (c : Dev nD) : Valuation τ sig (Elt F) :=
  Pipeline.withArrays spec0 c (W8 m c) fun w => (dat0 (Vin0 m) c).arrAt w cfg0.N
theorem W9_arr (c : Dev nD) (w : Fin cfg0.W) :
    W9 m c (Proc.devRef .tc (Pipeline.arrRef spec0 w)) = (dat0 (Vin0 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = W8 m c (Proc.devRef .tc b) := by
  unfold W9; exact Pipeline.withArrays_of_ne spec0 c _ _ b hb
abbrev Vout0 : (c : Dev nD) → (b : Ref sig .tc) → Buf (Elt F) ((c : Thread nD τ).loc b) := fun c b => W9 m c b

abbrev Vin1 : (c : Dev nD) → (b : Ref sig .tc) → Buf (Elt F) ((c : Thread nD τ).loc b) := fun c b => W9 m c b

def W10 (c : Dev nD) : Valuation τ sig (Elt F) :=
  Pipeline.withArrays spec1 c (W9 m c) fun w => (dat1 (Vin1 m) c).arrAt w cfg1.N
theorem W10_arr (c : Dev nD) (w : Fin cfg1.W) :
    W10 m c (Proc.devRef .tc (Pipeline.arrRef spec1 w)) = (dat1 (Vin1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev Vout1 : (c : Dev nD) → (b : Ref sig .tc) → Buf (Elt F) ((c : Thread nD τ).loc b) := fun c b => W10 m c b

abbrev W11 : Dev nD → Valuation τ sig (Elt F) := fun c => StableHlo.after hostOps2 (W10 m c)
abbrev Vin2 : (c : Dev nD) → (b : Ref sig .tc) → Buf (Elt F) ((c : Thread nD τ).loc b) := fun c b => W11 m c b

def W12 (c : Dev nD) : Valuation τ sig (Elt F) :=
  Pipeline.withArrays spec2 c (W11 m c) fun w => (dat2 (Vin2 m) c).arrAt w cfg2.N
theorem W12_arr (c : Dev nD) (w : Fin cfg2.W) :
    W12 m c (Proc.devRef .tc (Pipeline.arrRef spec2 w)) = (dat2 (Vin2 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev Vout2 : (c : Dev nD) → (b : Ref sig .tc) → Buf (Elt F) ((c : Thread nD τ).loc b) := fun c b => W12 m c b

abbrev Vin3 : (c : Dev nD) → (b : Ref sig .tc) → Buf (Elt F) ((c : Thread nD τ).loc b) := fun c b => W12 m c b

def W13 (c : Dev nD) : Valuation τ sig (Elt F) :=
  Pipeline.withArrays spec3 c (W12 m c) fun w => (dat3 (Vin3 m) c).arrAt w cfg3.N
theorem W13_arr (c : Dev nD) (w : Fin cfg3.W) :
    W13 m c (Proc.devRef .tc (Pipeline.arrRef spec3 w)) = (dat3 (Vin3 m) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb
abbrev Vout3 : (c : Dev nD) → (b : Ref sig .tc) → Buf (Elt F) ((c : Thread nD τ).loc b) := fun c b => W13 m c b

abbrev Vin4 : (c : Dev nD) → (b : Ref sig .tc) → Buf (Elt F) ((c : Thread nD τ).loc b) := fun c b => W13 m c b

def W14 (c : Dev nD) : Valuation τ sig (Elt F) :=
  Pipeline.withArrays spec4 c (W13 m c) fun w => (dat4 (Vin4 m) c).arrAt w cfg4.N
theorem W14_arr (c : Dev nD) (w : Fin cfg4.W) :
    W14 m c (Proc.devRef .tc (Pipeline.arrRef spec4 w)) = (dat4 (Vin4 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
abbrev Vout4 : (c : Dev nD) → (b : Ref sig .tc) → Buf (Elt F) ((c : Thread nD τ).loc b) := fun c b => W14 m c b

abbrev W15 : Dev nD → Valuation τ sig (Elt F) := fun c => StableHlo.after hostOps5 (W14 m c)
abbrev Vin5 : (c : Dev nD) → (b : Ref sig .tc) → Buf (Elt F) ((c : Thread nD τ).loc b) := fun c b => W15 m c b

def W16 (c : Dev nD) : Valuation τ sig (Elt F) :=
  Pipeline.withArrays spec5 c (W15 m c) fun w => (dat5 (Vin5 m) c).arrAt w cfg5.N
theorem W16_arr (c : Dev nD) (w : Fin cfg5.W) :
    W16 m c (Proc.devRef .tc (Pipeline.arrRef spec5 w)) = (dat5 (Vin5 m) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m c (Proc.devRef .tc b) = W15 m c (Proc.devRef .tc b) := by
  unfold W16; exact Pipeline.withArrays_of_ne spec5 c _ _ b hb
abbrev Vout5 : (c : Dev nD) → (b : Ref sig .tc) → Buf (Elt F) ((c : Thread nD τ).loc b) := fun c b => W16 m c b

abbrev W17 : Dev nD → Valuation τ sig (Elt F) := fun c => StableHlo.after hostOps6 (W16 m c)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W17 m c) ∗ ∃ r, prngReg c r)

end Cert.KernelIdeal.Reg

end
-- ==== Proof.Reg0.lean ====
import proofs.«417335_j4861902979554_2_alg».proof.Proof.Vals

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vin0 m) c).Φ 0 from rfl]
    refine .trans ?_ (hin0 (Vin0 m) c)
    unfold Pipeline.ΦA
    iintro ⟨Hp, -, Hr⟩
    isplitl [Hr]; · iexact Hr
    iexact Hp
  hout c := by
    rw [Pipeline.ownSems0_none, show (pdats m 0 c).Φ (Fin.last _) = (dat0 (Vin0 m) c).Φ (Fin.last cfg0.N) from rfl]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (fun w => (W9_arr m c w).symm) (fun b hb => W9_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.Reg1.lean ====
import proofs.«417335_j4861902979554_2_alg».proof.Proof.Vals

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vin1 m) c).Φ 0 from rfl]
    refine .trans ?_ (hin1 (Vin1 m) c)
    unfold Pipeline.ΦA
    iintro ⟨Hp, -, Hr⟩
    isplitl [Hr]; · iexact Hr
    iexact Hp
  hout c := by
    rw [Pipeline.ownSems0_none, show (pdats m 1 c).Φ (Fin.last _) = (dat1 (Vin1 m) c).Φ (Fin.last cfg1.N) from rfl]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (fun w => (W10_arr m c w).symm) (fun b hb => W10_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.Reg2.lean ====
import proofs.«417335_j4861902979554_2_alg».proof.Proof.Vals

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (Vout2 m c) ((pdats m 2 c).arrAt · cfg2.N) (fun w => (W12_arr m c w).symm) (fun b hb => W12_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.Reg3.lean ====
import proofs.«417335_j4861902979554_2_alg».proof.Proof.Vals

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ L lv 3 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Vin3 m) c).Φ 0 from rfl]
    refine .trans ?_ (hin3 (Vin3 m) c)
    unfold Pipeline.ΦA
    iintro ⟨Hp, -, Hr⟩
    isplitl [Hr]; · iexact Hr
    iexact Hp
  hout c := by
    rw [Pipeline.ownSems0_none, show (pdats m 3 c).Φ (Fin.last _) = (dat3 (Vin3 m) c).Φ (Fin.last cfg3.N) from rfl]
    refine (hout3 (Vin3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (Vout3 m c) ((pdats m 3 c).arrAt · cfg3.N) (fun w => (W13_arr m c w).symm) (fun b hb => W13_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.Reg4.lean ====
import proofs.«417335_j4861902979554_2_alg».proof.Proof.Vals

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

variable (m : (ℓ : Loc nD τ sig) → Buf (Elt F) ℓ)

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Vin4 m) c).Φ 0 from rfl]
    refine .trans ?_ (hin4 (Vin4 m) c)
    unfold Pipeline.ΦA
    iintro ⟨Hp, -, Hr⟩
    isplitl [Hr]; · iexact Hr
    iexact Hp
  hout c := by
    rw [Pipeline.ownSems0_none, show (pdats m 4 c).Φ (Fin.last _) = (dat4 (Vin4 m) c).Φ (Fin.last cfg4.N) from rfl]
    refine (hout4 (Vin4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (Vout4 m c) ((pdats m 4 c).arrAt · cfg4.N) (fun w => (W14_arr m c w).symm) (fun b hb => W14_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.Reg5.lean ====
import proofs.«417335_j4861902979554_2_alg».proof.Proof.Vals

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

variable (m : (ℓ : Loc nD τ sig) → Buf (Elt F) ℓ)

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (Vin5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin5 m c) (Vout5 m c) ((pdats m 5 c).arrAt · cfg5.N) (fun w => (W16_arr m c w).symm) (fun b hb => W16_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.Keep.lean ====
import proofs.«417335_j4861902979554_2_alg».proof.Proof.Vals

noncomputable section

namespace Cert.KernelIdeal.Reg

open Idealize.ShloMosaic Idealize.ShloMosaic.TcCoe Idealize.ShloMosaic.Tactic
open Cert.KernelIdeal Cert.KernelIdeal.Gen

variable {F : FTy → Type} [FloatOps F]

variable (m : (ℓ : Loc nD τ sig) → Buf (Elt F) ℓ)

theorem W9_keep (c : Dev nD) (r : Ref sig .tc) (hr : r ≠ main_v15) : W9 m c (Proc.devRef .tc r) = W8 m c (Proc.devRef .tc r) := by
  by_cases h : ∃ w, Pipeline.arrRef spec0 w = r
  · obtain ⟨w, rfl⟩ := h
    rw [W9_arr m c w]
    have hin : (cfg0.win w).isOut = false := by
      revert hr; revert w; decide
    exact ((dat0 (Vin0 m) c).arrAt_in w hin _).trans (A_eq0 (Vin0 m) c w)
  · exact W9_of_ne m c r fun w e => h ⟨w, e⟩

theorem W10_keep (c : Dev nD) (r : Ref sig .tc) (hr : r ≠ main_v16) : W10 m c (Proc.devRef .tc r) = W9 m c (Proc.devRef .tc r) := by
  by_cases h : ∃ w, Pipeline.arrRef spec1 w = r
  · obtain ⟨w, rfl⟩ := h
    rw [W10_arr m c w]
    have hin : (cfg1.win w).isOut = false := by
      revert hr; revert w; decide
    exact ((dat1 (Vin1 m) c).arrAt_in w hin _).trans (A_eq1 (Vin1 m) c w)
  · exact W10_of_ne m c r fun w e => h ⟨w, e⟩

theorem W12_keep (c : Dev nD) (r : Ref sig .tc) (hr : r ≠ main_v22) : W12 m c (Proc.devRef .tc r) = W11 m c (Proc.devRef .tc r) := by
  by_cases h : ∃ w, Pipeline.arrRef spec2 w = r
  · obtain ⟨w, rfl⟩ := h
    rw [W12_arr m c w]
    have hin : (cfg2.win w).isOut = false := by
      revert hr; revert w; decide
    exact ((dat2 (Vin2 m) c).arrAt_in w hin _).trans (A_eq2 (Vin2 m) c w)
  · exact W12_of_ne m c r fun w e => h ⟨w, e⟩

theorem W13_keep (c : Dev nD) (r : Ref sig .tc) (hr : r ≠ main_v23) : W13 m c (Proc.devRef .tc r) = W12 m c (Proc.devRef .tc r) := by
  by_cases h : ∃ w, Pipeline.arrRef spec3 w = r
  · obtain ⟨w, rfl⟩ := h
    rw [W13_arr m c w]
    have hin : (cfg3.win w).isOut = false := by
      revert hr; revert w; decide
    exact ((dat3 (Vin3 m) c).arrAt_in w hin _).trans (A_eq3 (Vin3 m) c w)
  · exact W13_of_ne m c r fun w e => h ⟨w, e⟩

theorem W14_keep (c : Dev nD) (r : Ref sig .tc) (hr : r ≠ main_v24) : W14 m c (Proc.devRef .tc r) = W13 m c (Proc.devRef .tc r) := by
  by_cases h : ∃ w, Pipeline.arrRef spec4 w = r
  · obtain ⟨w, rfl⟩ := h
    rw [W14_arr m c w]
    have hin : (cfg4.win w).isOut = false := by
      revert hr; revert w; decide
    exact ((dat4 (Vin4 m) c).arrAt_in w hin _).trans (A_eq4 (Vin4 m) c w)
  · exact W14_of_ne m c r fun w e => h ⟨w, e⟩

theorem W16_keep (c : Dev nD) (r : Ref sig .tc) (hr : r ≠ main_v30) : W16 m c (Proc.devRef .tc r) = W15 m c (Proc.devRef .tc r) := by
  by_cases h : ∃ w, Pipeline.arrRef spec5 w = r
  · obtain ⟨w, rfl⟩ := h
    rw [W16_arr m c w]
    have hin : (cfg5.win w).isOut = false := by
      revert hr; revert w; decide
    exact ((dat5 (Vin5 m) c).arrAt_in w hin _).trans (A_eq5 (Vin5 m) c w)
  · exact W16_of_ne m c r fun w e => h ⟨w, e⟩

abbrev Kept (r : Ref sig .tc) : Prop :=
  r ∉ hostOps0_W ∧ r ∉ hostOps0_1_W ∧ r ∉ hostOps0_2_W ∧ r ∉ hostOps0_3_W ∧ r ∉ hostOps0_4_W ∧ r ∉ hostOps0_5_W
    ∧ r ∉ hostOps0_6_W ∧ r ∉ hostOps0_7_W ∧ r ∉ hostOps2_W ∧ r ∉ hostOps5_W ∧ r ∉ hostOps6_W
    ∧ r ≠ main_v15 ∧ r ≠ main_v16 ∧ r ≠ main_v22 ∧ r ≠ main_v23 ∧ r ≠ main_v24 ∧ r ≠ main_v30

-- A buffer no host stretch writes and no region puts out ends at its launch contents.
theorem W17_keep (c : Dev nD) (r : Ref sig .tc) (h : Kept r) :
    W17 m c (Proc.devRef .tc r) = m ((c : Thread nD τ).loc r) := by
  obtain ⟨h0, h1, h2, h3, h4, h5, h6, h7, h10, h14, h16, o0, o1, o2, o3, o4, o5⟩ := h
  exact
  (StableHlo.after_of_writes_sub hostOps6 _ hostOps6_writes h16).trans <|
  (W16_keep m c r o5).trans <|
  (StableHlo.after_of_writes_sub hostOps5 _ hostOps5_writes h14).trans <|
  (W14_keep m c r o4).trans <| (W13_keep m c r o3).trans <| (W12_keep m c r o2).trans <|
  (StableHlo.after_of_writes_sub hostOps2 _ hostOps2_writes h10).trans <|
  (W10_keep m c r o1).trans <| (W9_keep m c r o0).trans <|
  (StableHlo.after_of_writes_sub hostOps0_7 _ hostOps0_7_writes h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

end Cert.KernelIdeal.Reg

end
-- ==== Proof.Run.lean ====
import proofs.«417335_j4861902979554_2_alg».proof.Proof.Reg0
import proofs.«417335_j4861902979554_2_alg».proof.Proof.Reg1
import proofs.«417335_j4861902979554_2_alg».proof.Proof.Reg2
import proofs.«417335_j4861902979554_2_alg».proof.Proof.Reg3
import proofs.«417335_j4861902979554_2_alg».proof.Proof.Reg4
import proofs.«417335_j4861902979554_2_alg».proof.Proof.Reg5
import proofs.«417335_j4861902979554_2_alg».proof.Proof.Keep

noncomputable section

namespace Cert.KernelIdeal.Reg

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .region (reg0 m),
    .region (reg1 m),
    .host (hseg hostOps2 hostOps2_sub hostOps2_fresh (W10 m)),
    .region (reg2 m),
    .region (reg3 m),
    .region (reg4 m),
    .host (hseg hostOps5 hostOps5_sub hostOps5_fresh (W14 m)),
    .region (reg5 m),
    .host (hseg hostOps6 hostOps6_sub hostOps6_fresh (W16 m)) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W17 m c) ∗ R c)
          ⊢ iprop(Tₙ m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W17_keep m c main_arg0 (by decide)),
     (h c _ (mem_uc main_arg1 (by decide))).trans (W17_keep m c main_arg1 (by decide)),
     (h c _ (mem_uc main_arg2 (by decide))).trans (W17_keep m c main_arg2 (by decide)),
     (h c _ (mem_uc main_arg3 (by decide))).trans (W17_keep m c main_arg3 (by decide)),
     (h c _ (mem_uc main_arg4 (by decide))).trans (W17_keep m c main_arg4 (by decide)),
     (h c _ (mem_uc main_arg5 (by decide))).trans (W17_keep m c main_arg5 (by decide)),
     (h c _ (mem_uc main_arg6 (by decide))).trans (W17_keep m c main_arg6 (by decide)),
     (h c _ (mem_uc main_arg7 (by decide))).trans (W17_keep m c main_arg7 (by decide))⟩)
    (run_all m ρ)

end Cert.KernelIdeal.Reg

end
-- ==== Proof.Keep2.lean ====
import proofs.«417335_j4861902979554_2_alg».proof.Proof.Keep

noncomputable section

namespace Cert.KernelIdeal.Reg

open Idealize.ShloMosaic Idealize.ShloMosaic.TcCoe Idealize.ShloMosaic.Tactic
open Cert.KernelIdeal Cert.KernelIdeal.Gen

variable {F : FTy → Type} [FloatOps F]

variable (m : (ℓ : Loc nD τ sig) → Buf (Elt F) ℓ)

theorem W8_of_W0 (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) :
    W8 m c (Proc.devRef .tc r) = W0 m c (Proc.devRef .tc r) :=
  (StableHlo.after_of_writes_sub hostOps0_7 _ hostOps0_7_writes h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0)

theorem W8_of_W3 (c : Dev nD) (r : Ref sig .tc)
    (h3 : r ∉ hostOps0_3_W) (h4 : r ∉ hostOps0_4_W) (h5 : r ∉ hostOps0_5_W) (h6 : r ∉ hostOps0_6_W) (h7 : r ∉ hostOps0_7_W) :
    W8 m c (Proc.devRef .tc r) = W3 m c (Proc.devRef .tc r) :=
  (StableHlo.after_of_writes_sub hostOps0_7 _ hostOps0_7_writes h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3)

theorem W8_of_W5 (c : Dev nD) (r : Ref sig .tc)
    (h5 : r ∉ hostOps0_5_W) (h6 : r ∉ hostOps0_6_W) (h7 : r ∉ hostOps0_7_W) :
    W8 m c (Proc.devRef .tc r) = W5 m c (Proc.devRef .tc r) :=
  (StableHlo.after_of_writes_sub hostOps0_7 _ hostOps0_7_writes h7).trans <|
  (StableHlo.after_of_writes_sub hostOps0_6 _ hostOps0_6_writes h6).trans <|
  (StableHlo.after_of_writes_sub hostOps0_5 _ hostOps0_5_writes h5)

theorem W8_of_W7 (c : Dev nD) (r : Ref sig .tc) (h7 : r ∉ hostOps0_7_W) :
    W8 m c (Proc.devRef .tc r) = W7 m c (Proc.devRef .tc r) :=
  StableHlo.after_of_writes_sub hostOps0_7 _ hostOps0_7_writes h7

theorem W7_of_W1 (c : Dev nD) (r : Ref sig .tc)
    (h1 : r ∉ hostOps0_1_W) (h2 : r ∉ hostOps0_2_W) (h3 : r ∉ hostOps0_3_W) (h4 : r ∉ hostOps0_4_W)
    (h5 : r ∉ hostOps0_5_W) (h6 : r ∉ hostOps0_6_W) :
    W7 m c (Proc.devRef .tc r) = W1 m c (Proc.devRef .tc r) :=
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1)

theorem W10_of_W8 (c : Dev nD) (r : Ref sig .tc) (o0 : r ≠ main_v15) (o1 : r ≠ main_v16) :
    W10 m c (Proc.devRef .tc r) = W8 m c (Proc.devRef .tc r) :=
  (W10_keep m c r o1).trans (W9_keep m c r o0)

theorem W11_of_W10 (c : Dev nD) (r : Ref sig .tc) (h10 : r ∉ hostOps2_W) :
    W11 m c (Proc.devRef .tc r) = W10 m c (Proc.devRef .tc r) :=
  StableHlo.after_of_writes_sub hostOps2 _ hostOps2_writes h10

theorem W14_of_W11 (c : Dev nD) (r : Ref sig .tc) (o2 : r ≠ main_v22) (o3 : r ≠ main_v23) (o4 : r ≠ main_v24) :
    W14 m c (Proc.devRef .tc r) = W11 m c (Proc.devRef .tc r) :=
  (W14_keep m c r o4).trans <| (W13_keep m c r o3).trans (W12_keep m c r o2)

theorem W13_of_W12 (c : Dev nD) (r : Ref sig .tc) (o3 : r ≠ main_v23) :
    W13 m c (Proc.devRef .tc r) = W12 m c (Proc.devRef .tc r) := W13_keep m c r o3

theorem W14_of_W12 (c : Dev nD) (r : Ref sig .tc) (o3 : r ≠ main_v23) (o4 : r ≠ main_v24) :
    W14 m c (Proc.devRef .tc r) = W12 m c (Proc.devRef .tc r) :=
  (W14_keep m c r o4).trans (W13_keep m c r o3)

theorem W15_of_W14 (c : Dev nD) (r : Ref sig .tc) (h14 : r ∉ hostOps5_W) :
    W15 m c (Proc.devRef .tc r) = W14 m c (Proc.devRef .tc r) :=
  StableHlo.after_of_writes_sub hostOps5 _ hostOps5_writes h14

end Cert.KernelIdeal.Reg

end
-- ==== Proof.ValDefs.lean ====
import Idealize.ShloMosaic.PureOps.Ideal
import Idealize.ShloMosaic.Lib.ValueIdx

noncomputable section

namespace Cert.KernelIdeal.Val

open Idealize.ShloMosaic Idealize.ShloMosaic.ValueIdx

def gatheredAt (idx : (⟨2, ![800768, 1]⟩ : Shape).Idx → BitVec 32) (T : (⟨2, ![51200, 256]⟩ : Shape).Idx → EReal)
    (r : Fin 800768) (f : Fin 256) : EReal :=
  ∑ s : Fin 51200, (if idx (ix2 r 0) = BitVec.ofNat 32 s.val then (1 : EReal) else 0) * T (ix2 s f)

def scatteredAt (idx : (⟨2, ![1, 800768]⟩ : Shape).Idx → BitVec 32) (R : (⟨2, ![800768, 256]⟩ : Shape).Idx → EReal)
    (n : Fin 51200) (f : Fin 256) : EReal :=
  ∑ e : Fin 800768, (if idx (ix2 0 e) = BitVec.ofNat 32 n.val then (1 : EReal) else 0) * R (ix2 e f)

end Cert.KernelIdeal.Val

end
-- ==== Proof.ValGather0.lean ====
import proofs.«417335_j4861902979554_2_alg».proof.Proof.Gather0C
import proofs.«417335_j4861902979554_2_alg».proof.Proof.ValDefs
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Val

open Idealize.ShloMosaic Idealize.ShloMosaic.TcCoe Idealize.ShloMosaic.Tactic
open Cert.KernelIdeal Cert.KernelIdeal.Gen Cert.KernelIdeal.Reg
open Idealize.ShloMosaic.ValueIdx

section Pieces
variable {F : FTy → Type} [FloatOps F]

theorem hz0 : (![0, 0] : Fin 2 → Nat) = fun _ => 0 := funext fun a => by fin_cases a <;> rfl

variable (c : Dev nD) (i : grid0.Coords) (arg2 : Memref sig .tc .vmem S2048x1 .i32) (harg2 : arg2.IsWhole) (arg3 : Memref sig .tc .vmem S2048x256 .f32) (harg3 : arg3.IsWhole) (arg4 : Memref sig .tc .vmem S2048x256 .bf16) (harg4 : arg4.IsWhole) (arg5 : Memref sig .tc .vmem S2048x256 .f32) (harg5 : arg5.IsWhole)

theorem sout0_A_eq
    (hc0 : cond0_0 i) (hc1 : ¬cond0_1 i) (x0 : Vec F S2048x1 .i32) (x1 : Vec F S2048x256 .f32) :
    (res0_A c i arg2 harg2 arg3 harg3 arg4 harg4 arg5 harg5 hc0 hc1 x0 x1).2 = k0_pay2 i x0 x1 (k0_pay1 (F := F)) := by
  unfold res0_A
  dsimp only
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S2048x256) hz0]
  simp only [View.readAt_eq_ld, harg2.read_unread, harg3.read_unread, View.ld_unit_zero (S := S2048x1) hz0, View.ld_unit_zero (S := S2048x256) hz0, View.readCov_unit_zero (S := S2048x256) _ hz0]

theorem sout0_B_eq
    (hc0 : ¬cond0_0 i) (hc1 : ¬cond0_1 i) (x0 : Vec F S2048x1 .i32) (x1 : Vec F S2048x256 .f32) (xs0 : Vec F S2048x256 .f32) :
    (res0_B c i arg2 harg2 arg3 harg3 arg4 harg4 arg5 harg5 hc0 hc1 x0 x1 xs0).2 = k0_pay2 i x0 x1 xs0 := by
  unfold res0_B
  dsimp only
  rw [View.read_writes_eq_canon _ _ _ (scover0_B c i arg2 harg2 arg3 harg3 arg4 harg4 arg5 harg5 hc0 hc1 x0 x1 xs0)]
  unfold kernelRun0_B
  dsimp only
  sl_unfold_words
  rw [View.canon_unit_zero hz0]
  simp only [View.readAt_eq_ld, harg2.read_unread, harg3.read_unread, harg5.read_unread, View.ld_unit_zero (S := S2048x1) hz0, View.ld_unit_zero (S := S2048x256) hz0]

theorem sout0_C_eq
    (hc0 : ¬cond0_0 i) (hc1 : cond0_1 i) (x0 : Vec F S2048x1 .i32) (x1 : Vec F S2048x256 .f32) (xs0 : Vec F S2048x256 .f32) :
    (res0_C c i arg2 harg2 arg3 harg3 arg4 harg4 arg5 harg5 hc0 hc1 x0 x1 xs0).2 = k0_pay2 i x0 x1 xs0 := by
  unfold res0_C
  dsimp only
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz0]
  simp only [View.readAt_eq_ld, harg2.read_unread, harg3.read_unread, harg5.read_unread, View.ld_unit_zero (S := S2048x1) hz0, View.ld_unit_zero (S := S2048x256) hz0]

theorem out0_C_eq
    (hc0 : ¬cond0_0 i) (hc1 : cond0_1 i) (x0 : Vec F S2048x1 .i32) (x1 : Vec F S2048x256 .f32) (xs0 : Vec F S2048x256 .f32) :
    (res0_C c i arg2 harg2 arg3 harg3 arg4 harg4 arg5 harg5 hc0 hc1 x0 x1 xs0).1 = k0_pay3 (k0_pay2 i x0 x1 xs0) := by
  unfold res0_C
  dsimp only
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz0]
  simp only [View.readAt_eq_ld, harg2.read_unread, harg3.read_unread, harg5.read_unread, View.ld_unit_zero (S := S2048x1) hz0, View.ld_unit_zero (S := S2048x256) hz0, View.readCov_unit_zero (S := S2048x256) _ hz0]

end Pieces

section Payload

def indM0 {F : FTy → Type} [FloatOps F] (i : grid0.Coords) (x0 : Vec F S2048x1 .i32) : FVec F S2048x2048 .bf16 :=
  truncf .bf16 (sitofp .f32 (extui 32 (cmpi .eq (broadcastTo S2048x2048 (x0 : IVec S2048x1 32) broadcasts_S2048x1_S2048x2048)
    (broadcastTo S2048x2048 (addi (broadcast S1x2048 (Scalar.muli (BitVec.ofNat 32 (i 1).val) 2048#32)) (iota .tc S1x2048 32 [1] iota_S1x2048_d1_w32)) broadcasts_S1x2048_S2048x2048)) natLt_1_32)) bitsLt_bf16_f32

theorem pay0_2_eq {F : FTy → Type} [FloatOps F] (i : grid0.Coords) (x0 : Vec F S2048x1 .i32) (x1 : Vec F S2048x256 .f32) (xs : Vec F S2048x256 .f32) :
    k0_pay2 i x0 x1 xs = addf (xs : FVec F S2048x256 .f32) (matmul dot_S2048x2048_S2048x256_S2048x256_1_0_0_1_n_n none (indM0 i x0)
      (truncf .bf16 (x1 : FVec F S2048x256 .f32) bitsLt_bf16_f32) (constant S2048x256 .f32 0x00000000#32)) := by
  unfold k0_pay2 indM0
  simp only [shapeCast_self]

-- A comparison bit, widened and converted, is the extended real 1 or 0.
theorem ind0 (a b : BitVec 32) :
    (FloatOps.sitofp (F := Ideal) .f32 ((IntOp.cmpi .eq a b).setWidth 32) : EReal) = if a = b then 1 else 0 := by
  have e1 : ((BitVec.ofBool true).setWidth 32).toInt = 1 := by decide
  have e0 : ((BitVec.ofBool false).setWidth 32).toInt = 0 := by decide
  show ((((BitVec.ofBool (a == b)).setWidth 32).toInt : ℝ) : EReal) = _
  by_cases h : a = b
  · rw [if_pos h, show (a == b) = true from by simpa using h, e1]; simp
  · rw [if_neg h, show (a == b) = false from by simpa using h, e0]; simp

theorem word0 (n k : Nat) : IntOp.addi (IntOp.muli (BitVec.ofNat 32 n) 2048#32) (BitVec.ofNat 32 k) = BitVec.ofNat 32 (n * 2048 + k) := by
  show BitVec.ofNat 32 n * BitVec.ofNat 32 2048 + BitVec.ofNat 32 k = _
  rw [BitVec.ofNat_add, BitVec.ofNat_mul]

theorem indM0_apply (i : grid0.Coords) (x0 : Vec Ideal S2048x1 .i32) (p k : Fin 2048) :
    (indM0 (F := Ideal) i x0 : S2048x2048.Idx → EReal) (ix2 p k)
      = if (x0 (ix2 p 0) : BitVec 32) = BitVec.ofNat 32 ((i 1).val * 2048 + k.val) then 1 else 0 := by
  have h9 : broadcastTo S2048x2048 (x0 : IVec S2048x1 32) broadcasts_S2048x1_S2048x2048 (ix2 p k) = x0 (ix2 p 0) :=
    broadcastTo_apply (x0 : IVec S2048x1 32) broadcasts_S2048x1_S2048x2048 (ix2 p k) (ix2 p 0) (fun a => match a with
      | ⟨0, _⟩ => rfl
      | ⟨1, _⟩ => rfl)
  have h10 : broadcastTo S2048x2048 (addi (broadcast S1x2048 (Scalar.muli (BitVec.ofNat 32 (i 1).val) 2048#32)) (iota .tc S1x2048 32 [1] iota_S1x2048_d1_w32)) broadcasts_S1x2048_S2048x2048 (ix2 p k)
      = BitVec.ofNat 32 ((i 1).val * 2048 + k.val) := by
    refine (broadcastTo_apply _ broadcasts_S1x2048_S2048x2048 (ix2 p k) (ix2 (0 : Fin 1) k) (fun a => match a with
      | ⟨0, _⟩ => rfl
      | ⟨1, _⟩ => rfl)).trans ?_
    show IntOp.addi (IntOp.muli (BitVec.ofNat 32 (i 1).val) 2048#32) (iota .tc S1x2048 32 [1] iota_S1x2048_d1_w32 (ix2 (0 : Fin 1) k)) = _
    rw [iota_single_apply]
    exact word0 _ _
  show FloatOps.sitofp (F := Ideal) .f32 ((IntOp.cmpi .eq (broadcastTo S2048x2048 (x0 : IVec S2048x1 32) broadcasts_S2048x1_S2048x2048 (ix2 p k))
    (broadcastTo S2048x2048 (addi (broadcast S1x2048 (Scalar.muli (BitVec.ofNat 32 (i 1).val) 2048#32)) (iota .tc S1x2048 32 [1] iota_S1x2048_d1_w32)) broadcasts_S1x2048_S2048x2048 (ix2 p k))).setWidth 32) = _
  rw [h9, h10]
  exact ind0 _ _

end Payload

section PayloadAt

theorem lhs0_dot_0 (j : S2048x256.Idx) (q : dot_S2048x2048_S2048x256_S2048x256_1_0_0_1_n_n.contr.Idx) :
    (dot_S2048x2048_S2048x256_S2048x256_1_0_0_1_n_n.lhsIdx j q 0).val = (j 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
theorem lhs0_dot_1 (j : S2048x256.Idx) (q : dot_S2048x2048_S2048x256_S2048x256_1_0_0_1_n_n.contr.Idx) :
    (dot_S2048x2048_S2048x256_S2048x256_1_0_0_1_n_n.lhsIdx j q 1).val = (q ⟨0, by decide⟩).val :=
  dot_S2048x2048_S2048x256_S2048x256_1_0_0_1_n_n.lhsIdx_val_of_single rfl j q
theorem rhs0_dot_0 (j : S2048x256.Idx) (q : dot_S2048x2048_S2048x256_S2048x256_1_0_0_1_n_n.contr.Idx) :
    (dot_S2048x2048_S2048x256_S2048x256_1_0_0_1_n_n.rhsIdx j q 0).val = (q ⟨0, by decide⟩).val :=
  dot_S2048x2048_S2048x256_S2048x256_1_0_0_1_n_n.rhsIdx_val_of_single rfl j q
theorem rhs0_dot_1 (j : S2048x256.Idx) (q : dot_S2048x2048_S2048x256_S2048x256_1_0_0_1_n_n.contr.Idx) :
    (dot_S2048x2048_S2048x256_S2048x256_1_0_0_1_n_n.rhsIdx j q 1).val = (j 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

-- The product into a zero block at (p, q) is the sum over k of left (p, k) times right (k, q).
theorem mm0_apply (l : FVec Ideal S2048x2048 .bf16) (r : FVec Ideal S2048x256 .bf16) (p : Fin 2048) (q : Fin 256) :
    (matmul dot_S2048x2048_S2048x256_S2048x256_1_0_0_1_n_n none l r (constant (F := Ideal) S2048x256 .f32 0x00000000#32) : S2048x256.Idx → EReal) (ix2 p q)
      = ∑ k : Fin 2048, (l (ix2 p k) : EReal) * (r (ix2 k q) : EReal) := by
  refine (Ideal.matmul_constant_zero_apply dot_S2048x2048_S2048x256_S2048x256_1_0_0_1_n_n none l r (ix2 p q)).trans ?_
  rw [← Equiv.sum_comp (ValueIdx.contrEquiv1 dot_S2048x2048_S2048x256_S2048x256_1_0_0_1_n_n 2048 rfl rfl).symm]
  refine Finset.sum_congr rfl fun k _ => ?_
  have hk := ValueIdx.contrEquiv1_symm_val dot_S2048x2048_S2048x256_S2048x256_1_0_0_1_n_n 2048 rfl rfl k
  have el : dot_S2048x2048_S2048x256_S2048x256_1_0_0_1_n_n.lhsIdx (ix2 p q) ((ValueIdx.contrEquiv1 dot_S2048x2048_S2048x256_S2048x256_1_0_0_1_n_n 2048 rfl rfl).symm k) = ix2 p k := funext fun a => Fin.ext (by
    match a with
    | ⟨0, _⟩ => exact lhs0_dot_0 _ _
    | ⟨1, _⟩ => exact (lhs0_dot_1 _ _).trans hk)
  have er : dot_S2048x2048_S2048x256_S2048x256_1_0_0_1_n_n.rhsIdx (ix2 p q) ((ValueIdx.contrEquiv1 dot_S2048x2048_S2048x256_S2048x256_1_0_0_1_n_n 2048 rfl rfl).symm k) = ix2 k q := funext fun a => Fin.ext (by
    match a with
    | ⟨0, _⟩ => exact (rhs0_dot_0 _ _).trans hk
    | ⟨1, _⟩ => exact rhs0_dot_1 _ _)
  rw [el, er]

-- The new sum at (p, q): the old one plus, over the tile's rows k, [index p names row k] times the table's entry (k, q).
theorem pay0_2_apply (i : grid0.Coords) (x0 : Vec Ideal S2048x1 .i32) (x1 : Vec Ideal S2048x256 .f32) (xs : Vec Ideal S2048x256 .f32) (p : Fin 2048) (q : Fin 256) :
    (k0_pay2 (F := Ideal) i x0 x1 xs : S2048x256.Idx → EReal) (ix2 p q)
      = (xs (ix2 p q) : EReal) + ∑ k : Fin 2048, (if (x0 (ix2 p 0) : BitVec 32) = BitVec.ofNat 32 ((i 1).val * 2048 + k.val) then (1 : EReal) else 0) * (x1 (ix2 k q) : EReal) := by
  rw [pay0_2_eq]
  refine (addf_apply _ _ _).trans ?_
  refine congrArg (fun z : EReal => (xs (ix2 p q) : EReal) + z) ?_
  refine (mm0_apply (indM0 (F := Ideal) i x0) (truncf .bf16 (x1 : FVec Ideal S2048x256 .f32) bitsLt_bf16_f32) p q).trans ?_
  refine Finset.sum_congr rfl fun k _ => ?_
  rw [indM0_apply]
  rfl

theorem pay0_1_apply (j : S2048x256.Idx) : ((k0_pay1 (F := Ideal)) : S2048x256.Idx → EReal) j = 0 := by
  unfold k0_pay1
  simp only [shapeCast_self]
  exact Ideal.ofBits_zero_f32

end PayloadAt

section Reads

theorem coords0_0 (t : Fin cfg0.N) : ((grid0.coords t) 0).val = t.val / 25 := by
  have hN : t.val < 9775 := lt_of_lt_of_eq t.isLt (show cfg0.N = 9775 from N_0)
  show t.val / 25 % 391 = t.val / 25
  omega

theorem index0_0 (t : Fin cfg0.N) : win0_0.index t 0 = t.val / 25 ∧ win0_0.index t 1 = 0 := by
  have hN : t.val < 9775 := lt_of_lt_of_eq t.isLt (show cfg0.N = 9775 from N_0)
  refine ⟨?_, rfl⟩
  show (BitVec.ofNat 32 ((grid0.coords t) 0).val).toNat = _
  rw [coords0_0 t, BitVec.toNat_ofNat]
  exact Nat.mod_eq_of_lt (by omega)

theorem index0_1 (t : Fin cfg0.N) : win0_1.index t 0 = t.val % 25 ∧ win0_1.index t 1 = 0 := by
  refine ⟨?_, rfl⟩
  show (BitVec.ofNat 32 ((grid0.coords t) 1).val).toNat = _
  rw [coords0_1 t, BitVec.toNat_ofNat]
  exact Nat.mod_eq_of_lt (by omega)

theorem index0_2 (t : Fin cfg0.N) : win0_2.index t 0 = t.val / 25 ∧ win0_2.index t 1 = 0 := by
  have hN : t.val < 9775 := lt_of_lt_of_eq t.isLt (show cfg0.N = 9775 from N_0)
  refine ⟨?_, rfl⟩
  show (BitVec.ofNat 32 ((grid0.coords t) 0).val).toNat = _
  rw [coords0_0 t, BitVec.toNat_ofNat]
  exact Nat.mod_eq_of_lt (by omega)

theorem read0_0 (t : Fin cfg0.N) (X : S800768x1.Idx → BitVec 32) (p : Fin 2048) (h : t.val / 25 * 2048 + p.val < 800768) :
    (((cfg0.win 0).blk t).view.read (Elt Ideal) X : S2048x1.Idx → BitVec 32) (ix2 p 0) = X (ix2 ⟨t.val / 25 * 2048 + p.val, h⟩ 0) := by
  rw [View.read_apply]
  show X (((cfg0.win 0).blk t).view.emb (ix2 p 0)) = _
  refine congrArg X (funext fun a => Fin.ext ?_)
  match a with
  | ⟨0, _⟩ => show win0_0.index t 0 * 2048 + 1 * p.val = t.val / 25 * 2048 + p.val; rw [(index0_0 t).1]; omega
  | ⟨1, _⟩ => show win0_0.index t 1 * 1 + 1 * 0 = 0; rw [(index0_0 t).2]

theorem read0_1 (t : Fin cfg0.N) (X : S51200x256.Idx → EReal) (k : Fin 2048) (q : Fin 256) (h : t.val % 25 * 2048 + k.val < 51200) :
    (((cfg0.win 1).blk t).view.read (Elt Ideal) X : S2048x256.Idx → EReal) (ix2 k q) = X (ix2 ⟨t.val % 25 * 2048 + k.val, h⟩ q) := by
  rw [View.read_apply]
  show X (((cfg0.win 1).blk t).view.emb (ix2 k q)) = _
  refine congrArg X (funext fun a => Fin.ext ?_)
  match a with
  | ⟨0, _⟩ => show win0_1.index t 0 * 2048 + 1 * k.val = t.val % 25 * 2048 + k.val; rw [(index0_1 t).1]; omega
  | ⟨1, _⟩ => show win0_1.index t 1 * 256 + 1 * q.val = q.val; rw [(index0_1 t).2]; omega

theorem read0_2 (t : Fin cfg0.N) (X : S800768x256.Idx → EReal) (p : Fin 2048) (q : Fin 256) (h : t.val / 25 * 2048 + p.val < 800768) :
    (((cfg0.win 2).blk t).view.read (Elt Ideal) X : S2048x256.Idx → EReal) (ix2 p q) = X (ix2 ⟨t.val / 25 * 2048 + p.val, h⟩ q) := by
  rw [View.read_apply]
  show X (((cfg0.win 2).blk t).view.emb (ix2 p q)) = _
  refine congrArg X (funext fun a => Fin.ext ?_)
  match a with
  | ⟨0, _⟩ => show win0_2.index t 0 * 2048 + 1 * p.val = t.val / 25 * 2048 + p.val; rw [(index0_2 t).1]; omega
  | ⟨1, _⟩ => show win0_2.index t 1 * 256 + 1 * q.val = q.val; rw [(index0_2 t).2]; omega

end Reads

section Region
variable (V : (c : Dev nD) → (b : Ref sig .tc) → Buf (Elt Ideal) ((c : Thread nD τ).loc b))

abbrev idxArr0 (c : Dev nD) : S800768x1.Idx → BitVec 32 := V c (Pipeline.arrRef spec0 0)
abbrev tabArr0 (c : Dev nD) : S51200x256.Idx → EReal := V c (Pipeline.arrRef spec0 1)
abbrev idxBlk0 (c : Dev nD) (t : Fin cfg0.N) : Vec Ideal S2048x1 .i32 := iblk0 V c 0 t
abbrev tabBlk0 (c : Dev nD) (t : Fin cfg0.N) : Vec Ideal S2048x256 .f32 := iblk0 V c 1 t

def idxAt0 (c : Dev nD) (r : ℕ) : BitVec 32 := if h : r < 800768 then idxArr0 V c (ix2 ⟨r, h⟩ 0) else 0
def tabAt0 (c : Dev nD) (s : ℕ) (q : Fin 256) : EReal := if h : s < 51200 then tabArr0 V c (ix2 ⟨s, h⟩ q) else 0

theorem idxBlk0_apply (c : Dev nD) (t : Fin cfg0.N) (p : Fin 2048) :
    (idxBlk0 V c t (ix2 p 0) : BitVec 32) = idxAt0 V c (t.val / 25 * 2048 + p.val) := by
  have hN : t.val < 9775 := lt_of_lt_of_eq t.isLt (show cfg0.N = 9775 from N_0)
  have hr : t.val / 25 * 2048 + p.val < 800768 := by have := p.isLt; omega
  unfold idxAt0
  rw [dif_pos hr]
  exact read0_0 t (idxArr0 V c) p hr

theorem tabBlk0_apply (c : Dev nD) (t : Fin cfg0.N) (k : Fin 2048) (q : Fin 256) :
    (tabBlk0 V c t (ix2 k q) : EReal) = tabAt0 V c (t.val % 25 * 2048 + k.val) q := by
  have hr : t.val % 25 * 2048 + k.val < 51200 := by have := k.isLt; omega
  unfold tabAt0
  rw [dif_pos hr]
  exact read0_1 t (tabArr0 V c) k q hr

def tile0 (c : Dev nD) (e n : ℕ) (p : Fin 2048) (q : Fin 256) : EReal :=
  ∑ k : Fin 2048, (if idxAt0 V c (e * 2048 + p.val) = BitVec.ofNat 32 (n * 2048 + k.val) then (1 : EReal) else 0) * tabAt0 V c (n * 2048 + k.val) q

theorem step0 (c : Dev nD) (t : Fin cfg0.N) (xs : Vec Ideal S2048x256 .f32) (p : Fin 2048) (q : Fin 256) :
    (k0_pay2 (F := Ideal) (grid0.coords t) (idxBlk0 V c t) (tabBlk0 V c t) xs : S2048x256.Idx → EReal) (ix2 p q)
      = (xs (ix2 p q) : EReal) + tile0 V c (t.val / 25) (t.val % 25) p q := by
  refine (pay0_2_apply (grid0.coords t) (idxBlk0 V c t) (tabBlk0 V c t) xs p q).trans ?_
  refine congrArg (fun z : EReal => (xs (ix2 p q) : EReal) + z) ?_
  unfold tile0
  refine Finset.sum_congr rfl fun k _ => ?_
  rw [idxBlk0_apply, tabBlk0_apply, coords0_1]

theorem acc0_A (c : Dev nD) (t : Fin cfg0.N) (h0 : t.val % 25 = 0) (h1 : ¬t.val % 25 = 24) (p : Fin 2048) (q : Fin 256) :
    ((outsAt0 V c t.val t.isLt).2 : S2048x256.Idx → EReal) (ix2 p q) = tile0 V c (t.val / 25) (t.val % 25) p q := by
  rw [outsAt0_A V c t h0 h1]
  refine (congrFun (sout0_A_eq (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) (ix2 p q)).trans ?_
  refine (step0 V c t (k0_pay1 (F := Ideal)) p q).trans ?_
  rw [pay0_1_apply, zero_add]

theorem acc0_B (c : Dev nD) (t : Fin cfg0.N) (h0 : ¬t.val % 25 = 0) (h1 : ¬t.val % 25 = 24) (p : Fin 2048) (q : Fin 256) :
    ((outsAt0 V c t.val t.isLt).2 : S2048x256.Idx → EReal) (ix2 p q)
      = ((outsAt0 V c (t.val - 1) (Nat.lt_of_le_of_lt (Nat.sub_le _ _) t.isLt)).2 : S2048x256.Idx → EReal) (ix2 p q) + tile0 V c (t.val / 25) (t.val % 25) p q := by
  rw [outsAt0_B V c t h0 h1]
  refine (congrFun (sout0_B_eq (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) (ix2 p q)).trans ?_
  exact step0 V c t (outsAt0 V c (t.val - 1) (Nat.lt_of_le_of_lt (Nat.sub_le _ _) t.isLt)).2 p q

theorem acc0_C (c : Dev nD) (t : Fin cfg0.N) (h0 : ¬t.val % 25 = 0) (h1 : t.val % 25 = 24) (p : Fin 2048) (q : Fin 256) :
    ((outsAt0 V c t.val t.isLt).2 : S2048x256.Idx → EReal) (ix2 p q)
      = ((outsAt0 V c (t.val - 1) (Nat.lt_of_le_of_lt (Nat.sub_le _ _) t.isLt)).2 : S2048x256.Idx → EReal) (ix2 p q) + tile0 V c (t.val / 25) (t.val % 25) p q := by
  rw [outsAt0_C V c t h0 h1]
  refine (congrFun (sout0_C_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) (ix2 p q)).trans ?_
  exact step0 V c t (outsAt0 V c (t.val - 1) (Nat.lt_of_le_of_lt (Nat.sub_le _ _) t.isLt)).2 p q

-- After point n the running sum holds the shares of tiles 0 … n mod 25 of row block n / 25 (induction along the row block).
theorem acc0_inv (c : Dev nD) : ∀ (n : ℕ) (hn : n < cfg0.N) (p : Fin 2048) (q : Fin 256),
    ((outsAt0 V c n hn).2 : S2048x256.Idx → EReal) (ix2 p q) = ∑ m ∈ Finset.range (n % 25 + 1), tile0 V c (n / 25) m p q
  | 0, hn, p, q => by
    refine (acc0_A V c ⟨0, hn⟩ (Nat.zero_mod _) (show ¬(0 : ℕ) % 25 = 24 by decide) p q).trans ?_
    show tile0 V c (0 / 25) (0 % 25) p q = _
    rw [Nat.zero_mod, Finset.sum_range_one]
  | n + 1, hn, p, q => by
    by_cases h0 : (n + 1) % 25 = 0
    · have h1 : ¬(n + 1) % 25 = 24 := by omega
      refine (acc0_A V c ⟨n + 1, hn⟩ h0 h1 p q).trans ?_
      show tile0 V c ((n + 1) / 25) ((n + 1) % 25) p q = _
      rw [h0, Finset.sum_range_one]
    · have ih := acc0_inv c n (Nat.lt_of_succ_lt hn) p q
      have e1 : (n + 1) / 25 = n / 25 := by omega
      have e2 : (n + 1) % 25 = n % 25 + 1 := by omega
      have hstep : ((outsAt0 V c (n + 1) hn).2 : S2048x256.Idx → EReal) (ix2 p q)
          = ((outsAt0 V c n (Nat.lt_of_succ_lt hn)).2 : S2048x256.Idx → EReal) (ix2 p q) + tile0 V c ((n + 1) / 25) ((n + 1) % 25) p q := by
        by_cases h1 : (n + 1) % 25 = 24
        · exact acc0_C V c ⟨n + 1, hn⟩ h0 h1 p q
        · exact acc0_B V c ⟨n + 1, hn⟩ h0 h1 p q
      rw [hstep, ih, e1, e2]
      exact (Finset.sum_range_succ (fun m => tile0 V c (n / 25) m p q) (n % 25 + 1)).symm

end Region

section Final
variable (V : (c : Dev nD) → (b : Ref sig .tc) → Buf (Elt Ideal) ((c : Thread nD τ).loc b))

-- 25 tiles of 2048 rows are the 51200 rows: the double sum is one sum; only commutativity and associativity of + are used.
theorem sum0_tiles (f : ℕ → EReal) :
    ∑ m ∈ Finset.range 25, ∑ k : Fin 2048, f (m * 2048 + k.val) = ∑ s : Fin 51200, f s.val := by
  rw [Finset.sum_range (fun m => ∑ k : Fin 2048, f (m * 2048 + k.val))]
  rw [← Fintype.sum_prod_type' (fun (m : Fin 25) (k : Fin 2048) => f (m.val * 2048 + k.val))]
  exact Fintype.sum_equiv (finProdFinEquiv : Fin 25 × Fin 2048 ≃ Fin 51200) _ _ (fun x => by
    show f (x.1.val * 2048 + x.2.val) = f (x.2.val + 2048 * x.1.val)
    congr 1; omega)

abbrev res0 (c : Dev nD) : S800768x256.Idx → EReal := fun j => gatheredAt (idxArr0 V c) (tabArr0 V c) (j 0) (j 1)

theorem tiles0_eq (c : Dev nD) (e : ℕ) (p : Fin 2048) (q : Fin 256) (h : e * 2048 + p.val < 800768) :
    ∑ m ∈ Finset.range 25, tile0 V c e m p q = gatheredAt (idxArr0 V c) (tabArr0 V c) ⟨e * 2048 + p.val, h⟩ q := by
  unfold tile0
  refine (sum0_tiles (fun s => (if idxAt0 V c (e * 2048 + p.val) = BitVec.ofNat 32 s then (1 : EReal) else 0) * tabAt0 V c s q)).trans ?_
  unfold gatheredAt
  refine Finset.sum_congr rfl fun s _ => ?_
  show (if idxAt0 V c (e * 2048 + p.val) = BitVec.ofNat 32 s.val then (1 : EReal) else 0) * tabAt0 V c s.val q = _
  unfold idxAt0 tabAt0
  rw [dif_pos h, dif_pos s.isLt]

theorem out0_C_at (c : Dev nD) (t : Fin cfg0.N) (h0 : ¬t.val % 25 = 0) (h1 : t.val % 25 = 24) (p : Fin 2048) (q : Fin 256) :
    ((outsAt0 V c t.val t.isLt).1 : S2048x256.Idx → EReal) (ix2 p q) = ((outsAt0 V c t.val t.isLt).2 : S2048x256.Idx → EReal) (ix2 p q) := by
  rw [outsAt0_C V c t h0 h1]
  refine (congrFun (out0_C_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) (ix2 p q)).trans ?_
  refine Eq.trans ?_ (congrFun (sout0_C_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) (ix2 p q)).symm
  rfl

theorem flushed0_eq (c : Dev nD) (t : Fin cfg0.N) (hf : (cfg0.win 2).flush t = true) :
    (dat0 V c).flushed 2 t = ((cfg0.win 2).blk t).view.read (Elt Ideal) (res0 V c) := by
  have hN : t.val < 9775 := lt_of_lt_of_eq t.isLt (show cfg0.N = 9775 from N_0)
  have h1 : t.val % 25 = 24 := (flush0_2 t).mp hf
  have h0 : ¬t.val % 25 = 0 := by omega
  show (cfg0.win 2).cut (grid0.coords t) ((dat0 V c).after 2 t) = _
  rw [after0_2]
  funext y
  obtain ⟨p, q, rfl⟩ : ∃ (p : Fin 2048) (q : Fin 256), y = ix2 p q := ⟨y 0, y 1, eq_ix2 (n0 := 2048) (n1 := 256) y⟩
  have hr : t.val / 25 * 2048 + p.val < 800768 := by have := p.isLt; omega
  refine Eq.trans ?_ (read0_2 t (res0 V c) p q hr).symm
  show ((outsAt0 V c t.val t.isLt).1 : S2048x256.Idx → EReal) (ix2 p q) = _
  rw [out0_C_at V c t h0 h1 p q, acc0_inv V c t.val t.isLt p q, h1]
  exact tiles0_eq V c (t.val / 25) p q hr

theorem cover0 (i : S800768x256.Idx) :
    ∃ t : Fin cfg0.N, (cfg0.win 2).flush t = true ∧ i ∈ ((cfg0.win 2).blk t).view.set := by
  have hi0 : (i 0).val < 800768 := (i 0).isLt
  have hi1 : (i 1).val < 256 := (i 1).isLt
  have hN : cfg0.N = 9775 := N_0
  have ht : 25 * ((i 0).val / 2048) + 24 < cfg0.N := by rw [hN]; omega
  obtain ⟨e0, e1⟩ := index0_2 ⟨25 * ((i 0).val / 2048) + 24, ht⟩
  refine ⟨⟨25 * ((i 0).val / 2048) + 24, ht⟩, (flush0_2 _).mpr (by show (25 * ((i 0).val / 2048) + 24) % 25 = 24; omega), ?_⟩
  show i ∈ ((View.whole (Pipeline.arrRef spec0 2)).slice (win0_2.rect ⟨25 * ((i 0).val / 2048) + 24, ht⟩)).set
  rw [View.set_slice_whole, Rect.mem_set_unit]
  intro a
  match a with
  | ⟨0, _⟩ =>
    show win0_2.index ⟨25 * ((i 0).val / 2048) + 24, ht⟩ 0 * 2048 ≤ (i 0).val ∧ (i 0).val < win0_2.index ⟨25 * ((i 0).val / 2048) + 24, ht⟩ 0 * 2048 + 2048
    rw [e0]
    show (25 * ((i 0).val / 2048) + 24) / 25 * 2048 ≤ (i 0).val ∧ (i 0).val < (25 * ((i 0).val / 2048) + 24) / 25 * 2048 + 2048
    omega
  | ⟨1, _⟩ =>
    show win0_2.index ⟨25 * ((i 0).val / 2048) + 24, ht⟩ 1 * 256 ≤ (i 1).val ∧ (i 1).val < win0_2.index ⟨25 * ((i 0).val / 2048) + 24, ht⟩ 1 * 256 + 256
    rw [e1]
    omega

theorem final0 (c : Dev nD) : (dat0 V c).arrAt 2 cfg0.N = res0 V c :=
  (dat0 V c).arrAt_eq_of_cover 2 (res0 V c) (flushed0_eq V c) cover0

-- Output row r, feature f: the sum over all table rows s of [index r = s] times the table's entry (s, f).
theorem gather0_final (c : Dev nD) (r : Fin 800768) (f : Fin 256) :
    ((dat0 (F := Ideal) V c).arrAt 2 cfg0.N : S800768x256.Idx → EReal) (ix2 r f) = gatheredAt (V c main_v11) (V c main_v14) r f :=
  congrFun (final0 V c) (ix2 r f)

end Final

end Cert.KernelIdeal.Val

end
-- ==== Proof.ValGather3.lean ====
import proofs.«417335_j4861902979554_2_alg».proof.Proof.Gather3C
import proofs.«417335_j4861902979554_2_alg».proof.Proof.ValGather0
import proofs.«417335_j4861902979554_2_alg».proof.Proof.ValDefs

noncomputable section

namespace Cert.KernelIdeal.Val

open Idealize.ShloMosaic Idealize.ShloMosaic.TcCoe Idealize.ShloMosaic.Tactic
open Cert.KernelIdeal Cert.KernelIdeal.Gen Cert.KernelIdeal.Reg
open Idealize.ShloMosaic.ValueIdx

section Reads

theorem coords3_0 (t : Fin cfg3.N) : ((grid3.coords t) 0).val = t.val / 25 := by
  have hN : t.val < 9775 := lt_of_lt_of_eq t.isLt (show cfg3.N = 9775 from N_3)
  show t.val / 25 % 391 = t.val / 25
  omega

theorem index3_0 (t : Fin cfg3.N) : win3_0.index t 0 = t.val / 25 ∧ win3_0.index t 1 = 0 := by
  have hN : t.val < 9775 := lt_of_lt_of_eq t.isLt (show cfg3.N = 9775 from N_3)
  refine ⟨?_, rfl⟩
  show (BitVec.ofNat 32 ((grid3.coords t) 0).val).toNat = _
  rw [coords3_0 t, BitVec.toNat_ofNat]
  exact Nat.mod_eq_of_lt (by omega)

theorem index3_1 (t : Fin cfg3.N) : win3_1.index t 0 = t.val % 25 ∧ win3_1.index t 1 = 0 := by
  refine ⟨?_, rfl⟩
  show (BitVec.ofNat 32 ((grid3.coords t) 1).val).toNat = _
  rw [coords3_1 t, BitVec.toNat_ofNat]
  exact Nat.mod_eq_of_lt (by omega)

theorem index3_2 (t : Fin cfg3.N) : win3_2.index t 0 = t.val / 25 ∧ win3_2.index t 1 = 0 := by
  have hN : t.val < 9775 := lt_of_lt_of_eq t.isLt (show cfg3.N = 9775 from N_3)
  refine ⟨?_, rfl⟩
  show (BitVec.ofNat 32 ((grid3.coords t) 0).val).toNat = _
  rw [coords3_0 t, BitVec.toNat_ofNat]
  exact Nat.mod_eq_of_lt (by omega)

theorem read3_0 (t : Fin cfg3.N) (X : S800768x1.Idx → BitVec 32) (p : Fin 2048) (h : t.val / 25 * 2048 + p.val < 800768) :
    (((cfg3.win 0).blk t).view.read (Elt Ideal) X : S2048x1.Idx → BitVec 32) (ix2 p 0) = X (ix2 ⟨t.val / 25 * 2048 + p.val, h⟩ 0) := by
  rw [View.read_apply]
  show X (((cfg3.win 0).blk t).view.emb (ix2 p 0)) = _
  refine congrArg X (funext fun a => Fin.ext ?_)
  match a with
  | ⟨0, _⟩ => show win3_0.index t 0 * 2048 + 1 * p.val = t.val / 25 * 2048 + p.val; rw [(index3_0 t).1]; omega
  | ⟨1, _⟩ => show win3_0.index t 1 * 1 + 1 * 0 = 0; rw [(index3_0 t).2]

theorem read3_1 (t : Fin cfg3.N) (X : S51200x256.Idx → EReal) (k : Fin 2048) (q : Fin 256) (h : t.val % 25 * 2048 + k.val < 51200) :
    (((cfg3.win 1).blk t).view.read (Elt Ideal) X : S2048x256.Idx → EReal) (ix2 k q) = X (ix2 ⟨t.val % 25 * 2048 + k.val, h⟩ q) := by
  rw [View.read_apply]
  show X (((cfg3.win 1).blk t).view.emb (ix2 k q)) = _
  refine congrArg X (funext fun a => Fin.ext ?_)
  match a with
  | ⟨0, _⟩ => show win3_1.index t 0 * 2048 + 1 * k.val = t.val % 25 * 2048 + k.val; rw [(index3_1 t).1]; omega
  | ⟨1, _⟩ => show win3_1.index t 1 * 256 + 1 * q.val = q.val; rw [(index3_1 t).2]; omega

theorem read3_2 (t : Fin cfg3.N) (X : S800768x256.Idx → EReal) (p : Fin 2048) (q : Fin 256) (h : t.val / 25 * 2048 + p.val < 800768) :
    (((cfg3.win 2).blk t).view.read (Elt Ideal) X : S2048x256.Idx → EReal) (ix2 p q) = X (ix2 ⟨t.val / 25 * 2048 + p.val, h⟩ q) := by
  rw [View.read_apply]
  show X (((cfg3.win 2).blk t).view.emb (ix2 p q)) = _
  refine congrArg X (funext fun a => Fin.ext ?_)
  match a with
  | ⟨0, _⟩ => show win3_2.index t 0 * 2048 + 1 * p.val = t.val / 25 * 2048 + p.val; rw [(index3_2 t).1]; omega
  | ⟨1, _⟩ => show win3_2.index t 1 * 256 + 1 * q.val = q.val; rw [(index3_2 t).2]; omega

end Reads

section Region
variable (V : (c : Dev nD) → (b : Ref sig .tc) → Buf (Elt Ideal) ((c : Thread nD τ).loc b))

abbrev idxArr3 (c : Dev nD) : S800768x1.Idx → BitVec 32 := V c (Pipeline.arrRef spec3 0)
abbrev tabArr3 (c : Dev nD) : S51200x256.Idx → EReal := V c (Pipeline.arrRef spec3 1)
abbrev idxBlk3 (c : Dev nD) (t : Fin cfg3.N) : Vec Ideal S2048x1 .i32 := iblk3 V c 0 t
abbrev tabBlk3 (c : Dev nD) (t : Fin cfg3.N) : Vec Ideal S2048x256 .f32 := iblk3 V c 1 t

def idxAt3 (c : Dev nD) (r : ℕ) : BitVec 32 := if h : r < 800768 then idxArr3 V c (ix2 ⟨r, h⟩ 0) else 0
def tabAt3 (c : Dev nD) (s : ℕ) (q : Fin 256) : EReal := if h : s < 51200 then tabArr3 V c (ix2 ⟨s, h⟩ q) else 0

theorem idxBlk3_apply (c : Dev nD) (t : Fin cfg3.N) (p : Fin 2048) :
    (idxBlk3 V c t (ix2 p 0) : BitVec 32) = idxAt3 V c (t.val / 25 * 2048 + p.val) := by
  have hN : t.val < 9775 := lt_of_lt_of_eq t.isLt (show cfg3.N = 9775 from N_3)
  have hr : t.val / 25 * 2048 + p.val < 800768 := by have := p.isLt; omega
  unfold idxAt3
  rw [dif_pos hr]
  exact read3_0 t (idxArr3 V c) p hr

theorem tabBlk3_apply (c : Dev nD) (t : Fin cfg3.N) (k : Fin 2048) (q : Fin 256) :
    (tabBlk3 V c t (ix2 k q) : EReal) = tabAt3 V c (t.val % 25 * 2048 + k.val) q := by
  have hr : t.val % 25 * 2048 + k.val < 51200 := by have := k.isLt; omega
  unfold tabAt3
  rw [dif_pos hr]
  exact read3_1 t (tabArr3 V c) k q hr

def tile3 (c : Dev nD) (e n : ℕ) (p : Fin 2048) (q : Fin 256) : EReal :=
  ∑ k : Fin 2048, (if idxAt3 V c (e * 2048 + p.val) = BitVec.ofNat 32 (n * 2048 + k.val) then (1 : EReal) else 0) * tabAt3 V c (n * 2048 + k.val) q

-- Region 0's payload algebra at this region's blocks: one point adds its tile's share to whatever the scratch held.
theorem step3 (c : Dev nD) (t : Fin cfg3.N) (xs : Vec Ideal S2048x256 .f32) (p : Fin 2048) (q : Fin 256) :
    (k0_pay2 (F := Ideal) (grid3.coords t) (idxBlk3 V c t) (tabBlk3 V c t) xs : S2048x256.Idx → EReal) (ix2 p q)
      = (xs (ix2 p q) : EReal) + tile3 V c (t.val / 25) (t.val % 25) p q := by
  refine (pay0_2_apply (grid3.coords t) (idxBlk3 V c t) (tabBlk3 V c t) xs p q).trans ?_
  refine congrArg (fun z : EReal => (xs (ix2 p q) : EReal) + z) ?_
  unfold tile3
  refine Finset.sum_congr rfl fun k _ => ?_
  rw [idxBlk3_apply, tabBlk3_apply, coords3_1]

theorem acc3_A (c : Dev nD) (t : Fin cfg3.N) (h0 : t.val % 25 = 0) (h1 : ¬t.val % 25 = 24) (p : Fin 2048) (q : Fin 256) :
    ((outsAt3 V c t.val t.isLt).2 : S2048x256.Idx → EReal) (ix2 p q) = tile3 V c (t.val / 25) (t.val % 25) p q := by
  rw [outsAt3_A V c t h0 h1]
  refine (congrFun (sout0_A_eq (F := Ideal) c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) (ix2 p q)).trans ?_
  refine (step3 V c t (k0_pay1 (F := Ideal)) p q).trans ?_
  rw [pay0_1_apply, zero_add]

theorem acc3_B (c : Dev nD) (t : Fin cfg3.N) (h0 : ¬t.val % 25 = 0) (h1 : ¬t.val % 25 = 24) (p : Fin 2048) (q : Fin 256) :
    ((outsAt3 V c t.val t.isLt).2 : S2048x256.Idx → EReal) (ix2 p q)
      = ((outsAt3 V c (t.val - 1) (Nat.lt_of_le_of_lt (Nat.sub_le _ _) t.isLt)).2 : S2048x256.Idx → EReal) (ix2 p q) + tile3 V c (t.val / 25) (t.val % 25) p q := by
  rw [outsAt3_B V c t h0 h1]
  refine (congrFun (sout0_B_eq (F := Ideal) c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) (ix2 p q)).trans ?_
  exact step3 V c t (outsAt3 V c (t.val - 1) (Nat.lt_of_le_of_lt (Nat.sub_le _ _) t.isLt)).2 p q

theorem acc3_C (c : Dev nD) (t : Fin cfg3.N) (h0 : ¬t.val % 25 = 0) (h1 : t.val % 25 = 24) (p : Fin 2048) (q : Fin 256) :
    ((outsAt3 V c t.val t.isLt).2 : S2048x256.Idx → EReal) (ix2 p q)
      = ((outsAt3 V c (t.val - 1) (Nat.lt_of_le_of_lt (Nat.sub_le _ _) t.isLt)).2 : S2048x256.Idx → EReal) (ix2 p q) + tile3 V c (t.val / 25) (t.val % 25) p q := by
  rw [outsAt3_C V c t h0 h1]
  refine (congrFun (sout0_C_eq (F := Ideal) c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) (ix2 p q)).trans ?_
  exact step3 V c t (outsAt3 V c (t.val - 1) (Nat.lt_of_le_of_lt (Nat.sub_le _ _) t.isLt)).2 p q

theorem acc3_inv (c : Dev nD) : ∀ (n : ℕ) (hn : n < cfg3.N) (p : Fin 2048) (q : Fin 256),
    ((outsAt3 V c n hn).2 : S2048x256.Idx → EReal) (ix2 p q) = ∑ m ∈ Finset.range (n % 25 + 1), tile3 V c (n / 25) m p q
  | 0, hn, p, q => by
    refine (acc3_A V c ⟨0, hn⟩ (Nat.zero_mod _) (show ¬(0 : ℕ) % 25 = 24 by decide) p q).trans ?_
    show tile3 V c (0 / 25) (0 % 25) p q = _
    rw [Nat.zero_mod, Finset.sum_range_one]
  | n + 1, hn, p, q => by
    by_cases h0 : (n + 1) % 25 = 0
    · have h1 : ¬(n + 1) % 25 = 24 := by omega
      refine (acc3_A V c ⟨n + 1, hn⟩ h0 h1 p q).trans ?_
      show tile3 V c ((n + 1) / 25) ((n + 1) % 25) p q = _
      rw [h0, Finset.sum_range_one]
    · have ih := acc3_inv c n (Nat.lt_of_succ_lt hn) p q
      have e1 : (n + 1) / 25 = n / 25 := by omega
      have e2 : (n + 1) % 25 = n % 25 + 1 := by omega
      have hstep : ((outsAt3 V c (n + 1) hn).2 : S2048x256.Idx → EReal) (ix2 p q)
          = ((outsAt3 V c n (Nat.lt_of_succ_lt hn)).2 : S2048x256.Idx → EReal) (ix2 p q) + tile3 V c ((n + 1) / 25) ((n + 1) % 25) p q := by
        by_cases h1 : (n + 1) % 25 = 24
        · exact acc3_C V c ⟨n + 1, hn⟩ h0 h1 p q
        · exact acc3_B V c ⟨n + 1, hn⟩ h0 h1 p q
      rw [hstep, ih, e1, e2]
      exact (Finset.sum_range_succ (fun m => tile3 V c (n / 25) m p q) (n % 25 + 1)).symm

end Region

section Final
variable (V : (c : Dev nD) → (b : Ref sig .tc) → Buf (Elt Ideal) ((c : Thread nD τ).loc b))

theorem sum3_tiles (f : ℕ → EReal) :
    ∑ m ∈ Finset.range 25, ∑ k : Fin 2048, f (m * 2048 + k.val) = ∑ s : Fin 51200, f s.val := by
  rw [Finset.sum_range (fun m => ∑ k : Fin 2048, f (m * 2048 + k.val))]
  rw [← Fintype.sum_prod_type' (fun (m : Fin 25) (k : Fin 2048) => f (m.val * 2048 + k.val))]
  exact Fintype.sum_equiv (finProdFinEquiv : Fin 25 × Fin 2048 ≃ Fin 51200) _ _ (fun x => by
    show f (x.1.val * 2048 + x.2.val) = f (x.2.val + 2048 * x.1.val)
    congr 1; omega)

abbrev res3 (c : Dev nD) : S800768x256.Idx → EReal := fun j => gatheredAt (idxArr3 V c) (tabArr3 V c) (j 0) (j 1)

theorem tiles3_eq (c : Dev nD) (e : ℕ) (p : Fin 2048) (q : Fin 256) (h : e * 2048 + p.val < 800768) :
    ∑ m ∈ Finset.range 25, tile3 V c e m p q = gatheredAt (idxArr3 V c) (tabArr3 V c) ⟨e * 2048 + p.val, h⟩ q := by
  unfold tile3
  refine (sum3_tiles (fun s => (if idxAt3 V c (e * 2048 + p.val) = BitVec.ofNat 32 s then (1 : EReal) else 0) * tabAt3 V c s q)).trans ?_
  unfold gatheredAt
  refine Finset.sum_congr rfl fun s _ => ?_
  show (if idxAt3 V c (e * 2048 + p.val) = BitVec.ofNat 32 s.val then (1 : EReal) else 0) * tabAt3 V c s.val q = _
  unfold idxAt3 tabAt3
  rw [dif_pos h, dif_pos s.isLt]

theorem out3_C_at (c : Dev nD) (t : Fin cfg3.N) (h0 : ¬t.val % 25 = 0) (h1 : t.val % 25 = 24) (p : Fin 2048) (q : Fin 256) :
    ((outsAt3 V c t.val t.isLt).1 : S2048x256.Idx → EReal) (ix2 p q) = ((outsAt3 V c t.val t.isLt).2 : S2048x256.Idx → EReal) (ix2 p q) := by
  rw [outsAt3_C V c t h0 h1]
  refine (congrFun (out0_C_eq (F := Ideal) c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) (ix2 p q)).trans ?_
  refine Eq.trans ?_ (congrFun (sout0_C_eq (F := Ideal) c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) (ix2 p q)).symm
  rfl

theorem flushed3_eq (c : Dev nD) (t : Fin cfg3.N) (hf : (cfg3.win 2).flush t = true) :
    (dat3 V c).flushed 2 t = ((cfg3.win 2).blk t).view.read (Elt Ideal) (res3 V c) := by
  have hN : t.val < 9775 := lt_of_lt_of_eq t.isLt (show cfg3.N = 9775 from N_3)
  have h1 : t.val % 25 = 24 := (flush3_2 t).mp hf
  have h0 : ¬t.val % 25 = 0 := by omega
  show (cfg3.win 2).cut (grid3.coords t) ((dat3 V c).after 2 t) = _
  rw [after3_2]
  funext y
  obtain ⟨p, q, rfl⟩ : ∃ (p : Fin 2048) (q : Fin 256), y = ix2 p q := ⟨y 0, y 1, eq_ix2 (n0 := 2048) (n1 := 256) y⟩
  have hr : t.val / 25 * 2048 + p.val < 800768 := by have := p.isLt; omega
  refine Eq.trans ?_ (read3_2 t (res3 V c) p q hr).symm
  show ((outsAt3 V c t.val t.isLt).1 : S2048x256.Idx → EReal) (ix2 p q) = _
  rw [out3_C_at V c t h0 h1 p q, acc3_inv V c t.val t.isLt p q, h1]
  exact tiles3_eq V c (t.val / 25) p q hr

theorem cover3 (i : S800768x256.Idx) :
    ∃ t : Fin cfg3.N, (cfg3.win 2).flush t = true ∧ i ∈ ((cfg3.win 2).blk t).view.set := by
  have hi0 : (i 0).val < 800768 := (i 0).isLt
  have hi1 : (i 1).val < 256 := (i 1).isLt
  have hN : cfg3.N = 9775 := N_3
  have ht : 25 * ((i 0).val / 2048) + 24 < cfg3.N := by rw [hN]; omega
  obtain ⟨e0, e1⟩ := index3_2 ⟨25 * ((i 0).val / 2048) + 24, ht⟩
  refine ⟨⟨25 * ((i 0).val / 2048) + 24, ht⟩, (flush3_2 _).mpr (by show (25 * ((i 0).val / 2048) + 24) % 25 = 24; omega), ?_⟩
  show i ∈ ((View.whole (Pipeline.arrRef spec3 2)).slice (win3_2.rect ⟨25 * ((i 0).val / 2048) + 24, ht⟩)).set
  rw [View.set_slice_whole, Rect.mem_set_unit]
  intro a
  match a with
  | ⟨0, _⟩ =>
    show win3_2.index ⟨25 * ((i 0).val / 2048) + 24, ht⟩ 0 * 2048 ≤ (i 0).val ∧ (i 0).val < win3_2.index ⟨25 * ((i 0).val / 2048) + 24, ht⟩ 0 * 2048 + 2048
    rw [e0]
    show (25 * ((i 0).val / 2048) + 24) / 25 * 2048 ≤ (i 0).val ∧ (i 0).val < (25 * ((i 0).val / 2048) + 24) / 25 * 2048 + 2048
    omega
  | ⟨1, _⟩ =>
    show win3_2.index ⟨25 * ((i 0).val / 2048) + 24, ht⟩ 1 * 256 ≤ (i 1).val ∧ (i 1).val < win3_2.index ⟨25 * ((i 0).val / 2048) + 24, ht⟩ 1 * 256 + 256
    rw [e1]
    omega

theorem final3 (c : Dev nD) : (dat3 V c).arrAt 2 cfg3.N = res3 V c :=
  (dat3 V c).arrAt_eq_of_cover 2 (res3 V c) (flushed3_eq V c) cover3

theorem gather3_final (c : Dev nD) (r : Fin 800768) (f : Fin 256) :
    ((dat3 (F := Ideal) V c).arrAt 2 cfg3.N : S800768x256.Idx → EReal) (ix2 r f) = gatheredAt (V c main_v11) (V c main_v22) r f :=
  congrFun (final3 V c) (ix2 r f)

end Final

end Cert.KernelIdeal.Val

end
-- ==== Proof.ValScatter1.lean ====
import proofs.«417335_j4861902979554_2_alg».proof.Proof.Scatter1C
import proofs.«417335_j4861902979554_2_alg».proof.Proof.ValGather0
import proofs.«417335_j4861902979554_2_alg».proof.Proof.ValDefs

noncomputable section

namespace Cert.KernelIdeal.Val

open Cert.KernelIdeal Cert.KernelIdeal.Gen Cert.KernelIdeal.Reg Idealize.ShloMosaic Idealize.ShloMosaic.ValueIdx
open Idealize.ShloMosaic.TcCoe Idealize.SL.Sem

variable {F : FTy → Type} [FloatOps F]

theorem k1_hz : (![0, 0] : Fin 2 → Nat) = fun _ => 0 := funext fun a => by fin_cases a <;> rfl

section Pieces
variable (c : Dev nD) (i : grid1.Coords) (arg2 : Memref sig .tc .vmem S1x2048 .i32) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole)

theorem sout1_A_eq
    (hc0 : cond1_0 i) (hc1 : ¬cond1_1 i) (x0 : Vec F S1x2048 .i32) (x1 : Vec F S2048x256 .bf16) :
    (res1_A c i arg2 harg2 arg3 harg3 arg4 harg4 arg5 harg5 hc0 hc1 x0 x1).2 = k1_pay2 i x0 x1 (k1_pay1 (F := F)) := by
  unfold res1_A
  dsimp only
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S2048x256) k1_hz]
  simp only [View.readAt_eq_ld, harg2.read_unread, harg3.read_unread, View.ld_unit_zero (S := S1x2048) k1_hz, View.ld_unit_zero (S := S2048x256) k1_hz, View.readCov_unit_zero (S := S2048x256) _ k1_hz]

theorem sout1_B_eq
    (hc0 : ¬cond1_0 i) (hc1 : ¬cond1_1 i) (x0 : Vec F S1x2048 .i32) (x1 : Vec F S2048x256 .bf16) (xs0 : Vec F S2048x256 .f32) :
    (res1_B c i arg2 harg2 arg3 harg3 arg4 harg4 arg5 harg5 hc0 hc1 x0 x1 xs0).2 = k1_pay2 i x0 x1 xs0 := by
  unfold res1_B
  dsimp only
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero k1_hz]
  simp only [View.readAt_eq_ld, harg2.read_unread, harg3.read_unread, harg5.read_unread, View.ld_unit_zero (S := S1x2048) k1_hz, View.ld_unit_zero (S := S2048x256) k1_hz, View.readCov_unit_zero (S := S2048x256) _ k1_hz]

theorem sout1_C_eq
    (hc0 : ¬cond1_0 i) (hc1 : cond1_1 i) (x0 : Vec F S1x2048 .i32) (x1 : Vec F S2048x256 .bf16) (xs0 : Vec F S2048x256 .f32) :
    (res1_C c i arg2 harg2 arg3 harg3 arg4 harg4 arg5 harg5 hc0 hc1 x0 x1 xs0).2 = k1_pay2 i x0 x1 xs0 := by
  unfold res1_C
  dsimp only
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero k1_hz]
  simp only [View.readAt_eq_ld, harg2.read_unread, harg3.read_unread, harg5.read_unread, View.ld_unit_zero (S := S1x2048) k1_hz, View.ld_unit_zero (S := S2048x256) k1_hz, View.readCov_unit_zero (S := S2048x256) _ k1_hz]

theorem out1_C_eq
    (hc0 : ¬cond1_0 i) (hc1 : cond1_1 i) (x0 : Vec F S1x2048 .i32) (x1 : Vec F S2048x256 .bf16) (xs0 : Vec F S2048x256 .f32) :
    (res1_C c i arg2 harg2 arg3 harg3 arg4 harg4 arg5 harg5 hc0 hc1 x0 x1 xs0).1 = k1_pay2 i x0 x1 xs0 := by
  unfold res1_C
  dsimp only
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero k1_hz]
  simp only [View.readAt_eq_ld, harg2.read_unread, harg3.read_unread, harg5.read_unread, View.ld_unit_zero (S := S1x2048) k1_hz, View.ld_unit_zero (S := S2048x256) k1_hz, View.readCov_unit_zero (S := S2048x256) _ k1_hz]

end Pieces

def k1_ind (i : grid1.Coords) (v3 : Vec F S1x2048 .i32) : FVec F S2048x2048 .bf16 :=
  truncf .bf16 (sitofp .f32 (extui 32 (cmpi .eq
    (broadcastTo S2048x2048 (addi (broadcast S2048x1 (Scalar.muli (BitVec.ofNat 32 (i 0).val) 2048#32)) (iota .tc S2048x1 32 [0] iota_S2048x1_d0_w32)) broadcasts_S2048x1_S2048x2048)
    (broadcastTo S2048x2048 v3 broadcasts_S1x2048_S2048x2048)) natLt_1_32)) bitsLt_bf16_f32

theorem k1_pay2_eq (i : grid1.Coords) (v3 : Vec F S1x2048 .i32) (v15 : Vec F S2048x256 .bf16) (v17 : Vec F S2048x256 .f32) :
    k1_pay2 i v3 v15 v17 = addf v17 (matmul dot_S2048x2048_S2048x256_S2048x256_1_0_0_1_n_n none (k1_ind i v3) v15 (constant S2048x256 .f32 0x00000000#32)) := by
  unfold k1_pay2 k1_ind
  simp only [shapeCast_self]

theorem k1_pay1_apply (j : S2048x256.Idx) : (k1_pay1 (F := Ideal) : S2048x256.Idx → EReal) j = 0 := by
  unfold k1_pay1
  simp only [shapeCast_self]
  exact Ideal.ofBits_zero_f32

theorem k1_ind_word (a b : BitVec 32) :
    (FloatOps.sitofp (F := Ideal) .f32 ((IntOp.cmpi .eq a b).setWidth 32) : EReal) = if b = a then 1 else 0 := by
  show ((((IntOp.cmpi .eq a b).setWidth 32).toInt : ℝ) : EReal) = _
  by_cases h : b = a
  · subst h
    have e : (IntOp.cmpi .eq b b).setWidth 32 = 1#32 := by simp [IntOp.cmpi]
    have e1 : (1#32 : BitVec 32).toInt = 1 := by decide
    rw [if_pos rfl, e, e1]; simp
  · have h' : ¬a = b := fun e => h e.symm
    have hb : (a == b) = false := beq_false_of_ne h'
    have e : (IntOp.cmpi .eq a b).setWidth 32 = 0#32 := by unfold IntOp.cmpi; rw [hb]; rfl
    have e0 : (0#32 : BitVec 32).toInt = 0 := by decide
    rw [if_neg h, e, e0]; simp

theorem k1_ind_node (n : Fin 25) (p : Fin 2048) :
    IntOp.addi (Scalar.muli (BitVec.ofNat 32 n.val) 2048#32) (BitVec.ofNat 32 p.val) = BitVec.ofNat 32 (n.val * 2048 + p.val) := by
  unfold IntOp.addi Scalar.muli IntOp.muli
  apply BitVec.eq_of_toNat_eq
  have := n.isLt; have := p.isLt
  simp [BitVec.toNat_add, BitVec.toNat_mul, BitVec.toNat_ofNat]

theorem k1_ind_apply (i : grid1.Coords) (v3 : Vec Ideal S1x2048 .i32) (p k : Fin 2048) :
    (k1_ind (F := Ideal) i v3 : S2048x2048.Idx → EReal) (ix2 p k)
      = if (v3 : S1x2048.Idx → BitVec 32) (ix2 0 k) = BitVec.ofNat 32 ((i 0).val * 2048 + p.val) then 1 else 0 := by
  have e1 : broadcastTo S2048x2048 (addi (broadcast S2048x1 (Scalar.muli (BitVec.ofNat 32 (i 0).val) 2048#32)) (iota .tc S2048x1 32 [0] iota_S2048x1_d0_w32)) broadcasts_S2048x1_S2048x2048 (ix2 p k)
      = BitVec.ofNat 32 ((i 0).val * 2048 + p.val) := by
    refine (broadcastTo_apply _ broadcasts_S2048x1_S2048x2048 (ix2 p k) (ix2 p 0) fun a => ?_).trans ?_
    · match a with
      | ⟨0, _⟩ => rfl
      | ⟨1, _⟩ => rfl
    · show IntOp.addi (Scalar.muli (BitVec.ofNat 32 (i 0).val) 2048#32) (iota .tc S2048x1 32 [0] iota_S2048x1_d0_w32 (ix2 p 0)) = _
      rw [iota_single_apply]
      exact k1_ind_node (i 0) p
  have e2 : broadcastTo S2048x2048 v3 broadcasts_S1x2048_S2048x2048 (ix2 p k) = (v3 : S1x2048.Idx → BitVec 32) (ix2 0 k) := by
    refine broadcastTo_apply _ broadcasts_S1x2048_S2048x2048 (ix2 p k) (ix2 0 k) fun a => ?_
    match a with
    | ⟨0, _⟩ => rfl
    | ⟨1, _⟩ => rfl
  unfold k1_ind
  show FloatOps.sitofp (F := Ideal) .f32 ((IntOp.cmpi .eq _ _).setWidth 32) = _
  rw [e1, e2]
  exact k1_ind_word _ _

-- The new sum at (p, q): the old one plus, over the block's entries k, [entry k's index is the tile's p-th node] times row k's feature q.
theorem k1_pay2_apply (i : grid1.Coords) (v3 : Vec Ideal S1x2048 .i32) (v15 : Vec Ideal S2048x256 .bf16) (v17 : Vec Ideal S2048x256 .f32) (p : Fin 2048) (q : Fin 256) :
    (k1_pay2 (F := Ideal) i v3 v15 v17 : S2048x256.Idx → EReal) (ix2 p q)
      = (v17 : S2048x256.Idx → EReal) (ix2 p q) + ∑ k : Fin 2048, (if (v3 : S1x2048.Idx → BitVec 32) (ix2 0 k) = BitVec.ofNat 32 ((i 0).val * 2048 + p.val) then (1 : EReal) else 0) * (v15 : S2048x256.Idx → EReal) (ix2 k q) := by
  refine (congrFun (k1_pay2_eq (F := Ideal) i v3 v15 v17) (ix2 p q)).trans ?_
  show (v17 : S2048x256.Idx → EReal) (ix2 p q) + (matmul dot_S2048x2048_S2048x256_S2048x256_1_0_0_1_n_n none (k1_ind (F := Ideal) i v3) v15 (constant (F := Ideal) S2048x256 .f32 0x00000000#32) : S2048x256.Idx → EReal) (ix2 p q) = _
  refine congrArg ((v17 : S2048x256.Idx → EReal) (ix2 p q) + ·) ?_
  refine (mm0_apply (k1_ind (F := Ideal) i v3) v15 p q).trans ?_
  refine Finset.sum_congr rfl fun k _ => ?_
  exact congrArg (· * (v15 : S2048x256.Idx → EReal) (ix2 k q)) (k1_ind_apply i v3 p k)

section Named
variable (V : (c : Dev nD) → (b : Ref sig .tc) → Buf (Elt F) ((c : Thread nD τ).loc b))

abbrev tile1_idx (c : Dev nD) (t : Fin cfg1.N) : Vec F S1x2048 .i32 := iblk1 V c 0 t
abbrev tile1_rows (c : Dev nD) (t : Fin cfg1.N) : Vec F S2048x256 .bf16 := iblk1 V c 1 t
abbrev val1_idx (c : Dev nD) : Vec F S1x800768 .i32 := V c (Pipeline.arrRef spec1 0)
abbrev val1_rows (c : Dev nD) : Vec F S800768x256 .bf16 := V c (Pipeline.arrRef spec1 1)

theorem cfg1_N : cfg1.N = 9775 := N_1

theorem coords1_0 (t : Fin cfg1.N) : ((grid1.coords t) 0).val = t.val / 391 := by
  show t.val / 391 % 25 = t.val / 391
  have := lt_of_lt_of_eq t.isLt cfg1_N
  exact Nat.mod_eq_of_lt (by omega)

theorem win1_index_0 (t : Fin cfg1.N) : win1_0.index t 0 = 0 ∧ win1_0.index t 1 = t.val % 391 := by
  refine ⟨rfl, ?_⟩
  show (BitVec.ofNat 32 ((grid1.coords t) 1).val).toNat = _
  rw [coords1_1 t, BitVec.toNat_ofNat]
  exact Nat.mod_eq_of_lt (by have := Nat.mod_lt t.val (show 0 < 391 by decide); omega)
theorem win1_index_1 (t : Fin cfg1.N) : win1_1.index t 0 = t.val % 391 ∧ win1_1.index t 1 = 0 := by
  refine ⟨?_, rfl⟩
  show (BitVec.ofNat 32 ((grid1.coords t) 1).val).toNat = _
  rw [coords1_1 t, BitVec.toNat_ofNat]
  exact Nat.mod_eq_of_lt (by have := Nat.mod_lt t.val (show 0 < 391 by decide); omega)
theorem win1_index_2 (t : Fin cfg1.N) : win1_2.index t 0 = t.val / 391 ∧ win1_2.index t 1 = 0 := by
  refine ⟨?_, rfl⟩
  show (BitVec.ofNat 32 ((grid1.coords t) 0).val).toNat = _
  rw [coords1_0 t, BitVec.toNat_ofNat]
  have := lt_of_lt_of_eq t.isLt cfg1_N
  exact Nat.mod_eq_of_lt (by omega)

theorem tile1_idx_apply (c : Dev nD) (t : Fin cfg1.N) (k : Fin 2048) (hk : t.val % 391 * 2048 + k.val < 800768) :
    tile1_idx V c t (ix2 0 k) = val1_idx V c (ix2 0 ⟨t.val % 391 * 2048 + k.val, hk⟩) := by
  obtain ⟨e0, e1⟩ := win1_index_0 t
  unfold tile1_idx iblk1
  rw [View.read_apply]
  show V c (Pipeline.arrRef spec1 0) _ = V c (Pipeline.arrRef spec1 0) _
  congr 1
  funext a
  apply Fin.ext
  match a with
  | ⟨0, _⟩ => show win1_0.index t 0 * 1 + 1 * 0 = 0; rw [e0]
  | ⟨1, _⟩ => show win1_0.index t 1 * 2048 + 1 * k.val = t.val % 391 * 2048 + k.val; rw [e1]; omega

theorem tile1_rows_apply (c : Dev nD) (t : Fin cfg1.N) (k : Fin 2048) (q : Fin 256) (hk : t.val % 391 * 2048 + k.val < 800768) :
    tile1_rows V c t (ix2 k q) = val1_rows V c (ix2 ⟨t.val % 391 * 2048 + k.val, hk⟩ q) := by
  obtain ⟨e0, e1⟩ := win1_index_1 t
  unfold tile1_rows iblk1
  rw [View.read_apply]
  show V c (Pipeline.arrRef spec1 1) _ = V c (Pipeline.arrRef spec1 1) _
  congr 1
  funext a
  apply Fin.ext
  match a with
  | ⟨0, _⟩ => show win1_1.index t 0 * 2048 + 1 * k.val = t.val % 391 * 2048 + k.val; rw [e0]; omega
  | ⟨1, _⟩ => show win1_1.index t 1 * 256 + 1 * q.val = q.val; rw [e1]; omega

theorem outsAt1_first (c : Dev nD) (t : Fin cfg1.N) (h0 : t.val % 391 = 0) :
    (outsAt1 V c t.val t.isLt).2 = k1_pay2 (grid1.coords t) (tile1_idx V c t) (tile1_rows V c t) (k1_pay1 (F := F)) := by
  have h1 : ¬t.val % 391 = 390 := by omega
  rw [outsAt1_A V c t h0 h1]
  exact sout1_A_eq (F := F) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)

theorem outsAt1_next (c : Dev nD) (t : Fin cfg1.N) (h0 : ¬t.val % 391 = 0) :
    (outsAt1 V c t.val t.isLt).2 = k1_pay2 (grid1.coords t) (tile1_idx V c t) (tile1_rows V c t) (outsAt1 V c (t.val - 1) (Nat.lt_of_le_of_lt (Nat.sub_le _ _) t.isLt)).2 := by
  by_cases h1 : t.val % 391 = 390
  · rw [outsAt1_C V c t h0 h1]
    exact sout1_C_eq (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2
  · rw [outsAt1_B V c t h0 h1]
    exact sout1_B_eq (F := F) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

theorem outsAt1_last (c : Dev nD) (t : Fin cfg1.N) (h1 : t.val % 391 = 390) :
    (outsAt1 V c t.val t.isLt).1 = k1_pay2 (grid1.coords t) (tile1_idx V c t) (tile1_rows V c t) (outsAt1 V c (t.val - 1) (Nat.lt_of_le_of_lt (Nat.sub_le _ _) t.isLt)).2 := by
  have h0 : ¬t.val % 391 = 0 := by omega
  rw [outsAt1_C V c t h0 h1]
  exact out1_C_eq (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2

end Named

section Sum
variable (V : (c : Dev nD) → (b : Ref sig .tc) → Buf (Elt Ideal) ((c : Thread nD τ).loc b))

def acc1_term (c : Dev nD) (n : Fin 25) (s : Fin 391) (p : Fin 2048) (q : Fin 256) : EReal :=
  ∑ k : Fin 2048,
    (if val1_idx V c (ix2 0 ⟨s.val * 2048 + k.val, by have := s.isLt; have := k.isLt; omega⟩) = BitVec.ofNat 32 (n.val * 2048 + p.val) then (1 : EReal) else 0)
      * val1_rows V c (ix2 ⟨s.val * 2048 + k.val, by have := s.isLt; have := k.isLt; omega⟩ q)

theorem acc1_step (c : Dev nD) (t : Fin cfg1.N) (xs : Vec Ideal S2048x256 .f32) (p : Fin 2048) (q : Fin 256)
    (hn : t.val / 391 < 25) (hs : t.val % 391 < 391) :
    (k1_pay2 (F := Ideal) (grid1.coords t) (tile1_idx V c t) (tile1_rows V c t) xs : S2048x256.Idx → EReal) (ix2 p q)
      = (xs : S2048x256.Idx → EReal) (ix2 p q) + acc1_term V c ⟨t.val / 391, hn⟩ ⟨t.val % 391, hs⟩ p q := by
  refine (k1_pay2_apply (grid1.coords t) (tile1_idx V c t) (tile1_rows V c t) xs p q).trans ?_
  refine congrArg ((xs : S2048x256.Idx → EReal) (ix2 p q) + ·) ?_
  unfold acc1_term
  refine Finset.sum_congr rfl fun k _ => ?_
  have hk : t.val % 391 * 2048 + k.val < 800768 := by have := k.isLt; omega
  rw [tile1_idx_apply V c t k hk, tile1_rows_apply V c t k q hk, coords1_0 t]

theorem outsAt1_congr (c : Dev nD) {a b : ℕ} (e : a = b) (ha : a < cfg1.N) (hb : b < cfg1.N) :
    outsAt1 V c a ha = outsAt1 V c b hb := by subst e; rfl

-- Along a node tile the scratch is the sum over the edge blocks met so far.
theorem acc1_inv (c : Dev nD) (n : Fin 25) (p : Fin 2048) (q : Fin 256) (e : ℕ) :
    ∀ (he : e < 391) (h : 391 * n.val + e < cfg1.N),
      ((outsAt1 V c (391 * n.val + e) h).2 : S2048x256.Idx → EReal) (ix2 p q)
        = ∑ s : Fin (e + 1), acc1_term V c n ⟨s.val, by have := s.isLt; omega⟩ p q := by
  induction e with
  | zero =>
    intro he h
    have hdiv : (391 * n.val + 0) / 391 = n.val := by omega
    have hmod : (391 * n.val + 0) % 391 = 0 := by omega
    refine (congrFun (outsAt1_first V c ⟨391 * n.val + 0, h⟩ hmod) (ix2 p q)).trans ?_
    refine (acc1_step V c ⟨391 * n.val + 0, h⟩ (k1_pay1 (F := Ideal)) p q (by show (391 * n.val + 0) / 391 < 25; have := n.isLt; omega) (by show (391 * n.val + 0) % 391 < 391; omega)).trans ?_
    rw [k1_pay1_apply, zero_add, Fin.sum_univ_one]
    exact congrArg₂ (fun a b => acc1_term V c a b p q) (Fin.ext hdiv) (Fin.ext hmod)
  | succ e ih =>
    intro he h
    have hdiv : (391 * n.val + (e + 1)) / 391 = n.val := by omega
    have hmod : (391 * n.val + (e + 1)) % 391 = e + 1 := by omega
    have hne : ¬(⟨391 * n.val + (e + 1), h⟩ : Fin cfg1.N).val % 391 = 0 := by show ¬(391 * n.val + (e + 1)) % 391 = 0; omega
    refine (congrFun (outsAt1_next V c ⟨391 * n.val + (e + 1), h⟩ hne) (ix2 p q)).trans ?_
    refine (acc1_step V c ⟨391 * n.val + (e + 1), h⟩ _ p q (by show (391 * n.val + (e + 1)) / 391 < 25; have := n.isLt; omega) (by show (391 * n.val + (e + 1)) % 391 < 391; omega)).trans ?_
    rw [Fin.sum_univ_castSucc]
    refine congrArg₂ (· + ·) ?_ ?_
    · rw [outsAt1_congr V c (show (⟨391 * n.val + (e + 1), h⟩ : Fin cfg1.N).val - 1 = 391 * n.val + e from by show 391 * n.val + (e + 1) - 1 = _; omega) _ (by omega)]
      exact ih (by omega) (by omega)
    · exact congrArg₂ (fun a b => acc1_term V c a b p q) (Fin.ext hdiv) (Fin.ext hmod)

theorem acc1_full (c : Dev nD) (t : Fin cfg1.N) (hl : t.val % 391 = 390) (p : Fin 2048) (q : Fin 256) (hn : t.val / 391 < 25) :
    ((outsAt1 V c t.val t.isLt).1 : S2048x256.Idx → EReal) (ix2 p q) = ∑ s : Fin 391, acc1_term V c ⟨t.val / 391, hn⟩ s p q := by
  have hN := cfg1_N
  have ht := t.isLt
  refine (congrFun (outsAt1_last V c t hl) (ix2 p q)).trans ?_
  refine (acc1_step V c t _ p q hn (by omega)).trans ?_
  rw [outsAt1_congr V c (show t.val - 1 = 391 * (⟨t.val / 391, hn⟩ : Fin 25).val + 389 from by show t.val - 1 = 391 * (t.val / 391) + 389; omega) _ (by show 391 * (t.val / 391) + 389 < cfg1.N; omega)]
  rw [acc1_inv V c ⟨t.val / 391, hn⟩ p q 389 (by omega) (by show 391 * (t.val / 391) + 389 < cfg1.N; omega)]
  rw [Fin.sum_univ_castSucc (n := 390)]
  refine congrArg₂ (· + ·) rfl ?_
  exact congrArg (fun b => acc1_term V c ⟨t.val / 391, hn⟩ b p q) (Fin.ext hl)

theorem acc1_blocks (g : Fin 800768 → EReal) :
    ∑ e : Fin 800768, g e = ∑ s : Fin 391, ∑ k : Fin 2048, g ⟨s.val * 2048 + k.val, by have := s.isLt; have := k.isLt; omega⟩ := by
  rw [← Equiv.sum_comp (finProdFinEquiv (m := 391) (n := 2048)) g, Fintype.sum_prod_type]
  refine Finset.sum_congr rfl fun s _ => Finset.sum_congr rfl fun k _ => congrArg g (Fin.ext ?_)
  show k.val + 2048 * s.val = s.val * 2048 + k.val
  omega

theorem acc1_sum (c : Dev nD) (n : Fin 25) (p : Fin 2048) (q : Fin 256) (hnp : n.val * 2048 + p.val < 51200) :
    ∑ s : Fin 391, acc1_term V c n s p q = scatteredAt (val1_idx V c) (val1_rows V c) ⟨n.val * 2048 + p.val, hnp⟩ q := by
  unfold scatteredAt
  rw [acc1_blocks]
  rfl

def final1_arr (c : Dev nD) : S51200x256.Idx → EReal :=
  fun i => scatteredAt (val1_idx V c) (val1_rows V c) ⟨(i 0).val, (i 0).isLt⟩ ⟨(i 1).val, (i 1).isLt⟩

theorem win1_read_2 (G : S51200x256.Idx → EReal) (t : Fin cfg1.N) (p : Fin 2048) (q : Fin 256) (hp : t.val / 391 * 2048 + p.val < 51200) :
    ((cfg1.win 2).blk t).view.read (Elt Ideal) G (ix2 p q) = G (ix2 ⟨t.val / 391 * 2048 + p.val, hp⟩ q) := by
  obtain ⟨e0, e1⟩ := win1_index_2 t
  rw [View.read_apply]
  show G _ = G _
  congr 1
  funext a
  apply Fin.ext
  match a with
  | ⟨0, _⟩ => show win1_2.index t 0 * 2048 + 1 * p.val = t.val / 391 * 2048 + p.val; rw [e0]; omega
  | ⟨1, _⟩ => show win1_2.index t 1 * 256 + 1 * q.val = q.val; rw [e1]; omega

theorem flushed1_2 (c : Dev nD) (t : Fin cfg1.N) (hf : (cfg1.win 2).flush t = true) :
    (dat1 V c).flushed 2 t = ((cfg1.win 2).blk t).view.read (Elt Ideal) (final1_arr V c) := by
  have hl : t.val % 391 = 390 := (flush1_2 t).mp hf
  have hN := cfg1_N
  have ht := t.isLt
  have hn : t.val / 391 < 25 := by omega
  show (cfg1.win 2).cut (grid1.coords t) ((dat1 V c).after 2 t) = _
  rw [after1_2]
  funext j
  obtain ⟨p, q, rfl⟩ : ∃ (p : Fin 2048) (q : Fin 256), j = ix2 p q := ⟨j 0, j 1, eq_ix2 j⟩
  have hnp : (⟨t.val / 391, hn⟩ : Fin 25).val * 2048 + p.val < 51200 := by show t.val / 391 * 2048 + p.val < 51200; have := p.isLt; omega
  refine Eq.trans ?_ (win1_read_2 (final1_arr V c) t p q hnp).symm
  show ((outsAt1 V c t.val t.isLt).1 : S2048x256.Idx → EReal) (ix2 p q) = _
  refine (acc1_full V c t hl p q hn).trans ?_
  exact acc1_sum V c ⟨t.val / 391, hn⟩ p q hnp

theorem cover1_2 (i : S51200x256.Idx) :
    ∃ t : Fin cfg1.N, (cfg1.win 2).flush t = true ∧ i ∈ ((cfg1.win 2).blk t).view.set := by
  have hi0 : (i 0).val < 51200 := (i 0).isLt
  have hi1 : (i 1).val < 256 := (i 1).isLt
  have hN := cfg1_N
  have hlt : 391 * ((i 0).val / 2048) + 390 < cfg1.N := by omega
  obtain ⟨e0, e1⟩ := win1_index_2 ⟨391 * ((i 0).val / 2048) + 390, hlt⟩
  refine ⟨⟨391 * ((i 0).val / 2048) + 390, hlt⟩, (flush1_2 _).mpr (by show (391 * ((i 0).val / 2048) + 390) % 391 = 390; omega), ?_⟩
  show i ∈ ((View.whole (Pipeline.arrRef spec1 2)).slice (win1_2.rect ⟨391 * ((i 0).val / 2048) + 390, hlt⟩)).set
  rw [View.set_slice_whole, Rect.mem_set_unit]
  have e0' : win1_2.index ⟨391 * ((i 0).val / 2048) + 390, hlt⟩ 0 = (i 0).val / 2048 := by rw [e0]; show (391 * ((i 0).val / 2048) + 390) / 391 = _; omega
  intro a
  match a with
  | ⟨0, _⟩ =>
    show win1_2.index ⟨391 * ((i 0).val / 2048) + 390, hlt⟩ 0 * 2048 ≤ (i 0).val ∧ (i 0).val < win1_2.index ⟨391 * ((i 0).val / 2048) + 390, hlt⟩ 0 * 2048 + 2048
    rw [e0']; omega
  | ⟨1, _⟩ =>
    show win1_2.index ⟨391 * ((i 0).val / 2048) + 390, hlt⟩ 1 * 256 ≤ (i 1).val ∧ (i 1).val < win1_2.index ⟨391 * ((i 0).val / 2048) + 390, hlt⟩ 1 * 256 + 256
    rw [e1]; omega

theorem final1_eq (c : Dev nD) : (dat1 V c).arrAt 2 cfg1.N = final1_arr V c :=
  (dat1 V c).arrAt_eq_of_cover 2 (final1_arr V c) (flushed1_2 V c) cover1_2

end Sum

-- Node n, feature f: the sum over all 800768 rows e of [index e = n] times the row's entry (e, f).
theorem scatter1_final (V : (c : Dev nD) → (b : Ref sig .tc) → Buf (Elt Ideal) ((c : Thread nD τ).loc b)) (c : Dev nD) (n : Fin 51200) (f : Fin 256) :
    ((dat1 (F := Ideal) V c).arrAt 2 cfg1.N : S51200x256.Idx → EReal) (ix2 n f) = scatteredAt (V c main_v13) (V c main_v15) n f :=
  congrFun (final1_eq V c) (ix2 n f)

end Cert.KernelIdeal.Val

end
-- ==== Proof.ValScatter4.lean ====
import proofs.«417335_j4861902979554_2_alg».proof.Proof.Scatter4C
import proofs.«417335_j4861902979554_2_alg».proof.Proof.ValScatter1
import proofs.«417335_j4861902979554_2_alg».proof.Proof.ValDefs

noncomputable section

namespace Cert.KernelIdeal.Val

open Cert.KernelIdeal Cert.KernelIdeal.Gen Cert.KernelIdeal.Reg Idealize.ShloMosaic Idealize.ShloMosaic.ValueIdx
open Idealize.ShloMosaic.TcCoe Idealize.SL.Sem

variable {F : FTy → Type} [FloatOps F]

section Named
variable (V : (c : Dev nD) → (b : Ref sig .tc) → Buf (Elt F) ((c : Thread nD τ).loc b))

abbrev tile4_idx (c : Dev nD) (t : Fin cfg4.N) : Vec F S1x2048 .i32 := iblk4 V c 0 t
abbrev tile4_rows (c : Dev nD) (t : Fin cfg4.N) : Vec F S2048x256 .bf16 := iblk4 V c 1 t
abbrev val4_idx (c : Dev nD) : Vec F S1x800768 .i32 := V c (Pipeline.arrRef spec4 0)
abbrev val4_rows (c : Dev nD) : Vec F S800768x256 .bf16 := V c (Pipeline.arrRef spec4 1)

theorem cfg4_N : cfg4.N = 9775 := N_4

theorem coords4_0 (t : Fin cfg4.N) : ((grid4.coords t) 0).val = t.val / 391 := by
  show t.val / 391 % 25 = t.val / 391
  have := lt_of_lt_of_eq t.isLt cfg4_N
  exact Nat.mod_eq_of_lt (by omega)

theorem win4_index_0 (t : Fin cfg4.N) : win4_0.index t 0 = 0 ∧ win4_0.index t 1 = t.val % 391 := by
  refine ⟨rfl, ?_⟩
  show (BitVec.ofNat 32 ((grid4.coords t) 1).val).toNat = _
  rw [coords4_1 t, BitVec.toNat_ofNat]
  exact Nat.mod_eq_of_lt (by have := Nat.mod_lt t.val (show 0 < 391 by decide); omega)
theorem win4_index_1 (t : Fin cfg4.N) : win4_1.index t 0 = t.val % 391 ∧ win4_1.index t 1 = 0 := by
  refine ⟨?_, rfl⟩
  show (BitVec.ofNat 32 ((grid4.coords t) 1).val).toNat = _
  rw [coords4_1 t, BitVec.toNat_ofNat]
  exact Nat.mod_eq_of_lt (by have := Nat.mod_lt t.val (show 0 < 391 by decide); omega)
theorem win4_index_2 (t : Fin cfg4.N) : win4_2.index t 0 = t.val / 391 ∧ win4_2.index t 1 = 0 := by
  refine ⟨?_, rfl⟩
  show (BitVec.ofNat 32 ((grid4.coords t) 0).val).toNat = _
  rw [coords4_0 t, BitVec.toNat_ofNat]
  have := lt_of_lt_of_eq t.isLt cfg4_N
  exact Nat.mod_eq_of_lt (by omega)

theorem tile4_idx_apply (c : Dev nD) (t : Fin cfg4.N) (k : Fin 2048) (hk : t.val % 391 * 2048 + k.val < 800768) :
    tile4_idx V c t (ix2 0 k) = val4_idx V c (ix2 0 ⟨t.val % 391 * 2048 + k.val, hk⟩) := by
  obtain ⟨e0, e1⟩ := win4_index_0 t
  unfold tile4_idx iblk4
  rw [View.read_apply]
  show V c (Pipeline.arrRef spec4 0) _ = V c (Pipeline.arrRef spec4 0) _
  congr 1
  funext a
  apply Fin.ext
  match a with
  | ⟨0, _⟩ => show win4_0.index t 0 * 1 + 1 * 0 = 0; rw [e0]
  | ⟨1, _⟩ => show win4_0.index t 1 * 2048 + 1 * k.val = t.val % 391 * 2048 + k.val; rw [e1]; omega

theorem tile4_rows_apply (c : Dev nD) (t : Fin cfg4.N) (k : Fin 2048) (q : Fin 256) (hk : t.val % 391 * 2048 + k.val < 800768) :
    tile4_rows V c t (ix2 k q) = val4_rows V c (ix2 ⟨t.val % 391 * 2048 + k.val, hk⟩ q) := by
  obtain ⟨e0, e1⟩ := win4_index_1 t
  unfold tile4_rows iblk4
  rw [View.read_apply]
  show V c (Pipeline.arrRef spec4 1) _ = V c (Pipeline.arrRef spec4 1) _
  congr 1
  funext a
  apply Fin.ext
  match a with
  | ⟨0, _⟩ => show win4_1.index t 0 * 2048 + 1 * k.val = t.val % 391 * 2048 + k.val; rw [e0]; omega
  | ⟨1, _⟩ => show win4_1.index t 1 * 256 + 1 * q.val = q.val; rw [e1]; omega

theorem outsAt4_first (c : Dev nD) (t : Fin cfg4.N) (h0 : t.val % 391 = 0) :
    (outsAt4 V c t.val t.isLt).2 = k1_pay2 (grid4.coords t) (tile4_idx V c t) (tile4_rows V c t) (k1_pay1 (F := F)) := by
  have h1 : ¬t.val % 391 = 390 := by omega
  rw [outsAt4_A V c t h0 h1]
  exact sout1_A_eq (F := F) c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)

theorem outsAt4_next (c : Dev nD) (t : Fin cfg4.N) (h0 : ¬t.val % 391 = 0) :
    (outsAt4 V c t.val t.isLt).2 = k1_pay2 (grid4.coords t) (tile4_idx V c t) (tile4_rows V c t) (outsAt4 V c (t.val - 1) (Nat.lt_of_le_of_lt (Nat.sub_le _ _) t.isLt)).2 := by
  by_cases h1 : t.val % 391 = 390
  · rw [outsAt4_C V c t h0 h1]
    exact sout1_C_eq (F := F) c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2
  · rw [outsAt4_B V c t h0 h1]
    exact sout1_B_eq (F := F) c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2

theorem outsAt4_last (c : Dev nD) (t : Fin cfg4.N) (h1 : t.val % 391 = 390) :
    (outsAt4 V c t.val t.isLt).1 = k1_pay2 (grid4.coords t) (tile4_idx V c t) (tile4_rows V c t) (outsAt4 V c (t.val - 1) (Nat.lt_of_le_of_lt (Nat.sub_le _ _) t.isLt)).2 := by
  have h0 : ¬t.val % 391 = 0 := by omega
  rw [outsAt4_C V c t h0 h1]
  exact out1_C_eq (F := F) c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2

end Named

section Sum
variable (V : (c : Dev nD) → (b : Ref sig .tc) → Buf (Elt Ideal) ((c : Thread nD τ).loc b))

def acc4_term (c : Dev nD) (n : Fin 25) (s : Fin 391) (p : Fin 2048) (q : Fin 256) : EReal :=
  ∑ k : Fin 2048,
    (if val4_idx V c (ix2 0 ⟨s.val * 2048 + k.val, by have := s.isLt; have := k.isLt; omega⟩) = BitVec.ofNat 32 (n.val * 2048 + p.val) then (1 : EReal) else 0)
      * val4_rows V c (ix2 ⟨s.val * 2048 + k.val, by have := s.isLt; have := k.isLt; omega⟩ q)

theorem acc4_step (c : Dev nD) (t : Fin cfg4.N) (xs : Vec Ideal S2048x256 .f32) (p : Fin 2048) (q : Fin 256)
    (hn : t.val / 391 < 25) (hs : t.val % 391 < 391) :
    (k1_pay2 (F := Ideal) (grid4.coords t) (tile4_idx V c t) (tile4_rows V c t) xs : S2048x256.Idx → EReal) (ix2 p q)
      = (xs : S2048x256.Idx → EReal) (ix2 p q) + acc4_term V c ⟨t.val / 391, hn⟩ ⟨t.val % 391, hs⟩ p q := by
  refine (k1_pay2_apply (grid4.coords t) (tile4_idx V c t) (tile4_rows V c t) xs p q).trans ?_
  refine congrArg ((xs : S2048x256.Idx → EReal) (ix2 p q) + ·) ?_
  unfold acc4_term
  refine Finset.sum_congr rfl fun k _ => ?_
  have hk : t.val % 391 * 2048 + k.val < 800768 := by have := k.isLt; omega
  rw [tile4_idx_apply V c t k hk, tile4_rows_apply V c t k q hk, coords4_0 t]

theorem outsAt4_congr (c : Dev nD) {a b : ℕ} (e : a = b) (ha : a < cfg4.N) (hb : b < cfg4.N) :
    outsAt4 V c a ha = outsAt4 V c b hb := by subst e; rfl

theorem acc4_inv (c : Dev nD) (n : Fin 25) (p : Fin 2048) (q : Fin 256) (e : ℕ) :
    ∀ (he : e < 391) (h : 391 * n.val + e < cfg4.N),
      ((outsAt4 V c (391 * n.val + e) h).2 : S2048x256.Idx → EReal) (ix2 p q)
        = ∑ s : Fin (e + 1), acc4_term V c n ⟨s.val, by have := s.isLt; omega⟩ p q := by
  induction e with
  | zero =>
    intro he h
    have hdiv : (391 * n.val + 0) / 391 = n.val := by omega
    have hmod : (391 * n.val + 0) % 391 = 0 := by omega
    refine (congrFun (outsAt4_first V c ⟨391 * n.val + 0, h⟩ hmod) (ix2 p q)).trans ?_
    refine (acc4_step V c ⟨391 * n.val + 0, h⟩ (k1_pay1 (F := Ideal)) p q (by show (391 * n.val + 0) / 391 < 25; have := n.isLt; omega) (by show (391 * n.val + 0) % 391 < 391; omega)).trans ?_
    rw [k1_pay1_apply, zero_add, Fin.sum_univ_one]
    exact congrArg₂ (fun a b => acc4_term V c a b p q) (Fin.ext hdiv) (Fin.ext hmod)
  | succ e ih =>
    intro he h
    have hdiv : (391 * n.val + (e + 1)) / 391 = n.val := by omega
    have hmod : (391 * n.val + (e + 1)) % 391 = e + 1 := by omega
    have hne : ¬(⟨391 * n.val + (e + 1), h⟩ : Fin cfg4.N).val % 391 = 0 := by show ¬(391 * n.val + (e + 1)) % 391 = 0; omega
    refine (congrFun (outsAt4_next V c ⟨391 * n.val + (e + 1), h⟩ hne) (ix2 p q)).trans ?_
    refine (acc4_step V c ⟨391 * n.val + (e + 1), h⟩ _ p q (by show (391 * n.val + (e + 1)) / 391 < 25; have := n.isLt; omega) (by show (391 * n.val + (e + 1)) % 391 < 391; omega)).trans ?_
    rw [Fin.sum_univ_castSucc]
    refine congrArg₂ (· + ·) ?_ ?_
    · rw [outsAt4_congr V c (show (⟨391 * n.val + (e + 1), h⟩ : Fin cfg4.N).val - 1 = 391 * n.val + e from by show 391 * n.val + (e + 1) - 1 = _; omega) _ (by omega)]
      exact ih (by omega) (by omega)
    · exact congrArg₂ (fun a b => acc4_term V c a b p q) (Fin.ext hdiv) (Fin.ext hmod)

theorem acc4_full (c : Dev nD) (t : Fin cfg4.N) (hl : t.val % 391 = 390) (p : Fin 2048) (q : Fin 256) (hn : t.val / 391 < 25) :
    ((outsAt4 V c t.val t.isLt).1 : S2048x256.Idx → EReal) (ix2 p q) = ∑ s : Fin 391, acc4_term V c ⟨t.val / 391, hn⟩ s p q := by
  have hN := cfg4_N
  have ht := t.isLt
  refine (congrFun (outsAt4_last V c t hl) (ix2 p q)).trans ?_
  refine (acc4_step V c t _ p q hn (by omega)).trans ?_
  rw [outsAt4_congr V c (show t.val - 1 = 391 * (⟨t.val / 391, hn⟩ : Fin 25).val + 389 from by show t.val - 1 = 391 * (t.val / 391) + 389; omega) _ (by show 391 * (t.val / 391) + 389 < cfg4.N; omega)]
  rw [acc4_inv V c ⟨t.val / 391, hn⟩ p q 389 (by omega) (by show 391 * (t.val / 391) + 389 < cfg4.N; omega)]
  rw [Fin.sum_univ_castSucc (n := 390)]
  refine congrArg₂ (· + ·) rfl ?_
  exact congrArg (fun b => acc4_term V c ⟨t.val / 391, hn⟩ b p q) (Fin.ext hl)

theorem acc4_blocks (g : Fin 800768 → EReal) :
    ∑ e : Fin 800768, g e = ∑ s : Fin 391, ∑ k : Fin 2048, g ⟨s.val * 2048 + k.val, by have := s.isLt; have := k.isLt; omega⟩ := by
  rw [← Equiv.sum_comp (finProdFinEquiv (m := 391) (n := 2048)) g, Fintype.sum_prod_type]
  refine Finset.sum_congr rfl fun s _ => Finset.sum_congr rfl fun k _ => congrArg g (Fin.ext ?_)
  show k.val + 2048 * s.val = s.val * 2048 + k.val
  omega

theorem acc4_sum (c : Dev nD) (n : Fin 25) (p : Fin 2048) (q : Fin 256) (hnp : n.val * 2048 + p.val < 51200) :
    ∑ s : Fin 391, acc4_term V c n s p q = scatteredAt (val4_idx V c) (val4_rows V c) ⟨n.val * 2048 + p.val, hnp⟩ q := by
  unfold scatteredAt
  rw [acc4_blocks]
  rfl

def final4_arr (c : Dev nD) : S51200x256.Idx → EReal :=
  fun i => scatteredAt (val4_idx V c) (val4_rows V c) ⟨(i 0).val, (i 0).isLt⟩ ⟨(i 1).val, (i 1).isLt⟩

theorem win4_read_2 (G : S51200x256.Idx → EReal) (t : Fin cfg4.N) (p : Fin 2048) (q : Fin 256) (hp : t.val / 391 * 2048 + p.val < 51200) :
    ((cfg4.win 2).blk t).view.read (Elt Ideal) G (ix2 p q) = G (ix2 ⟨t.val / 391 * 2048 + p.val, hp⟩ q) := by
  obtain ⟨e0, e1⟩ := win4_index_2 t
  rw [View.read_apply]
  show G _ = G _
  congr 1
  funext a
  apply Fin.ext
  match a with
  | ⟨0, _⟩ => show win4_2.index t 0 * 2048 + 1 * p.val = t.val / 391 * 2048 + p.val; rw [e0]; omega
  | ⟨1, _⟩ => show win4_2.index t 1 * 256 + 1 * q.val = q.val; rw [e1]; omega

theorem flushed4_2 (c : Dev nD) (t : Fin cfg4.N) (hf : (cfg4.win 2).flush t = true) :
    (dat4 V c).flushed 2 t = ((cfg4.win 2).blk t).view.read (Elt Ideal) (final4_arr V c) := by
  have hl : t.val % 391 = 390 := (flush4_2 t).mp hf
  have hN := cfg4_N
  have ht := t.isLt
  have hn : t.val / 391 < 25 := by omega
  show (cfg4.win 2).cut (grid4.coords t) ((dat4 V c).after 2 t) = _
  rw [after4_2]
  funext j
  obtain ⟨p, q, rfl⟩ : ∃ (p : Fin 2048) (q : Fin 256), j = ix2 p q := ⟨j 0, j 1, eq_ix2 j⟩
  have hnp : (⟨t.val / 391, hn⟩ : Fin 25).val * 2048 + p.val < 51200 := by show t.val / 391 * 2048 + p.val < 51200; have := p.isLt; omega
  refine Eq.trans ?_ (win4_read_2 (final4_arr V c) t p q hnp).symm
  show ((outsAt4 V c t.val t.isLt).1 : S2048x256.Idx → EReal) (ix2 p q) = _
  refine (acc4_full V c t hl p q hn).trans ?_
  exact acc4_sum V c ⟨t.val / 391, hn⟩ p q hnp

theorem cover4_2 (i : S51200x256.Idx) :
    ∃ t : Fin cfg4.N, (cfg4.win 2).flush t = true ∧ i ∈ ((cfg4.win 2).blk t).view.set := by
  have hi0 : (i 0).val < 51200 := (i 0).isLt
  have hi1 : (i 1).val < 256 := (i 1).isLt
  have hN := cfg4_N
  have hlt : 391 * ((i 0).val / 2048) + 390 < cfg4.N := by omega
  obtain ⟨e0, e1⟩ := win4_index_2 ⟨391 * ((i 0).val / 2048) + 390, hlt⟩
  refine ⟨⟨391 * ((i 0).val / 2048) + 390, hlt⟩, (flush4_2 _).mpr (by show (391 * ((i 0).val / 2048) + 390) % 391 = 390; omega), ?_⟩
  show i ∈ ((View.whole (Pipeline.arrRef spec4 2)).slice (win4_2.rect ⟨391 * ((i 0).val / 2048) + 390, hlt⟩)).set
  rw [View.set_slice_whole, Rect.mem_set_unit]
  have e0' : win4_2.index ⟨391 * ((i 0).val / 2048) + 390, hlt⟩ 0 = (i 0).val / 2048 := by rw [e0]; show (391 * ((i 0).val / 2048) + 390) / 391 = _; omega
  intro a
  match a with
  | ⟨0, _⟩ =>
    show win4_2.index ⟨391 * ((i 0).val / 2048) + 390, hlt⟩ 0 * 2048 ≤ (i 0).val ∧ (i 0).val < win4_2.index ⟨391 * ((i 0).val / 2048) + 390, hlt⟩ 0 * 2048 + 2048
    rw [e0']; omega
  | ⟨1, _⟩ =>
    show win4_2.index ⟨391 * ((i 0).val / 2048) + 390, hlt⟩ 1 * 256 ≤ (i 1).val ∧ (i 1).val < win4_2.index ⟨391 * ((i 0).val / 2048) + 390, hlt⟩ 1 * 256 + 256
    rw [e1]; omega

theorem final4_eq (c : Dev nD) : (dat4 V c).arrAt 2 cfg4.N = final4_arr V c :=
  (dat4 V c).arrAt_eq_of_cover 2 (final4_arr V c) (flushed4_2 V c) cover4_2

end Sum

theorem scatter4_final (V : (c : Dev nD) → (b : Ref sig .tc) → Buf (Elt Ideal) ((c : Thread nD τ).loc b)) (c : Dev nD) (n : Fin 51200) (f : Fin 256) :
    ((dat4 (F := Ideal) V c).arrAt 2 cfg4.N : S51200x256.Idx → EReal) (ix2 n f) = scatteredAt (V c main_v13) (V c main_v23) n f :=
  congrFun (final4_eq V c) (ix2 n f)

end Cert.KernelIdeal.Val

end
-- ==== Proof.ValCombine2.lean ====
import proofs.«417335_j4861902979554_2_alg».proof.Proof.Combine2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Cert.KernelIdeal Cert.KernelIdeal.Gen

theorem lhs_combine_0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem lhs_combine_1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q

theorem rhs_combine_0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rhs_combine_1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q

theorem matmul_combine_apply (a : FVec Ideal S2048x256 .bf16) (b : FVec Ideal S256x256 .bf16) (p : Fin 2048) (q : Fin 256) :
    (matmul dot_S2048x256_S256x256_S2048x256_1_1_0_0_n_n none a b (constant S2048x256 .f32 0x00000000#32) : S2048x256.Idx → EReal) (ix2 p q)
      = ∑ k : Fin 256, (a : S2048x256.Idx → EReal) (ix2 p k) * (b : S256x256.Idx → EReal) (ix2 q k) := by
  simp only [matmul]
  rw [Ideal.matmul_constant_zero_apply, ← Equiv.sum_comp (ValueIdx.contrEquiv1 dot_S2048x256_S256x256_S2048x256_1_1_0_0_n_n 256 rfl rfl).symm]
  refine Finset.sum_congr rfl fun k _ => ?_
  have hk := ValueIdx.contrEquiv1_symm_val dot_S2048x256_S256x256_S2048x256_1_1_0_0_n_n 256 rfl rfl k
  have el : dot_S2048x256_S256x256_S2048x256_1_1_0_0_n_n.lhsIdx (ix2 p q) ((ValueIdx.contrEquiv1 dot_S2048x256_S256x256_S2048x256_1_1_0_0_n_n 256 rfl rfl).symm k) = ix2 p k := funext fun a => Fin.ext (by
    match a with
    | ⟨0, _⟩ => exact lhs_combine_0 _ _
    | ⟨1, _⟩ => exact (lhs_combine_1 _ _).trans hk)
  have er : dot_S2048x256_S256x256_S2048x256_1_1_0_0_n_n.rhsIdx (ix2 p q) ((ValueIdx.contrEquiv1 dot_S2048x256_S256x256_S2048x256_1_1_0_0_n_n 256 rfl rfl).symm k) = ix2 q k := funext fun a => Fin.ext (by
    match a with
    | ⟨0, _⟩ => exact rhs_combine_0 _ _
    | ⟨1, _⟩ => exact (rhs_combine_1 _ _).trans hk)
  rw [el, er]

theorem pay_combine_apply (v0 v3 : Vec Ideal S2048x256 .f32) (v6 v8 : Vec Ideal S256x256 .f32) (v10 : Vec Ideal S1x256 .f32) (p : Fin 2048) (q : Fin 256) :
    (k2_pay1 (F := Ideal) v0 v3 v6 v8 v10 : S2048x256.Idx → EReal) (ix2 p q)
      = max (((∑ k : Fin 256, (v0 : S2048x256.Idx → EReal) (ix2 p k) * (v6 : S256x256.Idx → EReal) (ix2 q k))
              + (v10 : S1x256.Idx → EReal) (ix2 (0 : Fin 1) q))
            + ∑ k : Fin 256, (v3 : S2048x256.Idx → EReal) (ix2 p k) * (v8 : S256x256.Idx → EReal) (ix2 q k)) 0 := by
  unfold k2_pay1
  simp only [shapeCast_self]
  refine (maximumf_apply _ _ (ix2 p q)).trans ?_
  refine congrArg₂ max ?_ ?_
  · refine (addf_apply _ _ (ix2 p q)).trans ?_
    refine congrArg₂ (· + ·) ?_ ?_
    · refine (addf_apply _ _ (ix2 p q)).trans ?_
      refine congrArg₂ (· + ·) ?_ ?_
      · exact matmul_combine_apply _ _ p q
      · exact broadcastTo_1b_ab_apply _ _ p q
    · exact matmul_combine_apply _ _ p q
  · exact Ideal.ofBits_zero_f32

def combinedAt (A X : S51200x256.Idx → EReal) (Wl Wr : S256x256.Idx → EReal) (b : S1x256.Idx → EReal) (n : Fin 51200) (j : Fin 256) : EReal :=
  max (((∑ k : Fin 256, A (ix2 n k) * Wl (ix2 j k)) + b (ix2 (0 : Fin 1) j)) + ∑ k : Fin 256, X (ix2 n k) * Wr (ix2 j k)) 0

variable (V : (c : Dev nD) → (b : Ref sig .tc) → Buf (Elt Ideal) ((c : Thread nD τ).loc b))

def combined (c : Dev nD) : S51200x256.Idx → EReal := fun i =>
  combinedAt (V c main_v20) (V c main_v14) (V c main_arg2) (V c main_arg4) (V c main_v21) (i 0) (i 1)

theorem hz2 : (![0, 0] : Fin 2 → Nat) = fun _ => 0 := funext fun a => match a with | ⟨0, _⟩ => rfl | ⟨1, _⟩ => rfl

theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem meanBlock_apply (c : Dev nD) (t : Fin cfg2.N) (p : Fin 2048) (k : Fin 256) (n : Fin 51200) (hn : n.val = 2048 * t.val + p.val) :
    (Cert.KernelIdeal.Reg.iblk2 V c 0 t : S2048x256.Idx → EReal) (ix2 p k) = (V c main_v20 : S51200x256.Idx → EReal) (ix2 n k) := by
  obtain ⟨e0, e1, -⟩ := index_facts t
  unfold Cert.KernelIdeal.Reg.iblk2
  rw [View.read_apply]
  show (V c main_v20 : S51200x256.Idx → EReal) (((cfg2.win 0).blk t).view.emb (ix2 p k)) = _
  refine congrArg (V c main_v20 : S51200x256.Idx → EReal) (funext fun a => Fin.ext ?_)
  match a with
  | ⟨0, _⟩ => show win2_0.index t (0 : Fin 2) * 2048 + 1 * p.val = n.val; omega
  | ⟨1, _⟩ => show win2_0.index t (1 : Fin 2) * 256 + 1 * k.val = k.val; omega

theorem featBlock_apply (c : Dev nD) (t : Fin cfg2.N) (p : Fin 2048) (k : Fin 256) (n : Fin 51200) (hn : n.val = 2048 * t.val + p.val) :
    (Cert.KernelIdeal.Reg.iblk2 V c 1 t : S2048x256.Idx → EReal) (ix2 p k) = (V c main_v14 : S51200x256.Idx → EReal) (ix2 n k) := by
  obtain ⟨-, -, e0, e1, -⟩ := index_facts t
  unfold Cert.KernelIdeal.Reg.iblk2
  rw [View.read_apply]
  show (V c main_v14 : S51200x256.Idx → EReal) (((cfg2.win 1).blk t).view.emb (ix2 p k)) = _
  refine congrArg (V c main_v14 : S51200x256.Idx → EReal) (funext fun a => Fin.ext ?_)
  match a with
  | ⟨0, _⟩ => show win2_1.index t (0 : Fin 2) * 2048 + 1 * p.val = n.val; omega
  | ⟨1, _⟩ => show win2_1.index t (1 : Fin 2) * 256 + 1 * k.val = k.val; omega

theorem leftBlock_apply (c : Dev nD) (t : Fin cfg2.N) (j k : Fin 256) :
    (Cert.KernelIdeal.Reg.iblk2 V c 2 t : S256x256.Idx → EReal) (ix2 j k) = (V c main_arg2 : S256x256.Idx → EReal) (ix2 j k) := by
  obtain ⟨-, -, -, -, e0, e1, -⟩ := index_facts t
  unfold Cert.KernelIdeal.Reg.iblk2
  rw [View.read_apply]
  show (V c main_arg2 : S256x256.Idx → EReal) (((cfg2.win 2).blk t).view.emb (ix2 j k)) = _
  refine congrArg (V c main_arg2 : S256x256.Idx → EReal) (funext fun a => Fin.ext ?_)
  match a with
  | ⟨0, _⟩ => show win2_2.index t (0 : Fin 2) * 256 + 1 * j.val = j.val; omega
  | ⟨1, _⟩ => show win2_2.index t (1 : Fin 2) * 256 + 1 * k.val = k.val; omega

theorem biasBlock_apply (c : Dev nD) (t : Fin cfg2.N) (j : Fin 256) :
    (Cert.KernelIdeal.Reg.iblk2 V c 3 t : S1x256.Idx → EReal) (ix2 (0 : Fin 1) j) = (V c main_v21 : S1x256.Idx → EReal) (ix2 (0 : Fin 1) j) := by
  obtain ⟨-, -, -, -, -, -, e0, e1, -⟩ := index_facts t
  unfold Cert.KernelIdeal.Reg.iblk2
  rw [View.read_apply]
  show (V c main_v21 : S1x256.Idx → EReal) (((cfg2.win 3).blk t).view.emb (ix2 (0 : Fin 1) j)) = _
  refine congrArg (V c main_v21 : S1x256.Idx → EReal) (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 256 + 1 * j.val = j.val; omega

theorem rightBlock_apply (c : Dev nD) (t : Fin cfg2.N) (j k : Fin 256) :
    (Cert.KernelIdeal.Reg.iblk2 V c 4 t : S256x256.Idx → EReal) (ix2 j k) = (V c main_arg4 : S256x256.Idx → EReal) (ix2 j k) := by
  obtain ⟨-, -, -, -, -, -, -, -, e0, e1, -⟩ := index_facts t
  unfold Cert.KernelIdeal.Reg.iblk2
  rw [View.read_apply]
  show (V c main_arg4 : S256x256.Idx → EReal) (((cfg2.win 4).blk t).view.emb (ix2 j k)) = _
  refine congrArg (V c main_arg4 : S256x256.Idx → EReal) (funext fun a => Fin.ext ?_)
  match a with
  | ⟨0, _⟩ => show win2_4.index t (0 : Fin 2) * 256 + 1 * j.val = j.val; omega
  | ⟨1, _⟩ => show win2_4.index t (1 : Fin 2) * 256 + 1 * k.val = k.val; omega

theorem flushed_combine (c : Dev nD) (t : Fin cfg2.N) :
    (Cert.KernelIdeal.Reg.dat2 (F := Ideal) V c).flushed 5 t = ((cfg2.win 5).blk t).view.read (Elt Ideal) (combined V c) := by
  show (cfg2.win 5).cut (grid2.coords t) ((Cert.KernelIdeal.Reg.dat2 (F := Ideal) V c).after 5 t) = _
  rw [Cert.KernelIdeal.Reg.after2_5]
  unfold Cert.KernelIdeal.Reg.out2_5
  rw [View.canon_unit_zero hz2]
  simp only [View.ld_unit_zero (S := S2048x256) hz2, View.ld_unit_zero (S := S256x256) hz2, View.ld_unit_zero (S := S1x256) hz2]
  have hN : t.val < 25 := lt_of_lt_of_eq t.isLt (show cfg2.N = 25 from N_2)
  obtain ⟨-, -, -, -, -, -, -, -, -, -, e0, e1⟩ := index_facts t
  funext y
  obtain ⟨p, q, rfl⟩ : ∃ (p : Fin 2048) (q : Fin 256), y = ix2 p q := ⟨y 0, y 1, eq_ix2 y⟩
  have hp : p.val < 2048 := p.isLt
  have hemb : ((cfg2.win 5).blk t).view.emb (ix2 p q) = (ix2 (⟨2048 * t.val + p.val, by omega⟩ : Fin 51200) q : S51200x256.Idx) :=
    funext fun a => Fin.ext (by
      match a with
      | ⟨0, _⟩ => show win2_5.index t (0 : Fin 2) * 2048 + 1 * p.val = 2048 * t.val + p.val; omega
      | ⟨1, _⟩ => show win2_5.index t (1 : Fin 2) * 256 + 1 * q.val = q.val; omega)
  rw [View.read_apply, hemb]
  refine (pay_combine_apply (Cert.KernelIdeal.Reg.iblk2 V c 0 t) (Cert.KernelIdeal.Reg.iblk2 V c 1 t) (Cert.KernelIdeal.Reg.iblk2 V c 2 t)
    (Cert.KernelIdeal.Reg.iblk2 V c 4 t) (Cert.KernelIdeal.Reg.iblk2 V c 3 t) p q).trans ?_
  show _ = combinedAt (V c main_v20) (V c main_v14) (V c main_arg2) (V c main_arg4) (V c main_v21) ⟨2048 * t.val + p.val, by omega⟩ q
  unfold combinedAt
  refine congrArg₂ max (congrArg₂ (· + ·) (congrArg₂ (· + ·) (Finset.sum_congr rfl fun k _ => congrArg₂ (· * ·) ?_ ?_) ?_)
    (Finset.sum_congr rfl fun k _ => congrArg₂ (· * ·) ?_ ?_)) rfl
  · exact meanBlock_apply V c t p k _ rfl
  · exact leftBlock_apply V c t q k
  · exact biasBlock_apply V c t q
  · exact featBlock_apply V c t p k _ rfl
  · exact rightBlock_apply V c t q k

theorem mem_outBlock (t : Fin cfg2.N) (i : S51200x256.Idx) :
    i ∈ ((cfg2.win 5).blk t).view.set ↔ ∀ a : Fin 2, win2_5.index t a * S2048x256.size a ≤ (i a).val ∧ (i a).val < win2_5.index t a * S2048x256.size a + S2048x256.size a := by
  show i ∈ ((View.whole main_v22).slice (win2_5.rect t)).set ↔ _
  rw [View.set_slice_whole, Rect.mem_set_unit]
  exact Iff.rfl

theorem covered (i : S51200x256.Idx) : ∃ t : Fin cfg2.N, (cfg2.win 5).flush t = true ∧ i ∈ ((cfg2.win 5).blk t).view.set := by
  have hi0 : (i 0).val < 51200 := idx2_lt0 i
  have hi1 : (i 1).val < 256 := idx2_lt1 i
  have hN : cfg2.N = 25 := N_2
  refine ⟨⟨(i 0).val / 2048, by rw [hN]; omega⟩, flush2_5 _, ?_⟩
  rw [mem_outBlock]
  obtain ⟨-, -, -, -, -, -, -, -, -, -, e0, e1⟩ := index_facts ⟨(i 0).val / 2048, by rw [hN]; omega⟩
  intro a
  match a with
  | ⟨0, _⟩ =>
    show win2_5.index ⟨(i 0).val / 2048, _⟩ (0 : Fin 2) * 2048 ≤ (i 0).val ∧ (i 0).val < win2_5.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win2_5.index ⟨(i 0).val / 2048, _⟩ (1 : Fin 2) * 256 ≤ (i 1).val ∧ (i 1).val < win2_5.index ⟨(i 0).val / 2048, _⟩ (1 : Fin 2) * 256 + 256
    rw [e1]; omega

theorem final_combine (c : Dev nD) : (Cert.KernelIdeal.Reg.dat2 (F := Ideal) V c).arrAt 5 cfg2.N = combined V c :=
  (Cert.KernelIdeal.Reg.dat2 (F := Ideal) V c).arrAt_eq_of_cover 5 (combined V c) (fun t _ => flushed_combine V c t) (covered)

theorem combinedAt_eq (A X : S51200x256.Idx → EReal) (Wl Wr : S256x256.Idx → EReal) (b : S1x256.Idx → EReal) (n : Fin 51200) (j : Fin 256) :
    combinedAt A X Wl Wr b n j
      = max (((∑ k : Fin 256, A (ix2 n k) * Wl (ix2 j k)) + b (ix2 0 j)) + ∑ k : Fin 256, X (ix2 n k) * Wr (ix2 j k)) 0 := rfl

theorem combine2_final (V : (c : Dev nD) → (b : Ref sig .tc) → Buf (Elt Ideal) ((c : Thread nD τ).loc b)) (c : Dev nD) (n : Fin 51200) (j : Fin 256) :
    ((Cert.KernelIdeal.Reg.dat2 (F := Ideal) V c).arrAt 5 cfg2.N : S51200x256.Idx → EReal) (ix2 n j)
      = combinedAt (V c main_v20) (V c main_v14) (V c main_arg2) (V c main_arg4) (V c main_v21) n j :=
  congrFun (final_combine V c) (ix2 n j)

end Cert.KernelIdeal.Val

end
-- ==== Proof.ValCombine5.lean ====
import proofs.«417335_j4861902979554_2_alg».proof.Proof.Combine5
import proofs.«417335_j4861902979554_2_alg».proof.Proof.ValCombine2

noncomputable section

namespace Cert.KernelIdeal.Val

open Idealize.ShloMosaic Idealize.ShloMosaic.TcCoe Idealize.ShloMosaic.ValueIdx
open Cert.KernelIdeal Cert.KernelIdeal.Gen

theorem pay_affine_apply (v0 v3 : Vec Ideal S2048x256 .f32) (v6 v8 : Vec Ideal S256x256 .f32) (v10 : Vec Ideal S1x256 .f32) (p : Fin 2048) (q : Fin 256) :
    (k5_pay1 (F := Ideal) v0 v3 v6 v8 v10 : S2048x256.Idx → EReal) (ix2 p q)
      = ((∑ k : Fin 256, (v0 : S2048x256.Idx → EReal) (ix2 p k) * (v6 : S256x256.Idx → EReal) (ix2 q k))
          + (v10 : S1x256.Idx → EReal) (ix2 (0 : Fin 1) q))
        + ∑ k : Fin 256, (v3 : S2048x256.Idx → EReal) (ix2 p k) * (v8 : S256x256.Idx → EReal) (ix2 q k) := by
  unfold k5_pay1
  simp only [shapeCast_self]
  refine (addf_apply _ _ (ix2 p q)).trans ?_
  refine congrArg₂ (· + ·) ?_ ?_
  · refine (addf_apply _ _ (ix2 p q)).trans ?_
    refine congrArg₂ (· + ·) ?_ ?_
    · exact matmul_combine_apply _ _ p q
    · exact broadcastTo_1b_ab_apply _ _ p q
  · exact matmul_combine_apply _ _ p q

def affineAt (A X : S51200x256.Idx → EReal) (Wl Wr : S256x256.Idx → EReal) (b : S1x256.Idx → EReal) (n : Fin 51200) (j : Fin 256) : EReal :=
  ((∑ k : Fin 256, A (ix2 n k) * Wl (ix2 j k)) + b (ix2 (0 : Fin 1) j)) + ∑ k : Fin 256, X (ix2 n k) * Wr (ix2 j k)

variable (V : (c : Dev nD) → (b : Ref sig .tc) → Buf (Elt Ideal) ((c : Thread nD τ).loc b))

def affine (c : Dev nD) : S51200x256.Idx → EReal := fun i =>
  affineAt (V c main_v28) (V c main_v22) (V c main_arg5) (V c main_arg7) (V c main_v29) (i 0) (i 1)

theorem index_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem meanBlock5_apply (c : Dev nD) (t : Fin cfg5.N) (p : Fin 2048) (k : Fin 256) (n : Fin 51200) (hn : n.val = 2048 * t.val + p.val) :
    (Cert.KernelIdeal.Reg.iblk5 V c 0 t : S2048x256.Idx → EReal) (ix2 p k) = (V c main_v28 : S51200x256.Idx → EReal) (ix2 n k) := by
  obtain ⟨e0, e1, -⟩ := index_facts5 t
  unfold Cert.KernelIdeal.Reg.iblk5
  rw [View.read_apply]
  show (V c main_v28 : S51200x256.Idx → EReal) (((cfg5.win 0).blk t).view.emb (ix2 p k)) = _
  refine congrArg (V c main_v28 : S51200x256.Idx → EReal) (funext fun a => Fin.ext ?_)
  match a with
  | ⟨0, _⟩ => show win5_0.index t (0 : Fin 2) * 2048 + 1 * p.val = n.val; omega
  | ⟨1, _⟩ => show win5_0.index t (1 : Fin 2) * 256 + 1 * k.val = k.val; omega

theorem featBlock5_apply (c : Dev nD) (t : Fin cfg5.N) (p : Fin 2048) (k : Fin 256) (n : Fin 51200) (hn : n.val = 2048 * t.val + p.val) :
    (Cert.KernelIdeal.Reg.iblk5 V c 1 t : S2048x256.Idx → EReal) (ix2 p k) = (V c main_v22 : S51200x256.Idx → EReal) (ix2 n k) := by
  obtain ⟨-, -, e0, e1, -⟩ := index_facts5 t
  unfold Cert.KernelIdeal.Reg.iblk5
  rw [View.read_apply]
  show (V c main_v22 : S51200x256.Idx → EReal) (((cfg5.win 1).blk t).view.emb (ix2 p k)) = _
  refine congrArg (V c main_v22 : S51200x256.Idx → EReal) (funext fun a => Fin.ext ?_)
  match a with
  | ⟨0, _⟩ => show win5_1.index t (0 : Fin 2) * 2048 + 1 * p.val = n.val; omega
  | ⟨1, _⟩ => show win5_1.index t (1 : Fin 2) * 256 + 1 * k.val = k.val; omega

theorem leftBlock5_apply (c : Dev nD) (t : Fin cfg5.N) (j k : Fin 256) :
    (Cert.KernelIdeal.Reg.iblk5 V c 2 t : S256x256.Idx → EReal) (ix2 j k) = (V c main_arg5 : S256x256.Idx → EReal) (ix2 j k) := by
  obtain ⟨-, -, -, -, e0, e1, -⟩ := index_facts5 t
  unfold Cert.KernelIdeal.Reg.iblk5
  rw [View.read_apply]
  show (V c main_arg5 : S256x256.Idx → EReal) (((cfg5.win 2).blk t).view.emb (ix2 j k)) = _
  refine congrArg (V c main_arg5 : S256x256.Idx → EReal) (funext fun a => Fin.ext ?_)
  match a with
  | ⟨0, _⟩ => show win5_2.index t (0 : Fin 2) * 256 + 1 * j.val = j.val; omega
  | ⟨1, _⟩ => show win5_2.index t (1 : Fin 2) * 256 + 1 * k.val = k.val; omega

theorem biasBlock5_apply (c : Dev nD) (t : Fin cfg5.N) (j : Fin 256) :
    (Cert.KernelIdeal.Reg.iblk5 V c 3 t : S1x256.Idx → EReal) (ix2 (0 : Fin 1) j) = (V c main_v29 : S1x256.Idx → EReal) (ix2 (0 : Fin 1) j) := by
  obtain ⟨-, -, -, -, -, -, e0, e1, -⟩ := index_facts5 t
  unfold Cert.KernelIdeal.Reg.iblk5
  rw [View.read_apply]
  show (V c main_v29 : S1x256.Idx → EReal) (((cfg5.win 3).blk t).view.emb (ix2 (0 : Fin 1) j)) = _
  refine congrArg (V c main_v29 : S1x256.Idx → EReal) (funext fun a => Fin.ext ?_)
  match a with
  | ⟨0, _⟩ => show win5_3.index t (0 : Fin 2) * 1 + 1 * (0 : Fin 1).val = (0 : Fin 1).val; omega
  | ⟨1, _⟩ => show win5_3.index t (1 : Fin 2) * 256 + 1 * j.val = j.val; omega

theorem rightBlock5_apply (c : Dev nD) (t : Fin cfg5.N) (j k : Fin 256) :
    (Cert.KernelIdeal.Reg.iblk5 V c 4 t : S256x256.Idx → EReal) (ix2 j k) = (V c main_arg7 : S256x256.Idx → EReal) (ix2 j k) := by
  obtain ⟨-, -, -, -, -, -, -, -, e0, e1, -⟩ := index_facts5 t
  unfold Cert.KernelIdeal.Reg.iblk5
  rw [View.read_apply]
  show (V c main_arg7 : S256x256.Idx → EReal) (((cfg5.win 4).blk t).view.emb (ix2 j k)) = _
  refine congrArg (V c main_arg7 : S256x256.Idx → EReal) (funext fun a => Fin.ext ?_)
  match a with
  | ⟨0, _⟩ => show win5_4.index t (0 : Fin 2) * 256 + 1 * j.val = j.val; omega
  | ⟨1, _⟩ => show win5_4.index t (1 : Fin 2) * 256 + 1 * k.val = k.val; omega

theorem flushed_affine (c : Dev nD) (t : Fin cfg5.N) :
    (Cert.KernelIdeal.Reg.dat5 (F := Ideal) V c).flushed 5 t = ((cfg5.win 5).blk t).view.read (Elt Ideal) (affine V c) := by
  show (cfg5.win 5).cut (grid5.coords t) ((Cert.KernelIdeal.Reg.dat5 (F := Ideal) V c).after 5 t) = _
  rw [Cert.KernelIdeal.Reg.after5_5]
  unfold Cert.KernelIdeal.Reg.out5_5
  rw [View.canon_unit_zero hz2]
  simp only [View.ld_unit_zero (S := S2048x256) hz2, View.ld_unit_zero (S := S256x256) hz2, View.ld_unit_zero (S := S1x256) hz2]
  have hN : t.val < 25 := lt_of_lt_of_eq t.isLt (show cfg5.N = 25 from N_5)
  obtain ⟨-, -, -, -, -, -, -, -, -, -, e0, e1⟩ := index_facts5 t
  funext y
  obtain ⟨p, q, rfl⟩ : ∃ (p : Fin 2048) (q : Fin 256), y = ix2 p q := ⟨y 0, y 1, eq_ix2 y⟩
  have hp : p.val < 2048 := p.isLt
  have hemb : ((cfg5.win 5).blk t).view.emb (ix2 p q) = (ix2 (⟨2048 * t.val + p.val, by omega⟩ : Fin 51200) q : S51200x256.Idx) :=
    funext fun a => Fin.ext (by
      match a with
      | ⟨0, _⟩ => show win5_5.index t (0 : Fin 2) * 2048 + 1 * p.val = 2048 * t.val + p.val; omega
      | ⟨1, _⟩ => show win5_5.index t (1 : Fin 2) * 256 + 1 * q.val = q.val; omega)
  rw [View.read_apply, hemb]
  refine (pay_affine_apply (Cert.KernelIdeal.Reg.iblk5 V c 0 t) (Cert.KernelIdeal.Reg.iblk5 V c 1 t) (Cert.KernelIdeal.Reg.iblk5 V c 2 t)
    (Cert.KernelIdeal.Reg.iblk5 V c 4 t) (Cert.KernelIdeal.Reg.iblk5 V c 3 t) p q).trans ?_
  show _ = affineAt (V c main_v28) (V c main_v22) (V c main_arg5) (V c main_arg7) (V c main_v29) ⟨2048 * t.val + p.val, by omega⟩ q
  unfold affineAt
  refine congrArg₂ (· + ·) (congrArg₂ (· + ·) (Finset.sum_congr rfl fun k _ => congrArg₂ (· * ·) ?_ ?_) ?_)
    (Finset.sum_congr rfl fun k _ => congrArg₂ (· * ·) ?_ ?_)
  · exact meanBlock5_apply V c t p k _ rfl
  · exact leftBlock5_apply V c t q k
  · exact biasBlock5_apply V c t q
  · exact featBlock5_apply V c t p k _ rfl
  · exact rightBlock5_apply V c t q k

theorem mem_outBlock5 (t : Fin cfg5.N) (i : S51200x256.Idx) :
    i ∈ ((cfg5.win 5).blk t).view.set ↔ ∀ a : Fin 2, win5_5.index t a * S2048x256.size a ≤ (i a).val ∧ (i a).val < win5_5.index t a * S2048x256.size a + S2048x256.size a := by
  show i ∈ ((View.whole main_v30).slice (win5_5.rect t)).set ↔ _
  rw [View.set_slice_whole, Rect.mem_set_unit]
  exact Iff.rfl

theorem covered5 (i : S51200x256.Idx) : ∃ t : Fin cfg5.N, (cfg5.win 5).flush t = true ∧ i ∈ ((cfg5.win 5).blk t).view.set := by
  have hi0 : (i 0).val < 51200 := idx2_lt0 i
  have hi1 : (i 1).val < 256 := idx2_lt1 i
  have hN : cfg5.N = 25 := N_5
  refine ⟨⟨(i 0).val / 2048, by rw [hN]; omega⟩, flush5_5 _, ?_⟩
  rw [mem_outBlock5]
  obtain ⟨-, -, -, -, -, -, -, -, -, -, e0, e1⟩ := index_facts5 ⟨(i 0).val / 2048, by rw [hN]; omega⟩
  intro a
  match a with
  | ⟨0, _⟩ =>
    show win5_5.index ⟨(i 0).val / 2048, _⟩ (0 : Fin 2) * 2048 ≤ (i 0).val ∧ (i 0).val < win5_5.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win5_5.index ⟨(i 0).val / 2048, _⟩ (1 : Fin 2) * 256 ≤ (i 1).val ∧ (i 1).val < win5_5.index ⟨(i 0).val / 2048, _⟩ (1 : Fin 2) * 256 + 256
    rw [e1]; omega

theorem final_affine (c : Dev nD) : (Cert.KernelIdeal.Reg.dat5 (F := Ideal) V c).arrAt 5 cfg5.N = affine V c :=
  (Cert.KernelIdeal.Reg.dat5 (F := Ideal) V c).arrAt_eq_of_cover 5 (affine V c) (fun t _ => flushed_affine V c t) (covered5)

theorem affineAt_eq (A X : S51200x256.Idx → EReal) (Wl Wr : S256x256.Idx → EReal) (b : S1x256.Idx → EReal) (n : Fin 51200) (j : Fin 256) :
    affineAt A X Wl Wr b n j
      = ((∑ k : Fin 256, A (ix2 n k) * Wl (ix2 j k)) + b (ix2 0 j)) + ∑ k : Fin 256, X (ix2 n k) * Wr (ix2 j k) := rfl

theorem combine5_final (V : (c : Dev nD) → (b : Ref sig .tc) → Buf (Elt Ideal) ((c : Thread nD τ).loc b)) (c : Dev nD) (n : Fin 51200) (j : Fin 256) :
    ((Cert.KernelIdeal.Reg.dat5 (F := Ideal) V c).arrAt 5 cfg5.N : S51200x256.Idx → EReal) (ix2 n j)
      = affineAt (V c main_v28) (V c main_v22) (V c main_arg5) (V c main_arg7) (V c main_v29) n j :=
  congrFun (final_affine V c) (ix2 n j)

end Cert.KernelIdeal.Val

end
-- ==== Proof.LibRowOps.lean ====
import Idealize.ShloMosaic.PureOps.Ideal
import Idealize.ShloMosaic.Lib.ValueIdx

noncomputable section

namespace Cert.LibRowOps

open Idealize.ShloMosaic Idealize.ShloMosaic.ValueIdx

def clampRow (N : Nat) (hN : 0 < N) (z : Int) : Fin N := ⟨(min (max z 0) ((N - 1 : Nat) : Int)).toNat, by omega⟩

theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

end Cert.LibRowOps

end
-- ==== Proof.ValHost.lean ====
import proofs.«417335_j4861902979554_2_alg».proof.Proof.Gen.KernelIdeal.Launch
import proofs.«417335_j4861902979554_2_alg».proof.Proof.LibRowOps
import Idealize.ShloMosaic.Lib.ValueLayout
import Idealize.ShloMosaic.Lib.KernelVsHost

noncomputable section

namespace Cert.KernelIdeal.Val

open Cert.KernelIdeal Cert.KernelIdeal.Gen Idealize.ShloMosaic Idealize.ShloMosaic.ValueIdx

section Pads
variable {α : Type}

theorem pad1_apply {n hi m : Nat} (x : (⟨1, ![n]⟩ : Shape).Idx → α) {u : Shape} (v : u.Idx → α)
    (h : (⟨1, ![n]⟩ : Shape).Pads ![0] ![hi] ![0] ⟨1, ![m]⟩) (hu : 0 < u.numel) (j : Fin m) :
    pad ⟨1, ![m]⟩ ![0] ![hi] ![0] x v h hu (ix1 j)
      = if hj : j.val < n then x (ix1 ⟨j.val, hj⟩) else v (Shape.Idx.first hu) := by
  by_cases hj : j.val < n
  · rw [dif_pos hj]
    exact pad_apply_of_inside _ _ _ x v h hu (ix1 j) (ix1 ⟨j.val, hj⟩) (fun a => by
      match a with
      | ⟨0, _⟩ => show j.val = 0 + j.val * (0 + 1); omega)
  · rw [dif_neg hj]
    exact pad_apply_of_not_inside _ _ _ x v h hu (ix1 j) 0 (fun hin => hj (by
      have h3 : (j.val - 0) / (0 + 1) < n := hin.2.2
      rw [Nat.sub_zero, Nat.zero_add, Nat.div_one] at h3
      exact h3))

theorem pad2_rows_apply {n c hi m : Nat} (x : (⟨2, ![n, c]⟩ : Shape).Idx → α) {u : Shape} (v : u.Idx → α)
    (h : (⟨2, ![n, c]⟩ : Shape).Pads ![0, 0] ![hi, 0] ![0, 0] ⟨2, ![m, c]⟩) (hu : 0 < u.numel) (j : Fin m) (k : Fin c) :
    pad ⟨2, ![m, c]⟩ ![0, 0] ![hi, 0] ![0, 0] x v h hu (ix2 j k)
      = if hj : j.val < n then x (ix2 ⟨j.val, hj⟩ k) else v (Shape.Idx.first hu) := by
  by_cases hj : j.val < n
  · rw [dif_pos hj]
    exact pad_apply_of_inside _ _ _ x v h hu (ix2 j k) (ix2 ⟨j.val, hj⟩ k) (fun a => by
      match a with
      | ⟨0, _⟩ => show j.val = 0 + j.val * (0 + 1); omega
      | ⟨1, _⟩ => show k.val = 0 + k.val * (0 + 1); omega)
  · rw [dif_neg hj]
    exact pad_apply_of_not_inside _ _ _ x v h hu (ix2 j k) 0 (fun hin => hj (by
      have h3 : (j.val - 0) / (0 + 1) < n := hin.2.2
      rw [Nat.sub_zero, Nat.zero_add, Nat.div_one] at h3
      exact h3))

end Pads

section Casts
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Casts

theorem host6_out (W : Valuation τ sig (Elt Ideal)) (n : Fin 50000) (j : Fin 256) :
    (StableHlo.after hostOps6 W (Proc.devRef .tc main_v31) : S50000x256.Idx → EReal) (ix2 n j)
      = (W (Proc.devRef .tc main_v30) : S51200x256.Idx → EReal) (ix2 ⟨n.val, by omega⟩ j) := by
  have e : (StableHlo.after hostOps6 W (Proc.devRef .tc main_v31) : S50000x256.Idx → EReal)
      = extractStridedSlice S50000x256 ![0, 0] (W (Proc.devRef .tc main_v30) : S51200x256.Idx → EReal)
          slices_S51200x256_S50000x256_0_0 := by
    dsimp only [hostOps6]; after_results
  rw [e]
  exact slice2_axis0_apply 0 _ _ n j _ (by simp)

theorem one_f32 : (Ideal.ofBits .f32 0x3F800000#32 : EReal) = 1 := by
  simp [Ideal.ofBits, Ideal.ieee, -EReal.coe_mul]; norm_num

theorem bcast_col_apply (x : S51200x1.Idx → EReal) (n : Fin 51200) (k : Fin 256) :
    broadcastInDim S51200x256 ![0, 1] bcast_S51200x1_S51200x256_0_1 x (ix2 n k) = x (ix2 n 0) :=
  broadcastInDim_apply _ bcast_S51200x1_S51200x256_0_1 _ (ix2 n k) (ix2 n 0) (fun a => by
    match a with
    | ⟨0, _⟩ => exact (if_neg (show ¬ (51200 : ℕ) = 1 by decide)).symm
    | ⟨1, _⟩ => exact (if_pos rfl).symm)

theorem host2_mean (W : Valuation τ sig (Elt Ideal)) (n : Fin 51200) (k : Fin 256) :
    (StableHlo.after hostOps2 W (Proc.devRef .tc main_v20) : S51200x256.Idx → EReal) (ix2 n k)
      = Ideal.div ((W (Proc.devRef .tc main_v16) : S51200x256.Idx → EReal) (ix2 n k))
          (max ((W (Proc.devRef .tc main_v9) : S51200x1.Idx → EReal) (ix2 n 0)) 1) := by
  have e : (StableHlo.after hostOps2 W (Proc.devRef .tc main_v20) : S51200x256.Idx → EReal)
      = Host.divf (W (Proc.devRef .tc main_v16) : S51200x256.Idx → EReal)
          (broadcastInDim S51200x256 ![0, 1] bcast_S51200x1_S51200x256_0_1
            (maximumf (W (Proc.devRef .tc main_v9) : S51200x1.Idx → EReal)
              (broadcastInDim S51200x1 ![] bcast_S_S51200x1 (constant (F := Ideal) S_ .f32 0x3F800000#32)))) := by
    dsimp only [hostOps2]; after_results; try rfl
  rw [e]
  show Ideal.div _ _ = _
  congr 1
  rw [bcast_col_apply, maximumf_apply,
    broadcastInDim_apply _ bcast_S_S51200x1 _ (ix2 n 0) ix0 (fun a => a.elim0), constant_apply, one_f32]

theorem host2_bias (W : Valuation τ sig (Elt Ideal)) (j : Fin 256) :
    (StableHlo.after hostOps2 W (Proc.devRef .tc main_v21) : S1x256.Idx → EReal) (ix2 0 j)
      = (W (Proc.devRef .tc main_arg3) : S256.Idx → EReal) (ix1 j) := by
  have e : (StableHlo.after hostOps2 W (Proc.devRef .tc main_v21) : S1x256.Idx → EReal)
      = shapeCast S1x256 (W (Proc.devRef .tc main_arg3) : S256.Idx → EReal) shapeCasts_S256_S1x256 := by
    dsimp only [hostOps2]; after_results; try rfl
  rw [e]
  exact shapeCast_a_1a_apply _ _ 0 j

theorem host5_mean (W : Valuation τ sig (Elt Ideal)) (n : Fin 51200) (k : Fin 256) :
    (StableHlo.after hostOps5 W (Proc.devRef .tc main_v28) : S51200x256.Idx → EReal) (ix2 n k)
      = Ideal.div ((W (Proc.devRef .tc main_v24) : S51200x256.Idx → EReal) (ix2 n k))
          (max ((W (Proc.devRef .tc main_v9) : S51200x1.Idx → EReal) (ix2 n 0)) 1) := by
  have e : (StableHlo.after hostOps5 W (Proc.devRef .tc main_v28) : S51200x256.Idx → EReal)
      = Host.divf (W (Proc.devRef .tc main_v24) : S51200x256.Idx → EReal)
          (broadcastInDim S51200x256 ![0, 1] bcast_S51200x1_S51200x256_0_1
            (maximumf (W (Proc.devRef .tc main_v9) : S51200x1.Idx → EReal)
              (broadcastInDim S51200x1 ![] bcast_S_S51200x1 (constant (F := Ideal) S_ .f32 0x3F800000#32)))) := by
    dsimp only [hostOps5]; after_results; try rfl
  rw [e]
  show Ideal.div _ _ = _
  congr 1
  rw [bcast_col_apply, maximumf_apply,
    broadcastInDim_apply _ bcast_S_S51200x1 _ (ix2 n 0) ix0 (fun a => a.elim0), constant_apply, one_f32]

theorem host5_bias (W : Valuation τ sig (Elt Ideal)) (j : Fin 256) :
    (StableHlo.after hostOps5 W (Proc.devRef .tc main_v29) : S1x256.Idx → EReal) (ix2 0 j)
      = (W (Proc.devRef .tc main_arg6) : S256.Idx → EReal) (ix1 j) := by
  have e : (StableHlo.after hostOps5 W (Proc.devRef .tc main_v29) : S1x256.Idx → EReal)
      = shapeCast S1x256 (W (Proc.devRef .tc main_arg6) : S256.Idx → EReal) shapeCasts_S256_S1x256 := by
    dsimp only [hostOps5]; after_results; try rfl
  rw [e]
  exact shapeCast_a_1a_apply _ _ 0 j

theorem host_c (W : Valuation τ sig (Elt Ideal)) :
    (StableHlo.after hostOps0_2 W (Proc.devRef .tc main_c) : S_.Idx → BitVec 32) = fun _ => 0#32 := by
  dsimp only [hostOps0_2]; after_results; try rfl

theorem host_c_2 (W : Valuation τ sig (Elt Ideal)) :
    (StableHlo.after hostOps0_4 W (Proc.devRef .tc main_c_2) : S_.Idx → BitVec 32) = fun _ => 51199#32 := by
  dsimp only [hostOps0_4]; after_results; try rfl

theorem host_c_3 (W : Valuation τ sig (Elt Ideal)) :
    (StableHlo.after hostOps0_6 W (Proc.devRef .tc main_c_3) : S_.Idx → BitVec 32) = fun _ => 0#32 := by
  dsimp only [hostOps0_6]; after_results; try rfl

theorem host_cst_1 (W : Valuation τ sig (Elt Ideal)) :
    (StableHlo.after hostOps0 W (Proc.devRef .tc main_cst_1) : S_.Idx → EReal) = fun _ => (1 : EReal) := by
  have e : (StableHlo.after hostOps0 W (Proc.devRef .tc main_cst_1) : S_.Idx → EReal)
      = constant (F := Ideal) S_ .f32 0x3F800000#32 := by
    dsimp only [hostOps0]; after_results; try rfl
  rw [e]; funext i; rw [constant_apply, one_f32]

theorem host_xpad (W : Valuation τ sig (Elt Ideal))
    (hc : (W (Proc.devRef .tc main_c_3) : S_.Idx → BitVec 32) = fun _ => 0#32) (n : Fin 51200) (k : Fin 256) :
    (StableHlo.after hostOps0_7 W (Proc.devRef .tc main_v14) : S51200x256.Idx → EReal) (ix2 n k)
      = if h : n.val < 50000 then (W (Proc.devRef .tc main_arg0) : S50000x256.Idx → EReal) (ix2 ⟨n.val, h⟩ k)
        else (0 : EReal) := by
  have e : (StableHlo.after hostOps0_7 W (Proc.devRef .tc main_v14) : S51200x256.Idx → EReal)
      = pad S51200x256 ![0, 0] ![1200, 0] ![0, 0] (W (Proc.devRef .tc main_arg0) : S50000x256.Idx → EReal)
          (sitofp (F := Ideal) .f32 (W (Proc.devRef .tc main_c_3) : S_.Idx → BitVec 32))
          pads_S50000x256_S51200x256_012000_000 h_S_ := by
    dsimp only [hostOps0_7]
    after_results_simp <;> (try simp only [StableHlo.TRef.ofBuf, StableHlo.TRef.toBuf, cast_eq]) <;> rfl
  rw [e, pad2_rows_apply, hc]
  refine dite_congr rfl (fun _ => rfl) (fun _ => ?_)
  exact sitofp_zero (φ := .f32)

theorem host_srcpad (W : Valuation τ sig (Elt Ideal))
    (hc : (W (Proc.devRef .tc main_c) : S_.Idx → BitVec 32) = fun _ => 0#32) (e : Fin 800768) :
    (StableHlo.after hostOps0_4 (StableHlo.after hostOps0_3 W) (Proc.devRef .tc main_v11) : S800768x1.Idx → BitVec 32)
        (ix2 e 0)
      = if h : e.val < 800000 then (W (Proc.devRef .tc main_v1) : S800000.Idx → BitVec 32) (ix1 ⟨e.val, h⟩)
        else 0#32 := by
  have e1 : (StableHlo.after hostOps0_3 W (Proc.devRef .tc main_v10) : S800768.Idx → BitVec 32)
      = pad S800768 ![0] ![768] ![0] (W (Proc.devRef .tc main_v1) : S800000.Idx → BitVec 32)
          (W (Proc.devRef .tc main_c) : S_.Idx → BitVec 32) pads_S800000_S800768_07680 h_S_ := by
    dsimp only [hostOps0_3]
    after_results_simp <;> (try simp only [StableHlo.TRef.ofBuf, StableHlo.TRef.toBuf, cast_eq]) <;> rfl
  have e2 : ∀ W' : Valuation τ sig (Elt Ideal),
      (StableHlo.after hostOps0_4 W' (Proc.devRef .tc main_v11) : S800768x1.Idx → BitVec 32)
        = shapeCast S800768x1 (W' (Proc.devRef .tc main_v10) : S800768.Idx → BitVec 32)
            shapeCasts_S800768_S800768x1 := by
    intro W'; dsimp only [hostOps0_4]; after_results; try rfl
  rw [e2, e1, shapeCast_a_a1_apply, pad1_apply, hc]

theorem host_dstpad (W : Valuation τ sig (Elt Ideal))
    (hc : (W (Proc.devRef .tc main_c_2) : S_.Idx → BitVec 32) = fun _ => 51199#32) (e : Fin 800768) :
    (StableHlo.after hostOps0_6 (StableHlo.after hostOps0_5 W) (Proc.devRef .tc main_v13) : S1x800768.Idx → BitVec 32)
        (ix2 0 e)
      = if h : e.val < 800000 then (W (Proc.devRef .tc main_v3) : S800000.Idx → BitVec 32) (ix1 ⟨e.val, h⟩)
        else 51199#32 := by
  have e1 : (StableHlo.after hostOps0_5 W (Proc.devRef .tc main_v12) : S800768.Idx → BitVec 32)
      = pad S800768 ![0] ![768] ![0] (W (Proc.devRef .tc main_v3) : S800000.Idx → BitVec 32)
          (W (Proc.devRef .tc main_c_2) : S_.Idx → BitVec 32) pads_S800000_S800768_07680 h_S_ := by
    dsimp only [hostOps0_5]
    after_results_simp <;> (try simp only [StableHlo.TRef.ofBuf, StableHlo.TRef.toBuf, cast_eq]) <;> rfl
  have e2 : ∀ W' : Valuation τ sig (Elt Ideal),
      (StableHlo.after hostOps0_6 W' (Proc.devRef .tc main_v13) : S1x800768.Idx → BitVec 32)
        = shapeCast S1x800768 (W' (Proc.devRef .tc main_v12) : S800768.Idx → BitVec 32)
            shapeCasts_S800768_S1x800768 := by
    intro W'; dsimp only [hostOps0_6]; after_results; try rfl
  rw [e2, e1, shapeCast_a_1a_apply, pad1_apply, hc]

theorem host_cntpad (W : Valuation τ sig (Elt Ideal))
    (hc : (W (Proc.devRef .tc main_cst_1) : S_.Idx → EReal) = fun _ => (1 : EReal)) (n : Fin 51200) :
    (StableHlo.after hostOps0_2 (StableHlo.after hostOps0_1 W) (Proc.devRef .tc main_v9) : S51200x1.Idx → EReal)
        (ix2 n 0)
      = if h : n.val < 50000 then (W (Proc.devRef .tc main_v7) : S50000.Idx → EReal) (ix1 ⟨n.val, h⟩)
        else (1 : EReal) := by
  have e1 : (StableHlo.after hostOps0_1 W (Proc.devRef .tc main_v8) : S51200.Idx → EReal)
      = pad S51200 ![0] ![1200] ![0] (W (Proc.devRef .tc main_v7) : S50000.Idx → EReal)
          (W (Proc.devRef .tc main_cst_1) : S_.Idx → EReal) pads_S50000_S51200_012000 h_S_ := by
    dsimp only [hostOps0_1]
    after_results_simp <;> (try simp only [StableHlo.TRef.ofBuf, StableHlo.TRef.toBuf, cast_eq]) <;> rfl
  have e2 : ∀ W' : Valuation τ sig (Elt Ideal),
      (StableHlo.after hostOps0_2 W' (Proc.devRef .tc main_v9) : S51200x1.Idx → EReal)
        = shapeCast S51200x1 (W' (Proc.devRef .tc main_v8) : S51200.Idx → EReal) shapeCasts_S51200_S51200x1 := by
    intro W'; dsimp only [hostOps0_2]; after_results; try rfl
  rw [e2, e1, shapeCast_a_a1_apply, pad1_apply, hc]

theorem host0_src (W : Valuation τ sig (Elt Ideal)) (e : Fin 800000) :
    (StableHlo.after hostOps0 W (Proc.devRef .tc main_v1) : S800000.Idx → BitVec 32) (ix1 e)
      = (W (Proc.devRef .tc main_arg1) : S2x800000.Idx → BitVec 32) (ix2 0 e) := by
  have h : (StableHlo.after hostOps0 W (Proc.devRef .tc main_v1) : S800000.Idx → BitVec 32)
      = shapeCast S800000 (extractStridedSlice S1x800000 ![0, 0]
          (W (Proc.devRef .tc main_arg1) : S2x800000.Idx → BitVec 32) slices_S2x800000_S1x800000_0_0)
          shapeCasts_S1x800000_S800000 := by
    dsimp only [hostOps0]; after_results; try rfl
  rw [h, shapeCast_1a_a_apply]
  exact slice2_axis0_apply 0 _ _ 0 e 0 rfl

theorem host0_dst (W : Valuation τ sig (Elt Ideal)) (e : Fin 800000) :
    (StableHlo.after hostOps0 W (Proc.devRef .tc main_v3) : S800000.Idx → BitVec 32) (ix1 e)
      = (W (Proc.devRef .tc main_arg1) : S2x800000.Idx → BitVec 32) (ix2 1 e) := by
  have h : (StableHlo.after hostOps0 W (Proc.devRef .tc main_v3) : S800000.Idx → BitVec 32)
      = shapeCast S800000 (extractStridedSlice S1x800000 ![1, 0]
          (W (Proc.devRef .tc main_arg1) : S2x800000.Idx → BitVec 32) slices_S2x800000_S1x800000_1_0)
          shapeCasts_S1x800000_S800000 := by
    dsimp only [hostOps0]; after_results; try rfl
  rw [h, shapeCast_1a_a_apply]
  exact slice2_axis0_apply 1 _ _ 0 e 1 rfl

theorem host0_cnt (W : Valuation τ sig (Elt Ideal)) (n : Fin 50000) :
    (StableHlo.after hostOps0 W (Proc.devRef .tc main_v7) : S50000.Idx → EReal) (ix1 n)
      = (∑ e : Fin 800000,
          if ((W (Proc.devRef .tc main_arg1) : S2x800000.Idx → BitVec 32) (ix2 1 e)).toInt = (n.val : ℤ)
          then (1 : EReal) else 0 : EReal) := by
  have h : (StableHlo.after hostOps0 W (Proc.devRef .tc main_v7) : S50000.Idx → EReal)
      = Ideal.hostScatterAdd scatter_S50000_S800000x1_S800000_n_0_0_1
          (broadcastInDim S50000 ![] bcast_S_S50000 (constant (F := Ideal) S_ .f32 0x00000000#32))
          (broadcastInDim S800000x1 ![0] bcast_S800000_S800000x1_0
            (shapeCast S800000 (extractStridedSlice S1x800000 ![1, 0]
              (W (Proc.devRef .tc main_arg1) : S2x800000.Idx → BitVec 32) slices_S2x800000_S1x800000_1_0)
              shapeCasts_S1x800000_S800000))
          (broadcastInDim S800000 ![] bcast_S_S800000 (constant (F := Ideal) S_ .f32 0x3F800000#32)) := by
    dsimp only [hostOps0]; after_results; try rfl
  rw [h, Cert.LibRowOps.scatterAdd_vec_apply _ rfl rfl rfl rfl,
    broadcastInDim_apply _ bcast_S_S50000 _ (ix1 n) ix0 (fun a => a.elim0), constant_apply, Ideal.ofBits_zero_f32,
    zero_add]
  change (_ : EReal) = _
  refine Finset.sum_congr rfl fun e _ => ?_
  rw [broadcastInDim_apply _ bcast_S_S800000 _ (ix1 e) ix0 (fun a => a.elim0), constant_apply, one_f32,
    broadcastInDim_apply _ bcast_S800000_S800000x1_0 _ (ix2 e 0) (ix1 e) (fun a => by
      match a with
      | ⟨0, _⟩ => exact (if_neg (show ¬ (800000 : ℕ) = 1 by decide)).symm),
    shapeCast_1a_a_apply, slice2_axis0_apply 1 _ _ 0 e 1 rfl]

end Cert.KernelIdeal.Val

end
-- ==== Proof.Spec.lean ====
import Idealize.ShloMosaic.PureOps.Ideal
import Idealize.ShloMosaic.Lib.ValueIdx

noncomputable section

namespace Cert.Sage

open Idealize.ShloMosaic

def layer (r : Fin 800000 → Fin 50000) (d : Fin 800000 → ℤ) (X : Fin 50000 → Fin 256 → EReal)
    (Wl : Fin 256 → Fin 256 → EReal) (b : Fin 256 → EReal) (Wr : Fin 256 → Fin 256 → EReal) :
    Fin 50000 → Fin 256 → EReal := fun n j =>
  ((∑ k : Fin 256,
        Ideal.div (∑ e : Fin 800000, if d e = (n.val : ℤ) then X (r e) k else 0)
          (max (∑ e : Fin 800000, if d e = (n.val : ℤ) then (1 : EReal) else 0) 1) * Wl j k)
      + b j)
    + ∑ k : Fin 256, X n k * Wr j k

def net (r : Fin 800000 → Fin 50000) (d : Fin 800000 → ℤ) (X : Fin 50000 → Fin 256 → EReal)
    (W1l : Fin 256 → Fin 256 → EReal) (b1 : Fin 256 → EReal) (W1r : Fin 256 → Fin 256 → EReal)
    (W2l : Fin 256 → Fin 256 → EReal) (b2 : Fin 256 → EReal) (W2r : Fin 256 → Fin 256 → EReal) :
    Fin 50000 → Fin 256 → EReal :=
  layer r d (fun n j => max (layer r d X W1l b1 W1r n j) 0) W2l b2 W2r

def srcRow (z : ℤ) (h : 0 ≤ z ∧ z < 50000) : Fin 50000 := ⟨z.toNat, by omega⟩

end Cert.Sage

end
-- ==== Proof.LayerMath.lean ====
import proofs.«417335_j4861902979554_2_alg».proof.Proof.Spec
import Idealize.ShloMosaic.PureOps.Ideal
import Mathlib.Data.BitVec
import Mathlib.Data.EReal.Basic
import Mathlib.Algebra.BigOperators.Fin
import Mathlib.Algebra.BigOperators.Group.Finset.Basic

noncomputable section

namespace Cert.Sage

open Idealize.ShloMosaic

def klayer (idx dsts : Fin 800768 → BitVec 32) (cntp : Fin 51200 → EReal) (T : Fin 51200 → Fin 256 → EReal)
    (Wl : Fin 256 → Fin 256 → EReal) (b : Fin 256 → EReal) (Wr : Fin 256 → Fin 256 → EReal) :
    Fin 51200 → Fin 256 → EReal := fun n j =>
  ((∑ k : Fin 256,
        Ideal.div (∑ e : Fin 800768, (if dsts e = BitVec.ofNat 32 n.val then (1 : EReal) else 0)
                      * ∑ s : Fin 51200, (if idx e = BitVec.ofNat 32 s.val then (1 : EReal) else 0) * T s k)
          (max (cntp n) 1) * Wl j k)
      + b j)
    + ∑ k : Fin 256, T n k * Wr j k

theorem toInt_ofNat_small (s : ℕ) (hs : s < 2147483648) : (BitVec.ofNat 32 s).toInt = (s : ℤ) := by
  rw [BitVec.toInt_ofNat', Int.bmod_def]
  omega

theorem word_eq_ofNat_iff (w : BitVec 32) (s : ℕ) (hs : s < 2147483648) :
    w = BitVec.ofNat 32 s ↔ w.toInt = (s : ℤ) := by
  constructor
  · intro h
    rw [h, toInt_ofNat_small s hs]
  · intro h
    apply BitVec.eq_of_toInt_eq
    rw [h, toInt_ofNat_small s hs]

theorem gather_row (T : Fin 51200 → Fin 256 → EReal) (w : BitVec 32) (h : 0 ≤ w.toInt ∧ w.toInt < 50000)
    (k : Fin 256) :
    (∑ s : Fin 51200, (if w = BitVec.ofNat 32 s.val then (1 : EReal) else 0) * T s k)
      = T ⟨w.toInt.toNat, by omega⟩ k := by
  rw [Finset.sum_eq_single (⟨w.toInt.toNat, by omega⟩ : Fin 51200)]
  · have hw : w = BitVec.ofNat 32 w.toInt.toNat := by
      rw [word_eq_ofNat_iff w w.toInt.toNat (by omega)]
      omega
    rw [if_pos hw, one_mul]
  · intro s _ hs
    have hne : ¬ w = BitVec.ofNat 32 s.val := by
      intro heq
      rw [word_eq_ofNat_iff w s.val (by have := s.isLt; omega)] at heq
      apply hs
      apply Fin.ext
      show s.val = w.toInt.toNat
      omega
    rw [if_neg hne, zero_mul]
  · intro hmem
    exact absurd (Finset.mem_univ _) hmem

theorem sum_fin_of_zero_above {N m : ℕ} (hmN : m ≤ N) (f : Fin N → EReal)
    (hz : ∀ e : Fin N, m ≤ e.val → f e = 0) :
    ∑ e : Fin N, f e = ∑ e : Fin m, f ⟨e.val, lt_of_lt_of_le e.isLt hmN⟩ := by
  obtain ⟨p, rfl⟩ := Nat.exists_eq_add_of_le hmN
  rw [Fin.sum_univ_add]
  have htail : ∑ i : Fin p, f (Fin.natAdd m i) = 0 := by
    apply Finset.sum_eq_zero
    intro i _
    apply hz
    show m ≤ m + i.val
    omega
  rw [htail, add_zero]
  rfl

theorem aggregate_real (ei0 ei1 : Fin 800000 → BitVec 32)
    (hr : ∀ e, 0 ≤ (ei0 e).toInt ∧ (ei0 e).toInt < 50000)
    (idx dsts : Fin 800768 → BitVec 32)
    (hidx : ∀ e : Fin 800768, idx e = if h : e.val < 800000 then ei0 ⟨e.val, h⟩ else 0#32)
    (hdst : ∀ e : Fin 800768, dsts e = if h : e.val < 800000 then ei1 ⟨e.val, h⟩ else 51199#32)
    (T : Fin 51200 → Fin 256 → EReal) (m : Fin 51200) (hm : m.val < 50000) (k : Fin 256) :
    (∑ e : Fin 800768, (if dsts e = BitVec.ofNat 32 m.val then (1 : EReal) else 0)
        * ∑ s : Fin 51200, (if idx e = BitVec.ofNat 32 s.val then (1 : EReal) else 0) * T s k)
      = ∑ e : Fin 800000,
          if (ei1 e).toInt = (m.val : ℤ) then T ⟨(ei0 e).toInt.toNat, by have := hr e; omega⟩ k else 0 := by
  rw [sum_fin_of_zero_above (N := 800768) (m := 800000) (by omega)]
  · refine Finset.sum_congr rfl (fun e _ => ?_)
    have he : e.val < 800000 := e.isLt
    have hd : dsts ⟨e.val, lt_of_lt_of_le e.isLt (by omega)⟩ = ei1 e := by
      rw [hdst]; exact dif_pos he
    have hi : idx ⟨e.val, lt_of_lt_of_le e.isLt (by omega)⟩ = ei0 e := by
      rw [hidx]; exact dif_pos he
    rw [hd, hi]
    by_cases hc : (ei1 e).toInt = (m.val : ℤ)
    · have hw : ei1 e = BitVec.ofNat 32 m.val := (word_eq_ofNat_iff _ _ (by omega)).mpr hc
      rw [if_pos hw, if_pos hc, one_mul, gather_row T (ei0 e) (hr e) k]
    · have hw : ¬ ei1 e = BitVec.ofNat 32 m.val := fun h => hc ((word_eq_ofNat_iff _ _ (by omega)).mp h)
      rw [if_neg hw, if_neg hc, zero_mul]
  · intro e he
    have hd : dsts e = 51199#32 := by
      rw [hdst]; exact dif_neg (by omega)
    have hne : ¬ dsts e = BitVec.ofNat 32 m.val := by
      rw [hd]
      intro heq
      rw [word_eq_ofNat_iff _ _ (by omega), toInt_ofNat_small 51199 (by omega)] at heq
      omega
    rw [if_neg hne, zero_mul]

theorem klayer_eq_layer (ei0 ei1 : Fin 800000 → BitVec 32)
    (hr : ∀ e, 0 ≤ (ei0 e).toInt ∧ (ei0 e).toInt < 50000)
    (idx dsts : Fin 800768 → BitVec 32)
    (hidx : ∀ e : Fin 800768, idx e = if h : e.val < 800000 then ei0 ⟨e.val, h⟩ else 0#32)
    (hdst : ∀ e : Fin 800768, dsts e = if h : e.val < 800000 then ei1 ⟨e.val, h⟩ else 51199#32)
    (cntp : Fin 51200 → EReal)
    (hcnt : ∀ n : Fin 51200, cntp n = if h : n.val < 50000 then ∑ e : Fin 800000, (if (ei1 e).toInt = (n.val : ℤ) then (1 : EReal) else 0) else 1)
    (T : Fin 51200 → Fin 256 → EReal) (Wl : Fin 256 → Fin 256 → EReal) (b : Fin 256 → EReal) (Wr : Fin 256 → Fin 256 → EReal)
    (n : Fin 50000) (j : Fin 256) :
    klayer idx dsts cntp T Wl b Wr ⟨n.val, by omega⟩ j
      = layer (fun e => srcRow (ei0 e).toInt (hr e)) (fun e => (ei1 e).toInt) (fun n k => T ⟨n.val, by omega⟩ k) Wl b Wr n j := by
  have hn : n.val < 50000 := n.isLt
  have hc : cntp ⟨n.val, by omega⟩
      = ∑ e : Fin 800000, (if (ei1 e).toInt = (n.val : ℤ) then (1 : EReal) else 0) := by
    rw [hcnt]; exact dif_pos hn
  have ha : ∀ k : Fin 256,
      (∑ e : Fin 800768, (if dsts e = BitVec.ofNat 32 n.val then (1 : EReal) else 0)
          * ∑ s : Fin 51200, (if idx e = BitVec.ofNat 32 s.val then (1 : EReal) else 0) * T s k)
        = ∑ e : Fin 800000,
            if (ei1 e).toInt = (n.val : ℤ) then T ⟨(ei0 e).toInt.toNat, by have := hr e; omega⟩ k else 0 :=
    fun k => aggregate_real ei0 ei1 hr idx dsts hidx hdst T ⟨n.val, by omega⟩ hn k
  show ((∑ k : Fin 256,
          Ideal.div (∑ e : Fin 800768, (if dsts e = BitVec.ofNat 32 n.val then (1 : EReal) else 0)
                        * ∑ s : Fin 51200, (if idx e = BitVec.ofNat 32 s.val then (1 : EReal) else 0) * T s k)
            (max (cntp ⟨n.val, by omega⟩) 1) * Wl j k)
        + b j)
      + ∑ k : Fin 256, T ⟨n.val, by omega⟩ k * Wr j k
    = ((∑ k : Fin 256,
          Ideal.div (∑ e : Fin 800000,
                        if (ei1 e).toInt = (n.val : ℤ) then T ⟨(ei0 e).toInt.toNat, by have := hr e; omega⟩ k else 0)
            (max (∑ e : Fin 800000, if (ei1 e).toInt = (n.val : ℤ) then (1 : EReal) else 0) 1) * Wl j k)
        + b j)
      + ∑ k : Fin 256, T ⟨n.val, by omega⟩ k * Wr j k
  rw [hc]
  simp only [ha]

end Cert.Sage

end
-- ==== Proof.RefValue.lean ====
import proofs.«417335_j4861902979554_2_alg».proof.Proof.Gen.ReferenceIdeal.Read
import proofs.«417335_j4861902979554_2_alg».proof.Proof.Spec
import proofs.«417335_j4861902979554_2_alg».proof.Proof.LibRowOps
import Idealize.ShloMosaic.Lib.IdealHost

noncomputable section

namespace Cert.ReferenceIdeal.RefValue

open Cert.ReferenceIdeal Cert.ReferenceIdeal.Read Idealize.ShloMosaic Idealize.ShloMosaic.ValueIdx

theorem norm_nonneg (v : BitVec 32) (h : 0 ≤ v.toInt) :
    Scalar.select (IntOp.cmpi .slt v 0#32) (IntOp.addi v 50000#32) v = v := by
  have hb : IntOp.cmpi .slt v 0#32 = 0#1 := by
    show BitVec.ofBool (v.slt 0#32) = 0#1
    have : v.slt 0#32 = false := by
      rw [BitVec.slt_eq_decide]
      simp only [BitVec.toInt_zero, decide_eq_false_iff_not, not_lt]
      exact h
    rw [this]; rfl
  rw [hb, select_zero]

theorem idx_src (e : Fin 800000) : idx_main_v0 (idx_main_v1 (ix1 e)) = ix2 0 e := by
  funext a
  refine Fin.ext ?_
  match a with
  | ⟨0, _⟩ => rfl
  | ⟨1, _⟩ => exact Nat.mod_eq_of_lt e.isLt

theorem idx_dst (e : Fin 800000) : idx_main_v2 (idx_main_v3 (ix1 e)) = ix2 1 e := by
  funext a
  refine Fin.ext ?_
  match a with
  | ⟨0, _⟩ => rfl
  | ⟨1, _⟩ => exact Nat.mod_eq_of_lt e.isLt

theorem idx_col9 (e : Fin 800000) : idx_main_v9 (ix2 e 0) = ix1 e := by
  funext a; match a with | ⟨0, _⟩ => rfl
theorem idx_col37 (e : Fin 800000) : idx_main_v37 (ix2 e 0) = ix1 e := by
  funext a; match a with | ⟨0, _⟩ => rfl
theorem idx_col12 (e : Fin 800000) : idx_main_v12 (ix2 e 0) = ix1 e := by
  funext a; match a with | ⟨0, _⟩ => rfl
theorem idx_col16 (e : Fin 800000) : idx_main_v16 (ix2 e 0) = ix1 e := by
  funext a; match a with | ⟨0, _⟩ => rfl
theorem idx_col40 (e : Fin 800000) : idx_main_v40 (ix2 e 0) = ix1 e := by
  funext a; match a with | ⟨0, _⟩ => rfl
theorem idx_col44 (e : Fin 800000) : idx_main_v44 (ix2 e 0) = ix1 e := by
  funext a; match a with | ⟨0, _⟩ => rfl

theorem v1_at (x1 : (⟨S2x800000, .i32⟩ : BufTy).Contents (Elt Ideal)) (e : Fin 800000) :
    val_main_v1 (F := Ideal) x1 (ix1 e) = x1 (ix2 0 e) := by
  rw [val_main_v1_apply, val_main_v0_apply, idx_src]

theorem v3_at (x1 : (⟨S2x800000, .i32⟩ : BufTy).Contents (Elt Ideal)) (e : Fin 800000) :
    val_main_v3 (F := Ideal) x1 (ix1 e) = x1 (ix2 1 e) := by
  rw [val_main_v3_apply, val_main_v2_apply, idx_dst]

theorem v9_at (x1 : (⟨S2x800000, .i32⟩ : BufTy).Contents (Elt Ideal)) (e : Fin 800000)
    (h : 0 ≤ (x1 (ix2 0 e)).toInt) :
    val_main_v9 (F := Ideal) x1 (ix2 e 0) = x1 (ix2 0 e) := by
  rw [val_main_v9_apply, idx_col9, val_main_v8_apply, val_main_v5_apply, val_main_v7_apply, v1_at,
    val_main_v4_apply, val_main_c_apply, val_main_v6_apply, val_main_c_0_apply]
  exact norm_nonneg _ h

theorem v37_at (x1 : (⟨S2x800000, .i32⟩ : BufTy).Contents (Elt Ideal)) (e : Fin 800000)
    (h : 0 ≤ (x1 (ix2 0 e)).toInt) :
    val_main_v37 (F := Ideal) x1 (ix2 e 0) = x1 (ix2 0 e) := by
  rw [val_main_v37_apply, idx_col37, val_main_v36_apply, val_main_v33_apply, val_main_v35_apply, v1_at,
    val_main_v32_apply, val_main_c_4_apply, val_main_v34_apply, val_main_c_5_apply]
  exact norm_nonneg _ h

theorem v12_at (x1 : (⟨S2x800000, .i32⟩ : BufTy).Contents (Elt Ideal)) (e : Fin 800000) :
    val_main_v12 (F := Ideal) x1 (ix2 e 0) = x1 (ix2 1 e) := by
  rw [val_main_v12_apply, idx_col12, v3_at]
theorem v16_at (x1 : (⟨S2x800000, .i32⟩ : BufTy).Contents (Elt Ideal)) (e : Fin 800000) :
    val_main_v16 (F := Ideal) x1 (ix2 e 0) = x1 (ix2 1 e) := by
  rw [val_main_v16_apply, idx_col16, v3_at]
theorem v40_at (x1 : (⟨S2x800000, .i32⟩ : BufTy).Contents (Elt Ideal)) (e : Fin 800000) :
    val_main_v40 (F := Ideal) x1 (ix2 e 0) = x1 (ix2 1 e) := by
  rw [val_main_v40_apply, idx_col40, v3_at]
theorem v44_at (x1 : (⟨S2x800000, .i32⟩ : BufTy).Contents (Elt Ideal)) (e : Fin 800000) :
    val_main_v44 (F := Ideal) x1 (ix2 e 0) = x1 (ix2 1 e) := by
  rw [val_main_v44_apply, idx_col44, v3_at]

theorem clampRow_srcRow (z : ℤ) (h : 0 ≤ z ∧ z < 50000) :
    Cert.LibRowOps.clampRow 50000 (by norm_num) z = Cert.Sage.srcRow z h := by
  refine Fin.ext ?_
  show (min (max z 0) ((50000 - 1 : Nat) : Int)).toNat = z.toNat
  omega

theorem agg_at (X Z : FVec Ideal S50000x256 .f32) (sidx didx : IVec S800000x1 32)
    (hZ : ∀ i, Z i = 0) (r : Fin 800000 → Fin 50000) (d : Fin 800000 → ℤ)
    (hs : ∀ e, Cert.LibRowOps.clampRow 50000 (by norm_num) (sidx (ix2 e 0)).toInt = r e)
    (hd : ∀ e, (didx (ix2 e 0)).toInt = d e) (n : Fin 50000) (k : Fin 256) :
    Host.scatterAdd (F := Ideal) (φ := .f32) scatter_S50000x256_S800000x1_S800000x256_1_0_0_1 Z didx
        (Host.gather gather_S50000x256_S800000x1_S800000x256_1_0_n_n_0_1_1256 X sidx) (ix2 n k)
      = ∑ e : Fin 800000, if d e = (n.val : ℤ) then X (ix2 (r e) k) else 0 := by
  refine (Cert.LibRowOps.scatterAdd_rows_apply scatter_S50000x256_S800000x1_S800000x256_1_0_0_1 rfl rfl rfl rfl
    Z didx _ n k).trans ?_
  rw [hZ, zero_add]
  refine Finset.sum_congr rfl fun e _ => ?_
  rw [hd e, Cert.LibRowOps.gather_rows_apply (by norm_num) gather_S50000x256_S800000x1_S800000x256_1_0_n_n_0_1_1256
    rfl rfl rfl rfl rfl rfl rfl X sidx e k, hs e]

theorem cnt_at (Z : FVec Ideal S50000 .f32) (O : FVec Ideal S800000 .f32) (didx : IVec S800000x1 32)
    (hZ : ∀ i, Z i = 0) (hO : ∀ i, O i = 1) (d : Fin 800000 → ℤ)
    (hd : ∀ e, (didx (ix2 e 0)).toInt = d e) (n : Fin 50000) :
    Host.scatterAdd (F := Ideal) (φ := .f32) scatter_S50000_S800000x1_S800000_n_0_0_1 Z didx O (ix1 n)
      = ∑ e : Fin 800000, if d e = (n.val : ℤ) then (1 : EReal) else 0 := by
  refine (Cert.LibRowOps.scatterAdd_vec_apply scatter_S50000_S800000x1_S800000_n_0_0_1 rfl rfl rfl rfl
    Z didx O n).trans ?_
  rw [hZ, zero_add]
  refine Finset.sum_congr rfl fun e _ => ?_
  rw [hd e, hO]

theorem v11_zero (i : S50000x256.Idx) : val_main_v11 (F := Ideal) i = 0 := by
  rw [val_main_v11_apply, val_main_cst_apply]; exact Ideal.ofBits_zero_f32
theorem v39_zero (i : S50000x256.Idx) : val_main_v39 (F := Ideal) i = 0 := by
  rw [val_main_v39_apply, val_main_cst_6_apply]; exact Ideal.ofBits_zero_f32
theorem v15_zero (i : S50000.Idx) : val_main_v15 (F := Ideal) i = 0 := by
  rw [val_main_v15_apply, val_main_cst_2_apply]; exact Ideal.ofBits_zero_f32
theorem v43_zero (i : S50000.Idx) : val_main_v43 (F := Ideal) i = 0 := by
  rw [val_main_v43_apply, val_main_cst_8_apply]; exact Ideal.ofBits_zero_f32
theorem v14_one (i : S800000.Idx) : val_main_v14 (F := Ideal) i = 1 := by
  rw [val_main_v14_apply, val_main_cst_1_apply]; exact Ideal.ofBits_one_f32
theorem v42_one (i : S800000.Idx) : val_main_v42 (F := Ideal) i = 1 := by
  rw [val_main_v42_apply, val_main_cst_7_apply]; exact Ideal.ofBits_one_f32
theorem v18_one (i : S50000.Idx) : val_main_v18 (F := Ideal) i = 1 := by
  rw [val_main_v18_apply, val_main_cst_3_apply]; exact Ideal.ofBits_one_f32
theorem v46_one (i : S50000.Idx) : val_main_v46 (F := Ideal) i = 1 := by
  rw [val_main_v46_apply, val_main_cst_9_apply]; exact Ideal.ofBits_one_f32
theorem call0_zero (i : S50000x256.Idx) : val_main_call0_v0 (F := Ideal) i = 0 := by
  rw [val_main_call0_v0_apply, val_main_call0_cst_apply]; exact Ideal.ofBits_zero_f32

theorem idx_div1 (n : Fin 50000) (k : Fin 256) : idx_main_v20 (idx_main_v21 (ix2 n k)) = ix1 n := by
  funext a; match a with | ⟨0, _⟩ => rfl
theorem idx_div2 (n : Fin 50000) (k : Fin 256) : idx_main_v48 (idx_main_v49 (ix2 n k)) = ix1 n := by
  funext a; match a with | ⟨0, _⟩ => rfl
theorem idx_bias1 (n : Fin 50000) (j : Fin 256) : idx_main_v25 (idx_main_v26 (ix2 n j)) = ix1 j := by
  funext a; match a with | ⟨0, _⟩ => rfl
theorem idx_bias2 (n : Fin 50000) (j : Fin 256) : idx_main_v53 (idx_main_v54 (ix2 n j)) = ix1 j := by
  funext a; match a with | ⟨0, _⟩ => rfl
theorem lidx24 (n : Fin 50000) (j k : Fin 256) : lidx_main_v24 (ix2 n j) k = ix2 n k := by
  funext a; match a with | ⟨0, _⟩ => rfl | ⟨1, _⟩ => rfl
theorem lidx29 (n : Fin 50000) (j k : Fin 256) : lidx_main_v29 (ix2 n j) k = ix2 n k := by
  funext a; match a with | ⟨0, _⟩ => rfl | ⟨1, _⟩ => rfl
theorem lidx52 (n : Fin 50000) (j k : Fin 256) : lidx_main_v52 (ix2 n j) k = ix2 n k := by
  funext a; match a with | ⟨0, _⟩ => rfl | ⟨1, _⟩ => rfl
theorem lidx57 (n : Fin 50000) (j k : Fin 256) : lidx_main_v57 (ix2 n j) k = ix2 n k := by
  funext a; match a with | ⟨0, _⟩ => rfl | ⟨1, _⟩ => rfl
theorem widx23 (n : Fin 50000) (j k : Fin 256) : idx_main_v23 (ridx_main_v24 (ix2 n j) k) = ix2 j k := by
  funext a; match a with | ⟨0, _⟩ => rfl | ⟨1, _⟩ => rfl
theorem widx28 (n : Fin 50000) (j k : Fin 256) : idx_main_v28 (ridx_main_v29 (ix2 n j) k) = ix2 j k := by
  funext a; match a with | ⟨0, _⟩ => rfl | ⟨1, _⟩ => rfl
theorem widx51 (n : Fin 50000) (j k : Fin 256) : idx_main_v51 (ridx_main_v52 (ix2 n j) k) = ix2 j k := by
  funext a; match a with | ⟨0, _⟩ => rfl | ⟨1, _⟩ => rfl
theorem widx56 (n : Fin 50000) (j k : Fin 256) : idx_main_v56 (ridx_main_v57 (ix2 n j) k) = ix2 j k := by
  funext a; match a with | ⟨0, _⟩ => rfl | ⟨1, _⟩ => rfl

section Layers

variable (x0 : (⟨S50000x256, .f32⟩ : BufTy).Contents (Elt Ideal)) (x1 : (⟨S2x800000, .i32⟩ : BufTy).Contents (Elt Ideal))
  (x2 : (⟨S256x256, .f32⟩ : BufTy).Contents (Elt Ideal)) (x3 : (⟨S256, .f32⟩ : BufTy).Contents (Elt Ideal))
  (x4 x5 : (⟨S256x256, .f32⟩ : BufTy).Contents (Elt Ideal)) (x6 : (⟨S256, .f32⟩ : BufTy).Contents (Elt Ideal))
  (x7 : (⟨S256x256, .f32⟩ : BufTy).Contents (Elt Ideal))
  (hr : ∀ e : Fin 800000, 0 ≤ (x1 (ix2 0 e)).toInt ∧ (x1 (ix2 0 e)).toInt < 50000)

theorem v13_at (n : Fin 50000) (k : Fin 256) :
    val_main_v13 (F := Ideal) x0 x1 (ix2 n k)
      = ∑ e : Fin 800000, if (x1 (ix2 1 e)).toInt = (n.val : ℤ)
          then x0 (ix2 (Cert.Sage.srcRow (x1 (ix2 0 e)).toInt (hr e)) k) else 0 := by
  unfold val_main_v13 val_main_v10
  exact agg_at x0 (val_main_v11 (F := Ideal)) (val_main_v9 (F := Ideal) x1) (val_main_v12 (F := Ideal) x1) v11_zero
    (fun e => Cert.Sage.srcRow (x1 (ix2 0 e)).toInt (hr e)) (fun e => (x1 (ix2 1 e)).toInt)
    (fun e => by rw [v9_at x1 e (hr e).1]; exact clampRow_srcRow _ (hr e))
    (fun e => by rw [v12_at]) n k

theorem v17_at (n : Fin 50000) :
    val_main_v17 (F := Ideal) x1 (ix1 n)
      = ∑ e : Fin 800000, if (x1 (ix2 1 e)).toInt = (n.val : ℤ) then (1 : EReal) else 0 := by
  unfold val_main_v17
  exact cnt_at (val_main_v15 (F := Ideal)) (val_main_v14 (F := Ideal)) (val_main_v16 (F := Ideal) x1) v15_zero v14_one
    (fun e => (x1 (ix2 1 e)).toInt) (fun e => by rw [v16_at]) n

theorem v45_at (n : Fin 50000) :
    val_main_v45 (F := Ideal) x1 (ix1 n)
      = ∑ e : Fin 800000, if (x1 (ix2 1 e)).toInt = (n.val : ℤ) then (1 : EReal) else 0 := by
  unfold val_main_v45
  exact cnt_at (val_main_v43 (F := Ideal)) (val_main_v42 (F := Ideal)) (val_main_v44 (F := Ideal) x1) v43_zero v42_one
    (fun e => (x1 (ix2 1 e)).toInt) (fun e => by rw [v44_at]) n

theorem v21_at (n : Fin 50000) (k : Fin 256) :
    val_main_v21 (F := Ideal) x1 (ix2 n k) = max (val_main_v17 (F := Ideal) x1 (ix1 n)) 1 := by
  rw [val_main_v21_apply, val_main_v20_apply, idx_div1, val_main_v19_apply, v18_one]
  rfl

theorem v49_at (n : Fin 50000) (k : Fin 256) :
    val_main_v49 (F := Ideal) x1 (ix2 n k) = max (val_main_v45 (F := Ideal) x1 (ix1 n)) 1 := by
  rw [val_main_v49_apply, val_main_v48_apply, idx_div2, val_main_v47_apply, v46_one]
  rfl

theorem v30_at (n : Fin 50000) (j : Fin 256) :
    val_main_v30 (F := Ideal) x0 x1 x2 x3 x4 (ix2 n j)
      = Cert.Sage.layer (fun e => Cert.Sage.srcRow (x1 (ix2 0 e)).toInt (hr e)) (fun e => (x1 (ix2 1 e)).toInt)
          (fun n k => x0 (ix2 n k)) (fun j k => x2 (ix2 j k)) (fun j => x3 (ix1 j)) (fun j k => x4 (ix2 j k)) n j := by
  rw [val_main_v30_apply, val_main_v27_apply, val_main_v24_apply, val_main_v29_apply, val_main_v26_apply,
    val_main_v25_apply, idx_bias1]
  unfold Cert.Sage.layer
  refine congrArg₂ (· + ·) (congrArg₂ (· + ·) (Finset.sum_congr rfl fun k _ => ?_) rfl)
    (Finset.sum_congr rfl fun k _ => ?_)
  · rw [lidx24, val_main_v22_apply, v13_at x0 x1 hr, v21_at, v17_at, val_main_v23_apply, widx23]
    rfl
  · rw [lidx29, val_main_v28_apply, widx28]

theorem v31_at (n : Fin 50000) (j : Fin 256) :
    val_main_v31 (F := Ideal) x0 x1 x2 x3 x4 (ix2 n j)
      = max (Cert.Sage.layer (fun e => Cert.Sage.srcRow (x1 (ix2 0 e)).toInt (hr e)) (fun e => (x1 (ix2 1 e)).toInt)
          (fun n k => x0 (ix2 n k)) (fun j k => x2 (ix2 j k)) (fun j => x3 (ix1 j)) (fun j k => x4 (ix2 j k)) n j) 0 := by
  rw [val_main_v31_apply, v30_at x0 x1 x2 x3 x4 hr, call0_zero]
  rfl

theorem v41_at (n : Fin 50000) (k : Fin 256) :
    val_main_v41 (F := Ideal) x0 x1 x2 x3 x4 (ix2 n k)
      = ∑ e : Fin 800000, if (x1 (ix2 1 e)).toInt = (n.val : ℤ)
          then val_main_v31 (F := Ideal) x0 x1 x2 x3 x4 (ix2 (Cert.Sage.srcRow (x1 (ix2 0 e)).toInt (hr e)) k) else 0 := by
  unfold val_main_v41 val_main_v38
  exact agg_at (val_main_v31 (F := Ideal) x0 x1 x2 x3 x4) (val_main_v39 (F := Ideal)) (val_main_v37 (F := Ideal) x1)
    (val_main_v40 (F := Ideal) x1) v39_zero
    (fun e => Cert.Sage.srcRow (x1 (ix2 0 e)).toInt (hr e)) (fun e => (x1 (ix2 1 e)).toInt)
    (fun e => by rw [v37_at x1 e (hr e).1]; exact clampRow_srcRow _ (hr e))
    (fun e => by rw [v40_at]) n k

theorem v58_at (n : Fin 50000) (j : Fin 256) :
    val_main_v58 (F := Ideal) x0 x1 x2 x3 x4 x5 x6 x7 (ix2 n j)
      = Cert.Sage.layer (fun e => Cert.Sage.srcRow (x1 (ix2 0 e)).toInt (hr e)) (fun e => (x1 (ix2 1 e)).toInt)
          (fun n k => val_main_v31 (F := Ideal) x0 x1 x2 x3 x4 (ix2 n k)) (fun j k => x5 (ix2 j k)) (fun j => x6 (ix1 j))
          (fun j k => x7 (ix2 j k)) n j := by
  rw [val_main_v58_apply, val_main_v55_apply, val_main_v52_apply, val_main_v57_apply, val_main_v54_apply,
    val_main_v53_apply, idx_bias2]
  unfold Cert.Sage.layer
  refine congrArg₂ (· + ·) (congrArg₂ (· + ·) (Finset.sum_congr rfl fun k _ => ?_) rfl)
    (Finset.sum_congr rfl fun k _ => ?_)
  · rw [lidx52, val_main_v50_apply, v41_at x0 x1 x2 x3 x4 hr, v49_at, v45_at, val_main_v51_apply, widx51]
    rfl
  · rw [lidx57, val_main_v56_apply, widx56]

end Layers

theorem ref_value
    (x0 : (⟨S50000x256, .f32⟩ : BufTy).Contents (Elt Ideal)) (x1 : (⟨S2x800000, .i32⟩ : BufTy).Contents (Elt Ideal))
    (x2 : (⟨S256x256, .f32⟩ : BufTy).Contents (Elt Ideal)) (x3 : (⟨S256, .f32⟩ : BufTy).Contents (Elt Ideal))
    (x4 x5 : (⟨S256x256, .f32⟩ : BufTy).Contents (Elt Ideal)) (x6 : (⟨S256, .f32⟩ : BufTy).Contents (Elt Ideal))
    (x7 : (⟨S256x256, .f32⟩ : BufTy).Contents (Elt Ideal))
    (hr : ∀ e : Fin 800000, 0 ≤ (x1 (ix2 0 e)).toInt ∧ (x1 (ix2 0 e)).toInt < 50000) (n : Fin 50000) (j : Fin 256) :
    Cert.ReferenceIdeal.Read.val_main_v58 (F := Ideal) x0 x1 x2 x3 x4 x5 x6 x7 (ix2 n j)
      = Cert.Sage.net (fun e => Cert.Sage.srcRow (x1 (ix2 0 e)).toInt (hr e)) (fun e => (x1 (ix2 1 e)).toInt)
          (fun n k => x0 (ix2 n k)) (fun j k => x2 (ix2 j k)) (fun j => x3 (ix1 j)) (fun j k => x4 (ix2 j k))
          (fun j k => x5 (ix2 j k)) (fun j => x6 (ix1 j)) (fun j k => x7 (ix2 j k)) n j := by
  have hX : (fun (n' : Fin 50000) (k' : Fin 256) => val_main_v31 (F := Ideal) x0 x1 x2 x3 x4 (ix2 n' k'))
      = fun n' k' => max (Cert.Sage.layer (fun e => Cert.Sage.srcRow (x1 (ix2 0 e)).toInt (hr e))
          (fun e => (x1 (ix2 1 e)).toInt) (fun n k => x0 (ix2 n k)) (fun j k => x2 (ix2 j k)) (fun j => x3 (ix1 j))
          (fun j k => x4 (ix2 j k)) n' k') 0 :=
    funext fun n' => funext fun k' => v31_at x0 x1 x2 x3 x4 hr n' k'
  rw [v58_at x0 x1 x2 x3 x4 x5 x6 x7 hr, hX]
  rfl

end Cert.ReferenceIdeal.RefValue
end
-- ==== Proof.Bridge.lean ====
import proofs.«417335_j4861902979554_2_alg».proof.Proof.Run
import proofs.«417335_j4861902979554_2_alg».proof.Proof.Keep2
import proofs.«417335_j4861902979554_2_alg».proof.Proof.ValGather0
import proofs.«417335_j4861902979554_2_alg».proof.Proof.ValGather3
import proofs.«417335_j4861902979554_2_alg».proof.Proof.ValScatter1
import proofs.«417335_j4861902979554_2_alg».proof.Proof.ValScatter4
import proofs.«417335_j4861902979554_2_alg».proof.Proof.ValCombine2
import proofs.«417335_j4861902979554_2_alg».proof.Proof.ValCombine5
import proofs.«417335_j4861902979554_2_alg».proof.Proof.ValHost
import proofs.«417335_j4861902979554_2_alg».proof.Proof.LayerMath
import proofs.«417335_j4861902979554_2_alg».proof.Proof.RefValue

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem

theorem gatheredAt_pt (idx : S800768x1.Idx → BitVec 32) (T : S51200x256.Idx → EReal) (r : Fin 800768) (f : Fin 256)
    (w : BitVec 32) (T' : Fin 51200 → EReal) (hw : idx (ix2 r 0) = w) (hT : ∀ s, T (ix2 s f) = T' s) :
    gatheredAt idx T r f = ∑ s : Fin 51200, (if w = BitVec.ofNat 32 s.val then (1 : EReal) else 0) * T' s := by
  unfold gatheredAt; simp only [hw, hT]

theorem scatteredAt_pt (idx : S1x800768.Idx → BitVec 32) (R : S800768x256.Idx → EReal) (n : Fin 51200) (f : Fin 256)
    (d' : Fin 800768 → BitVec 32) (R' : Fin 800768 → EReal) (hd : ∀ e, idx (ix2 0 e) = d' e) (hR : ∀ e, R (ix2 e f) = R' e) :
    scatteredAt idx R n f = ∑ e : Fin 800768, (if d' e = BitVec.ofNat 32 n.val then (1 : EReal) else 0) * R' e := by
  unfold scatteredAt; simp only [hd, hR]

theorem combinedAt_pt (A X : S51200x256.Idx → EReal) (Wl Wr : S256x256.Idx → EReal) (b : S1x256.Idx → EReal) (n : Fin 51200) (j : Fin 256)
    (A' X' Wl' Wr' : Fin 256 → EReal) (b' : EReal)
    (hA : ∀ k, A (ix2 n k) = A' k) (hX : ∀ k, X (ix2 n k) = X' k) (hWl : ∀ k, Wl (ix2 j k) = Wl' k) (hWr : ∀ k, Wr (ix2 j k) = Wr' k)
    (hb : b (ix2 0 j) = b') :
    combinedAt A X Wl Wr b n j = max (((∑ k : Fin 256, A' k * Wl' k) + b') + ∑ k : Fin 256, X' k * Wr' k) 0 := by
  rw [combinedAt_eq]; simp only [hA, hX, hWl, hWr, hb]

theorem affineAt_pt (A X : S51200x256.Idx → EReal) (Wl Wr : S256x256.Idx → EReal) (b : S1x256.Idx → EReal) (n : Fin 51200) (j : Fin 256)
    (A' X' Wl' Wr' : Fin 256 → EReal) (b' : EReal)
    (hA : ∀ k, A (ix2 n k) = A' k) (hX : ∀ k, X (ix2 n k) = X' k) (hWl : ∀ k, Wl (ix2 j k) = Wl' k) (hWr : ∀ k, Wr (ix2 j k) = Wr' k)
    (hb : b (ix2 0 j) = b') :
    affineAt A X Wl Wr b n j = ((∑ k : Fin 256, A' k * Wl' k) + b') + ∑ k : Fin 256, X' k * Wr' k := by
  rw [affineAt_eq]; simp only [hA, hX, hWl, hWr, hb]

variable (m : (ℓ : Loc nD τ sig) → Buf (Elt Ideal) ℓ) (c : Dev nD)

def ei0 (e : Fin 800000) : BitVec 32 := (m ((c : Thread nD τ).loc main_arg1) : S2x800000.Idx → BitVec 32) (ix2 0 e)
def ei1 (e : Fin 800000) : BitVec 32 := (m ((c : Thread nD τ).loc main_arg1) : S2x800000.Idx → BitVec 32) (ix2 1 e)
def XX (n : Fin 50000) (k : Fin 256) : EReal := (m ((c : Thread nD τ).loc main_arg0) : S50000x256.Idx → EReal) (ix2 n k)
def W1l (j k : Fin 256) : EReal := (m ((c : Thread nD τ).loc main_arg2) : S256x256.Idx → EReal) (ix2 j k)
def B1 (j : Fin 256) : EReal := (m ((c : Thread nD τ).loc main_arg3) : S256.Idx → EReal) (ix1 j)
def W1r (j k : Fin 256) : EReal := (m ((c : Thread nD τ).loc main_arg4) : S256x256.Idx → EReal) (ix2 j k)
def W2l (j k : Fin 256) : EReal := (m ((c : Thread nD τ).loc main_arg5) : S256x256.Idx → EReal) (ix2 j k)
def B2 (j : Fin 256) : EReal := (m ((c : Thread nD τ).loc main_arg6) : S256.Idx → EReal) (ix1 j)
def W2r (j k : Fin 256) : EReal := (m ((c : Thread nD τ).loc main_arg7) : S256x256.Idx → EReal) (ix2 j k)

def idxF (e : Fin 800768) : BitVec 32 := (W8 m c (Proc.devRef .tc main_v11) : S800768x1.Idx → BitVec 32) (ix2 e 0)
def dstF (e : Fin 800768) : BitVec 32 := (W8 m c (Proc.devRef .tc main_v13) : S1x800768.Idx → BitVec 32) (ix2 0 e)
def cntF (n : Fin 51200) : EReal := (W8 m c (Proc.devRef .tc main_v9) : S51200x1.Idx → EReal) (ix2 n 0)
def T1F (s : Fin 51200) (k : Fin 256) : EReal := (W8 m c (Proc.devRef .tc main_v14) : S51200x256.Idx → EReal) (ix2 s k)

def HF (s : Fin 51200) (k : Fin 256) : EReal := (W12 m c (Proc.devRef .tc main_v22) : S51200x256.Idx → EReal) (ix2 s k)

theorem v13_at9 : (W9 m c (Proc.devRef .tc main_v13) : S1x800768.Idx → BitVec 32) = W8 m c (Proc.devRef .tc main_v13) :=
  W9_keep m c main_v13 (by decide)
theorem v13_at13 : (W13 m c (Proc.devRef .tc main_v13) : S1x800768.Idx → BitVec 32) = W8 m c (Proc.devRef .tc main_v13) :=
  (W13_of_W12 m c main_v13 (by decide)).trans <| (W12_keep m c main_v13 (by decide)).trans <|
    (W11_of_W10 m c main_v13 (by decide)).trans (W10_of_W8 m c main_v13 (by decide) (by decide))
theorem v11_at12 : (W12 m c (Proc.devRef .tc main_v11) : S800768x1.Idx → BitVec 32) = W8 m c (Proc.devRef .tc main_v11) :=
  (W12_keep m c main_v11 (by decide)).trans <| (W11_of_W10 m c main_v11 (by decide)).trans (W10_of_W8 m c main_v11 (by decide) (by decide))
theorem v9_at10 : (W10 m c (Proc.devRef .tc main_v9) : S51200x1.Idx → EReal) = W8 m c (Proc.devRef .tc main_v9) :=
  W10_of_W8 m c main_v9 (by decide) (by decide)
theorem v9_at14 : (W14 m c (Proc.devRef .tc main_v9) : S51200x1.Idx → EReal) = W8 m c (Proc.devRef .tc main_v9) :=
  (W14_of_W11 m c main_v9 (by decide) (by decide) (by decide)).trans <| (W11_of_W10 m c main_v9 (by decide)).trans (v9_at10 m c)
theorem v14_at11 : (W11 m c (Proc.devRef .tc main_v14) : S51200x256.Idx → EReal) = W8 m c (Proc.devRef .tc main_v14) :=
  (W11_of_W10 m c main_v14 (by decide)).trans (W10_of_W8 m c main_v14 (by decide) (by decide))
theorem v22_at15 : (W15 m c (Proc.devRef .tc main_v22) : S51200x256.Idx → EReal) = W12 m c (Proc.devRef .tc main_v22) :=
  (W15_of_W14 m c main_v22 (by decide)).trans (W14_of_W12 m c main_v22 (by decide) (by decide))

theorem arg_at10 (r : Ref sig .tc) (h : Kept r) : W10 m c (Proc.devRef .tc r) = m ((c : Thread nD τ).loc r) := by
  have ⟨h0, h1, h2, h3, h4, h5, h6, h7, _, _, _, o0, o1, _⟩ := h
  exact (W10_of_W8 m c r o0 o1).trans (W8_of_W0 m c r h0 h1 h2 h3 h4 h5 h6 h7)
theorem arg_at11 (r : Ref sig .tc) (h : Kept r) : W11 m c (Proc.devRef .tc r) = m ((c : Thread nD τ).loc r) := by
  have ⟨_, _, _, _, _, _, _, _, h10, _⟩ := h
  exact (W11_of_W10 m c r h10).trans (arg_at10 m c r h)
theorem arg_at14 (r : Ref sig .tc) (h : Kept r) : W14 m c (Proc.devRef .tc r) = m ((c : Thread nD τ).loc r) := by
  have ⟨_, _, _, _, _, _, _, _, _, _, _, _, _, o2, o3, o4, _⟩ := h
  exact (W14_of_W11 m c r o2 o3 o4).trans (arg_at11 m c r h)
theorem arg_at15 (r : Ref sig .tc) (h : Kept r) : W15 m c (Proc.devRef .tc r) = m ((c : Thread nD τ).loc r) := by
  have ⟨_, _, _, _, _, _, _, _, _, h14, _⟩ := h
  exact (W15_of_W14 m c r h14).trans (arg_at14 m c r h)

theorem xg1_eq (e : Fin 800768) (k : Fin 256) :
    (W9 m c (Proc.devRef .tc main_v15) : S800768x256.Idx → EReal) (ix2 e k)
      = ∑ s : Fin 51200, (if idxF m c e = BitVec.ofNat 32 s.val then (1 : EReal) else 0) * T1F m c s k := by
  have e1 : (W9 m c (Proc.devRef .tc main_v15) : S800768x256.Idx → EReal) = (dat0 (F := Ideal) (Vin0 m) c).arrAt 2 cfg0.N := W9_arr m c 2
  rw [e1, gather0_final (Vin0 m) c e k]
  exact gatheredAt_pt _ _ e k _ _ rfl (fun s => rfl)

theorem agg1_eq (n : Fin 51200) (k : Fin 256) :
    (W10 m c (Proc.devRef .tc main_v16) : S51200x256.Idx → EReal) (ix2 n k)
      = ∑ e : Fin 800768, (if dstF m c e = BitVec.ofNat 32 n.val then (1 : EReal) else 0)
          * ∑ s : Fin 51200, (if idxF m c e = BitVec.ofNat 32 s.val then (1 : EReal) else 0) * T1F m c s k := by
  have e1 : (W10 m c (Proc.devRef .tc main_v16) : S51200x256.Idx → EReal) = (dat1 (F := Ideal) (Vin1 m) c).arrAt 2 cfg1.N := W10_arr m c 2
  rw [e1, scatter1_final (Vin1 m) c n k]
  exact scatteredAt_pt _ _ n k _ _ (fun e => congrFun (v13_at9 m c) (ix2 0 e)) (fun e => xg1_eq m c e k)

theorem h_eq (s : Fin 51200) (j : Fin 256) :
    HF m c s j = max (Cert.Sage.klayer (idxF m c) (dstF m c) (cntF m c) (T1F m c) (W1l m c) (B1 m c) (W1r m c) s j) 0 := by
  have e1 : (W12 m c (Proc.devRef .tc main_v22) : S51200x256.Idx → EReal) = (dat2 (F := Ideal) (Vin2 m) c).arrAt 5 cfg2.N := W12_arr m c 5
  unfold HF
  rw [e1, combine2_final (Vin2 m) c s j]
  refine combinedAt_pt _ _ _ _ _ s j _ _ _ _ _ (fun k => ?_) (fun k => ?_) (fun k => ?_) (fun k => ?_) ?_
  ·
    refine (host2_mean (W10 m c) s k).trans ?_
    rw [agg1_eq m c s k, congrFun (v9_at10 m c) (ix2 s 0)]
    rfl
  · exact congrFun (v14_at11 m c) (ix2 s k)
  · exact congrFun (show (W11 m c (Proc.devRef .tc main_arg2) : S256x256.Idx → EReal) = _ from
      arg_at11 m c main_arg2 (by decide)) (ix2 j k)
  · exact congrFun (show (W11 m c (Proc.devRef .tc main_arg4) : S256x256.Idx → EReal) = _ from
      arg_at11 m c main_arg4 (by decide)) (ix2 j k)
  · refine (host2_bias (W10 m c) j).trans ?_
    exact congrFun (show (W10 m c (Proc.devRef .tc main_arg3) : S256.Idx → EReal) = _ from
      arg_at10 m c main_arg3 (by decide)) (ix1 j)

theorem xg2_eq (e : Fin 800768) (k : Fin 256) :
    (W13 m c (Proc.devRef .tc main_v23) : S800768x256.Idx → EReal) (ix2 e k)
      = ∑ s : Fin 51200, (if idxF m c e = BitVec.ofNat 32 s.val then (1 : EReal) else 0) * HF m c s k := by
  have e1 : (W13 m c (Proc.devRef .tc main_v23) : S800768x256.Idx → EReal) = (dat3 (F := Ideal) (Vin3 m) c).arrAt 2 cfg3.N := W13_arr m c 2
  rw [e1, gather3_final (Vin3 m) c e k]
  exact gatheredAt_pt _ _ e k _ _ (congrFun (v11_at12 m c) (ix2 e 0)) (fun s => rfl)

theorem agg2_eq (n : Fin 51200) (k : Fin 256) :
    (W14 m c (Proc.devRef .tc main_v24) : S51200x256.Idx → EReal) (ix2 n k)
      = ∑ e : Fin 800768, (if dstF m c e = BitVec.ofNat 32 n.val then (1 : EReal) else 0)
          * ∑ s : Fin 51200, (if idxF m c e = BitVec.ofNat 32 s.val then (1 : EReal) else 0) * HF m c s k := by
  have e1 : (W14 m c (Proc.devRef .tc main_v24) : S51200x256.Idx → EReal) = (dat4 (F := Ideal) (Vin4 m) c).arrAt 2 cfg4.N := W14_arr m c 2
  rw [e1, scatter4_final (Vin4 m) c n k]
  exact scatteredAt_pt _ _ n k _ _ (fun e => congrFun (v13_at13 m c) (ix2 0 e)) (fun e => xg2_eq m c e k)

theorem out_eq (n : Fin 51200) (j : Fin 256) :
    (W16 m c (Proc.devRef .tc main_v30) : S51200x256.Idx → EReal) (ix2 n j)
      = Cert.Sage.klayer (idxF m c) (dstF m c) (cntF m c) (HF m c) (W2l m c) (B2 m c) (W2r m c) n j := by
  have e1 : (W16 m c (Proc.devRef .tc main_v30) : S51200x256.Idx → EReal) = (dat5 (F := Ideal) (Vin5 m) c).arrAt 5 cfg5.N := W16_arr m c 5
  rw [e1, combine5_final (Vin5 m) c n j]
  refine affineAt_pt _ _ _ _ _ n j _ _ _ _ _ (fun k => ?_) (fun k => ?_) (fun k => ?_) (fun k => ?_) ?_
  · refine (host5_mean (W14 m c) n k).trans ?_
    rw [agg2_eq m c n k, congrFun (v9_at14 m c) (ix2 n 0)]
    rfl
  · exact congrFun (v22_at15 m c) (ix2 n k)
  · exact congrFun (show (W15 m c (Proc.devRef .tc main_arg5) : S256x256.Idx → EReal) = _ from
      arg_at15 m c main_arg5 (by decide)) (ix2 j k)
  · exact congrFun (show (W15 m c (Proc.devRef .tc main_arg7) : S256x256.Idx → EReal) = _ from
      arg_at15 m c main_arg7 (by decide)) (ix2 j k)
  · refine (host5_bias (W14 m c) j).trans ?_
    exact congrFun (show (W14 m c (Proc.devRef .tc main_arg6) : S256.Idx → EReal) = _ from
      arg_at14 m c main_arg6 (by decide)) (ix1 j)

theorem v1_at3 : (W3 m c (Proc.devRef .tc main_v1) : S800000.Idx → BitVec 32) = W1 m c (Proc.devRef .tc main_v1) :=
  (StableHlo.after_of_writes_sub hostOps0_2 _ hostOps0_2_writes (by decide)).trans
    (StableHlo.after_of_writes_sub hostOps0_1 _ hostOps0_1_writes (by decide))
theorem v3_at5 : (W5 m c (Proc.devRef .tc main_v3) : S800000.Idx → BitVec 32) = W1 m c (Proc.devRef .tc main_v3) :=
  (StableHlo.after_of_writes_sub hostOps0_4 _ hostOps0_4_writes (by decide)).trans <|
  (StableHlo.after_of_writes_sub hostOps0_3 _ hostOps0_3_writes (by decide)).trans <|
  (StableHlo.after_of_writes_sub hostOps0_2 _ hostOps0_2_writes (by decide)).trans
    (StableHlo.after_of_writes_sub hostOps0_1 _ hostOps0_1_writes (by decide))
theorem arg0_at7 : (W7 m c (Proc.devRef .tc main_arg0) : S50000x256.Idx → EReal) = m ((c : Thread nD τ).loc main_arg0) :=
  (W7_of_W1 m c main_arg0 (by decide) (by decide) (by decide) (by decide) (by decide) (by decide)).trans
    (StableHlo.after_of_writes_sub hostOps0 _ hostOps0_writes (by decide))

theorem idxF_eq (e : Fin 800768) : idxF m c e = if h : e.val < 800000 then ei0 m c ⟨e.val, h⟩ else 0#32 := by
  unfold idxF
  rw [show (W8 m c (Proc.devRef .tc main_v11) : S800768x1.Idx → BitVec 32) = W5 m c (Proc.devRef .tc main_v11) from
    W8_of_W5 m c main_v11 (by decide) (by decide) (by decide)]
  refine (host_srcpad (W3 m c) (host_c (W2 m c)) e).trans ?_
  by_cases h : e.val < 800000
  · rw [dif_pos h, dif_pos h, congrFun (v1_at3 m c) (ix1 ⟨e.val, h⟩)]
    exact host0_src (W0 m c) ⟨e.val, h⟩
  · rw [dif_neg h, dif_neg h]

theorem dstF_eq (e : Fin 800768) : dstF m c e = if h : e.val < 800000 then ei1 m c ⟨e.val, h⟩ else 51199#32 := by
  unfold dstF
  rw [show (W8 m c (Proc.devRef .tc main_v13) : S1x800768.Idx → BitVec 32) = W7 m c (Proc.devRef .tc main_v13) from
    W8_of_W7 m c main_v13 (by decide)]
  refine (host_dstpad (W5 m c) (host_c_2 (W4 m c)) e).trans ?_
  by_cases h : e.val < 800000
  · rw [dif_pos h, dif_pos h, congrFun (v3_at5 m c) (ix1 ⟨e.val, h⟩)]
    exact host0_dst (W0 m c) ⟨e.val, h⟩
  · rw [dif_neg h, dif_neg h]

theorem cntF_eq (n : Fin 51200) : cntF m c n
    = if h : n.val < 50000 then ∑ e : Fin 800000, (if (ei1 m c e).toInt = (n.val : ℤ) then (1 : EReal) else 0) else 1 := by
  unfold cntF
  rw [show (W8 m c (Proc.devRef .tc main_v9) : S51200x1.Idx → EReal) = W3 m c (Proc.devRef .tc main_v9) from
    W8_of_W3 m c main_v9 (by decide) (by decide) (by decide) (by decide) (by decide)]
  refine (host_cntpad (W1 m c) (host_cst_1 (W0 m c)) n).trans ?_
  by_cases h : n.val < 50000
  · rw [dif_pos h, dif_pos h]
    exact host0_cnt (W0 m c) ⟨n.val, h⟩
  · rw [dif_neg h, dif_neg h]

theorem T1F_real (n : Fin 50000) (k : Fin 256) : T1F m c ⟨n.val, by omega⟩ k = XX m c n k := by
  unfold T1F
  refine (host_xpad (W7 m c) (host_c_3 (W6 m c)) ⟨n.val, by omega⟩ k).trans ?_
  rw [dif_pos n.isLt]
  exact congrFun (arg0_at7 m c) (ix2 n k)

def netAt (hr : ∀ e : Fin 800000, 0 ≤ (ei0 m c e).toInt ∧ (ei0 m c e).toInt < 50000) (n : Fin 50000) (j : Fin 256) : EReal :=
  Cert.Sage.net (fun e => Cert.Sage.srcRow (ei0 m c e).toInt (hr e)) (fun e => (ei1 m c e).toInt)
    (XX m c) (W1l m c) (B1 m c) (W1r m c) (W2l m c) (B2 m c) (W2r m c) n j

def result (hr : ∀ e : Fin 800000, 0 ≤ (ei0 m c e).toInt ∧ (ei0 m c e).toInt < 50000) :
    Buf (Elt Ideal) ((c : Thread nD τ).loc main_v31) :=
  show S50000x256.Idx → EReal from fun i => netAt m c hr ⟨(i 0).val, (i 0).isLt⟩ ⟨(i 1).val, (i 1).isLt⟩

theorem kernel_value_at (hr : ∀ e : Fin 800000, 0 ≤ (ei0 m c e).toInt ∧ (ei0 m c e).toInt < 50000) (n : Fin 50000) (j : Fin 256) :
    (W17 m c (Proc.devRef .tc main_v31) : S50000x256.Idx → EReal) (ix2 n j) = netAt m c hr n j := by
  refine (host6_out (W16 m c) n j).trans ?_
  rw [out_eq m c ⟨n.val, by omega⟩ j]
  rw [Cert.Sage.klayer_eq_layer (ei0 m c) (ei1 m c) hr (idxF m c) (dstF m c) (idxF_eq m c) (dstF_eq m c) (cntF m c) (cntF_eq m c)
    (HF m c) (W2l m c) (B2 m c) (W2r m c) n j]
  have hX : (fun (n : Fin 50000) (k : Fin 256) => HF m c ⟨n.val, by omega⟩ k)
      = fun n k => max (Cert.Sage.layer (fun e => Cert.Sage.srcRow (ei0 m c e).toInt (hr e)) (fun e => (ei1 m c e).toInt)
          (XX m c) (W1l m c) (B1 m c) (W1r m c) n k) 0 := by
    funext n k
    rw [h_eq m c ⟨n.val, by omega⟩ k,
      Cert.Sage.klayer_eq_layer (ei0 m c) (ei1 m c) hr (idxF m c) (dstF m c) (idxF_eq m c) (dstF_eq m c) (cntF m c) (cntF_eq m c)
        (T1F m c) (W1l m c) (B1 m c) (W1r m c) n k]
    have hT : (fun (n : Fin 50000) (k : Fin 256) => T1F m c ⟨n.val, by omega⟩ k) = XX m c := by
      funext n k; exact T1F_real m c n k
    rw [hT]
  rw [hX]
  rfl

theorem kernel_value (hr : ∀ e : Fin 800000, 0 ≤ (ei0 m c e).toInt ∧ (ei0 m c e).toInt < 50000) :
    W17 m c (Proc.devRef .tc main_v31) = result m c hr := by
  show (W17 m c (Proc.devRef .tc main_v31) : S50000x256.Idx → EReal) = _
  funext i
  obtain ⟨n, j, rfl⟩ : ∃ (n : Fin 50000) (j : Fin 256), i = ix2 n j := ⟨i 0, i 1, eq_ix2 i⟩
  exact kernel_value_at m c hr n j

theorem reference_value (hr : ∀ e : Fin 800000, 0 ≤ (ei0 m c e).toInt ∧ (ei0 m c e).toInt < 50000) :
    Cert.ReferenceIdeal.Read.val_main_v58 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      = result m c hr := by
  show (_ : S50000x256.Idx → EReal) = _
  funext i
  obtain ⟨n, j, rfl⟩ : ∃ (n : Fin 50000) (j : Fin 256), i = ix2 n j := ⟨i 0, i 1, eq_ix2 i⟩
  exact Cert.ReferenceIdeal.RefValue.ref_value _ _ _ _ _ _ _ _ hr n j

theorem args_kept (s : MemSt nD τ sig (Elt Ideal))
    (h : ∀ c : Dev nD, ∀ b ∈ Pipeline.ucRefs τ sig, s.mem (((c : Thread nD τ)).1, b) = W17 m c b) (c : Dev nD) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7) :=
  ⟨(h c _ (mem_uc main_arg0 (by decide))).trans (W17_keep m c main_arg0 (by decide)),
   (h c _ (mem_uc main_arg1 (by decide))).trans (W17_keep m c main_arg1 (by decide)),
   (h c _ (mem_uc main_arg2 (by decide))).trans (W17_keep m c main_arg2 (by decide)),
   (h c _ (mem_uc main_arg3 (by decide))).trans (W17_keep m c main_arg3 (by decide)),
   (h c _ (mem_uc main_arg4 (by decide))).trans (W17_keep m c main_arg4 (by decide)),
   (h c _ (mem_uc main_arg5 (by decide))).trans (W17_keep m c main_arg5 (by decide)),
   (h c _ (mem_uc main_arg6 (by decide))).trans (W17_keep m c main_arg6 (by decide)),
   (h c _ (mem_uc main_arg7 (by decide))).trans (W17_keep m c main_arg7 (by decide))⟩

end Cert.KernelIdeal.Val

end
-- ==== Proof.PreDecode.lean ====
import proofs.«417335_j4861902979554_2_alg».proof.Pre_finite_inputs
import Idealize.ShloMosaic.Lib.ReduceAll
import Idealize.ShloMosaic.Lib.StableHlo.Predicate
import Idealize.ShloMosaic.Lib.ValueIdx
import Idealize.ShloMosaic.Lib.Pipeline.Value

namespace Cert.PreDecode
open Idealize.ShloMosaic Idealize.ShloMosaic.ValueIdx Cert.Pre_finite_inputs

theorem scalarIdx_subsingleton : Subsingleton S_.Idx := ⟨fun a b => funext fun d => d.elim0⟩

theorem row0_read [Cert.Pre_finite_inputs.Facts] (ei : IVec S2x800000 32) (e : Fin 800000) :
    shapeCast S800000 ((extractStridedSlice S1x800000 ![0, 0] · Facts.slices_S2x800000_S1x800000_0_0) ei)
      Facts.shapeCasts_S1x800000_S800000 (ix1 e) = ei (ix2 0 e) := by
  refine (shapeCast_apply _ _ (ix1 e) (ix2 (0 : Fin 1) e) ?_).trans ?_
  · rw [Shape.rowMajor_val_two, Shape.rowMajor_val_one]
    show (0 : Nat) * 800000 + e.val = e.val
    omega
  · refine extractStridedSlice_apply _ _ _ _ (ix2 0 e) fun a => ?_
    match a with
    | ⟨0, _⟩ => rfl
    | ⟨1, _⟩ => show e.val = 0 + e.val; omega

theorem bcast_const [Cert.Pre_finite_inputs.Facts] (c : BitVec 32) (j : S800000.Idx) :
    broadcastInDim S800000 ![] Facts.bcast_S_S800000 (constantI S_ 32 c) j = c := rfl

theorem part2_decode {F : FTy → Type} [FloatOps F] [Cert.Pre_finite_inputs.Facts]
    (ei : IVec S2x800000 32) (v : IVec S_ 1)
    (h : Cert.Pre_finite_inputs.fn_part2 (F := F) ei v = fun _ => 1#1) (e : Fin 800000) :
    0 ≤ (ei (ix2 0 e)).toInt ∧ (ei (ix2 0 e)).toInt < 50000 := by
  haveI := scalarIdx_subsingleton
  have h0 := congrFun h ix0
  dsimp only [Cert.Pre_finite_inputs.fn_part2] at h0

  obtain ⟨h1, hlt⟩ := IntOp.andi_eq_one.1 h0
  obtain ⟨-, hge⟩ := IntOp.andi_eq_one.1 h1

  have ge := IntOp.cmpi_sge.1 (Host.reduce_andi_all _ _ _ _ ix0 hge (ix1 e))
  have lt := IntOp.cmpi_slt.1 (Host.reduce_andi_all _ _ _ _ ix0 hlt (ix1 e))
  rw [row0_read, bcast_const] at ge lt
  rw [show (0#32 : BitVec 32).toInt = 0 from by decide] at ge
  rw [show (50000#32 : BitVec 32).toInt = 50000 from by decide] at lt
  exact ⟨ge, lt⟩

theorem src_in_range {F : FTy → Type} [FloatOps F] [Cert.Pre_finite_inputs.Facts]
    (a0 : FVec F S50000x256 .f32) (ei : IVec S2x800000 32) (a2 : FVec F S256x256 .f32) (a3 : FVec F S256 .f32)
    (a4 a5 : FVec F S256x256 .f32) (a6 : FVec F S256 .f32) (a7 : FVec F S256x256 .f32)
    (h : Cert.Pre_finite_inputs.fn (F := F) a0 ei a2 a3 a4 a5 a6 a7 = fun _ => 1#1) (e : Fin 800000) :
    0 ≤ (ei (ix2 0 e)).toInt ∧ (ei (ix2 0 e)).toInt < 50000 := by

  obtain ⟨v, hv⟩ : ∃ v : IVec S_ 1, Cert.Pre_finite_inputs.fn (F := F) a0 ei a2 a3 a4 a5 a6 a7
      = Cert.Pre_finite_inputs.fn_part2 (F := F) ei v := ⟨_, rfl⟩
  exact part2_decode (F := F) ei v (hv.symm.trans h) e

end Cert.PreDecode
-- ==== Proof.lean ====
import proofs.«417335_j4861902979554_2_alg».proof.Defs
import proofs.«417335_j4861902979554_2_alg».proof.Proof.Gen.Kernel
import proofs.«417335_j4861902979554_2_alg».proof.Proof.Gen.KernelIdeal
import proofs.«417335_j4861902979554_2_alg».proof.Proof.Gen.ReferenceIdeal
import proofs.«417335_j4861902979554_2_alg».proof.Proof.Gen.ReferenceIdeal.Run
import proofs.«417335_j4861902979554_2_alg».proof.Proof.Gen.ReferenceIdeal.Read
import proofs.«417335_j4861902979554_2_alg».proof.Proof.Gen.Pre_finite_inputs
import proofs.«417335_j4861902979554_2_alg».proof.Proof.KRun
import proofs.«417335_j4861902979554_2_alg».proof.Proof.Run
import proofs.«417335_j4861902979554_2_alg».proof.Proof.Bridge
import proofs.«417335_j4861902979554_2_alg».proof.Proof.RefValue
import proofs.«417335_j4861902979554_2_alg».proof.Proof.PreDecode
import Idealize.ShloMosaic.Adequacy
import Idealize.ShloMosaic.Init

noncomputable section

namespace Cert.Proof

open Idealize.ShloMosaic Idealize.SL.Sem Idealize.ShloMosaic.ValueIdx

-- The kernel program's run is its seventeen items launched in order; the frame reads off that every argument ends as launched.
theorem frame_k : Cert.frame_Kernel := fun m g _ => Cert.Kernel.Reg.frame_all (F := Bits) m g

theorem frame_ki : Cert.frame_KernelIdeal := fun m g _ => Cert.KernelIdeal.Reg.frame_all (F := Ideal) m g

theorem frame_ri : Cert.frame_ReferenceIdeal := fun m g _ =>
  (θ_run Cert.ReferenceIdeal.defs _ _).mono (fun _ h c => (h c).2) (Cert.ReferenceIdeal.Value.run (F := Ideal) m g)

theorem preserves : Cert.preserves_Kernel_KernelIdeal := trivial

-- Both idealized programs end at one function of the inputs: two layers of mean aggregation followed by the two linear maps.
theorem algebraic : Cert.algebraic_KernelIdeal_ReferenceIdeal := by
  intro m g m' g' hpre hagree
  have hr : ∀ c : Dev Cert.KernelIdeal.nD, ∀ e : Fin 800000,
      0 ≤ (Cert.KernelIdeal.Val.ei0 m c e).toInt ∧ (Cert.KernelIdeal.Val.ei0 m c e).toInt < 50000 :=
    fun c e => Cert.PreDecode.src_in_range _ _ _ _ _ _ _ _ (hpre c) e
  refine ⟨fun c => Cert.KernelIdeal.Val.result m c (hr c), ?_, ?_⟩
  · exact (θ_run Cert.KernelIdeal.defs _ _).mono
      (fun r h c => ⟨(h c _ (Cert.KernelIdeal.Reg.mem_uc Cert.KernelIdeal.main_v31 (by decide))).trans
          (Cert.KernelIdeal.Val.kernel_value m c (hr c)), Cert.KernelIdeal.Val.args_kept m r.2 h c⟩)
      (Cert.KernelIdeal.Reg.run_all (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v58_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.KernelIdeal.Val.reference_value m c (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
